-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x512 : Shape := ⟨3, ![32, 64, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32x64x512 .f32) (main_arg1 : FVec F S512x128 .f32) (main_arg2 : FVec F S128 .f32) (main_arg3 : FVec F S128x1 .f32) (main_arg4 : FVec F S1 .f32) : IVec S_ 1 :=
  let main_v0 : FVec F S32x64x512 .f32 := Host.absf main_arg0
  let main_cst : FVec F S_ .f32 := constant S_ .f32 0x7F800000#32
  let main_v1 : FVec F S32x64x512 .f32 := broadcastInDim S32x64x512 ![] bcast_S_S32x64x512 main_cst
  let main_v2 : IVec S32x64x512 1 := cmpf .olt main_v0 main_v1
  let main_c : IVec S_ 1 := constantI S_ 1 1#1
  let main_v3 : IVec S_ 1 := (fun x v => Host.reduce IntOp.andi x v reducesTo_S32x64x512_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_v13 main_v16
-- ==== Kernel.lean ====
abbrev S32x64x512 : Shape := ⟨3, ![32, 64, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2016 : Shape := ⟨1, ![2016]⟩
abbrev S1x1 : Shape := ⟨2, ![1, 1]⟩
abbrev S512x32x512 : Shape := ⟨3, ![512, 32, 512]⟩
abbrev S32x64x128 : Shape := ⟨3, ![32, 64, 128]⟩
abbrev S512x32x128 : Shape := ⟨3, ![512, 32, 128]⟩
abbrev S64x32x128 : Shape := ⟨3, ![64, 32, 128]⟩
abbrev S63x32x128 : Shape := ⟨3, ![63, 32, 128]⟩
abbrev S1x32x128 : Shape := ⟨3, ![1, 32, 128]⟩
abbrev S62x32x128 : Shape := ⟨3, ![62, 32, 128]⟩
abbrev S2x32x128 : Shape := ⟨3, ![2, 32, 128]⟩
abbrev S60x32x128 : Shape := ⟨3, ![60, 32, 128]⟩
abbrev S4x32x128 : Shape := ⟨3, ![4, 32, 128]⟩
abbrev S56x32x128 : Shape := ⟨3, ![56, 32, 128]⟩
abbrev S8x32x128 : Shape := ⟨3, ![8, 32, 128]⟩
abbrev S48x32x128 : Shape := ⟨3, ![48, 32, 128]⟩
abbrev S16x32x128 : Shape := ⟨3, ![16, 32, 128]⟩
abbrev S32x32x128 : Shape := ⟨3, ![32, 32, 128]⟩
abbrev S32x512 : Shape := ⟨2, ![32, 512]⟩
abbrev S512x8x512 : Shape := ⟨3, ![512, 8, 512]⟩
abbrev S8x512 : Shape := ⟨2, ![8, 512]⟩
abbrev S8x1 : Shape := ⟨2, ![8, 1]⟩
abbrev S48x8x512 : Shape := ⟨3, ![48, 8, 512]⟩
abbrev S1x8x512 : Shape := ⟨3, ![1, 8, 512]⟩
abbrev S8x48x512 : Shape := ⟨3, ![8, 48, 512]⟩
abbrev S384x512 : Shape := ⟨2, ![384, 512]⟩
abbrev S384x128 : Shape := ⟨2, ![384, 128]⟩
abbrev S1x128 : Shape := ⟨2, ![1, 128]⟩
abbrev S384x1 : Shape := ⟨2, ![384, 1]⟩
abbrev S8x48 : Shape := ⟨2, ![8, 48]⟩
abbrev S8 : Shape := ⟨1, ![8]⟩
abbrev S8x48x1 : Shape := ⟨3, ![8, 48, 1]⟩

abbrev nBuf : Space → Nat
  | .hbm => 8
  | .vmem => 18
  | .smem => 2
  | _ => 0

abbrev bufTy : (tb : Table) → Fin (tcTables nBuf tb) → BufTy
  | .hbm, ⟨0, _⟩ => ⟨S32x64x512, .f32⟩
  | .hbm, ⟨1, _⟩ => ⟨S512x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S1x1, .f32⟩
  | .hbm, ⟨6, _⟩ => ⟨S512x32x512, .f32⟩
  | .hbm, ⟨7, _⟩ => ⟨S32x512, .f32⟩
  | .local _ .vmem, ⟨0, _⟩ => ⟨S32x64x128, .f32⟩
  | .local _ .vmem, ⟨1, _⟩ => ⟨S32x64x128, .f32⟩
  | .local _ .vmem, ⟨2, _⟩ => ⟨S512x32x128, .f32⟩
  | .local _ .vmem, ⟨3, _⟩ => ⟨S512x32x128, .f32⟩
  | .local _ .vmem, ⟨4, _⟩ => ⟨S64x32x128, .f32⟩
  | .local _ .vmem, ⟨5, _⟩ => ⟨S64x32x128, .f32⟩
  | .local _ .vmem, ⟨6, _⟩ => ⟨S512x8x512, .f32⟩
  | .local _ .vmem, ⟨7, _⟩ => ⟨S512x8x512, .f32⟩
  | .local _ .vmem, ⟨8, _⟩ => ⟨S512x128, .f32⟩
  | .local _ .vmem, ⟨9, _⟩ => ⟨S128, .f32⟩
  | .local _ .vmem, ⟨10, _⟩ => ⟨S128x1, .f32⟩
  | .local _ .vmem, ⟨11, _⟩ => ⟨S1x1, .f32⟩
  | .local _ .vmem, ⟨12, _⟩ => ⟨S8x512, .f32⟩
  | .local _ .vmem, ⟨13, _⟩ => ⟨S8x512, .f32⟩
  | .local _ .vmem, ⟨14, _⟩ => ⟨S8x1, .f32⟩
  | .local _ .vmem, ⟨15, _⟩ => ⟨S8x1, .f32⟩
  | .local _ .vmem, ⟨16, _⟩ => ⟨S8x512, .f32⟩
  | .local _ .vmem, ⟨17, _⟩ => ⟨S48x8x512, .f32⟩
  | .local _ .smem, ⟨0, _⟩ => ⟨S2016, .i32⟩
  | .local _ .smem, ⟨1, _⟩ => ⟨S2016, .i32⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 42], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k1_t1_loop : Scf.Loop 32 :=
  let c0_i32_1 : BitVec 32 := 0#32
  let c48_i32_2 : BitVec 32 := 48#32
  let v4 : BitVec 32 := Scalar.addi c0_i32_1 c48_i32_2
  let c1_i32 : BitVec 32 := 1#32
  ⟨c0_i32_1, v4, c1_i32⟩
def k1_off1 (i : grid1.Coords) (k1_t1 : Fin k1_t1_loop.trips) : Fin 1 → Nat :=
  let arg1 : BitVec 32 := BitVec.ofNat 32 (i 1).val
  let c48_i32 : BitVec 32 := 48#32
  let v3 : BitVec 32 := Scalar.muli arg1 c48_i32
  let c0_i32_34 : BitVec 32 := 0#32
  let c0_i32_1 : BitVec 32 := 0#32
  let c1_i32 : BitVec 32 := 1#32
  let arg14 : BitVec 32 := Scf.iv c0_i32_1 c1_i32 k1_t1
  let c1_i32_33 : BitVec 32 := 1#32
  let v62 : BitVec 32 := Scalar.muli arg14 c1_i32_33
  let v63 : BitVec 32 := Scalar.addi c0_i32_34 v62
  let v64 : BitVec 32 := Scalar.addi v3 v63
  let v65 : Index := Scalar.indexCast v64
  ![v65.toNat]
def k1_off2 (v66 : BitVec 32) : Fin 3 → Nat :=
  let v70 : Index := Scalar.indexCast v66
  let c0_35 : Index := 0#32
  let c0_36 : Index := 0#32
  ![v70.toNat, 0, 0]

def k1_chk1 (v66 : BitVec 32) : Prop :=
  (∀ a, (k1_off2 v66) a + S1x8x512.size a ≤ S512x8x512.size a)
instance k1_chk1.dec : ∀ (v66 : BitVec 32), Decidable (k1_chk1 v66) := fun v66 => decidable_of_iff' _ (Iff.of_eq (k1_chk1.eq_1 v66))
theorem k1_off2_inb : ∀ (v66 : BitVec 32) (k1_hw1 : k1_chk1 v66), ∀ a, (k1_off2 v66) a + S1x8x512.size a ≤ S512x8x512.size a := fun v66 k1_hw1 => k1_hw1

def k1_off3 (v69 : BitVec 32) : Fin 3 → Nat :=
  let v73 : Index := Scalar.indexCast v69
  let c0_37 : Index := 0#32
  let c0_38 : Index := 0#32
  ![v73.toNat, 0, 0]

def k1_chk2 (v69 : BitVec 32) : Prop :=
  (∀ a, (k1_off3 v69) a + S1x8x512.size a ≤ S512x8x512.size a)
instance k1_chk2.dec : ∀ (v69 : BitVec 32), Decidable (k1_chk2 v69) := fun v69 => decidable_of_iff' _ (Iff.of_eq (k1_chk2.eq_1 v69))
theorem k1_off3_inb : ∀ (v69 : BitVec 32) (k1_hw2 : k1_chk2 v69), ∀ a, (k1_off3 v69) a + S1x8x512.size a ≤ S512x8x512.size a := fun v69 k1_hw2 => k1_hw2

def k1_off4 (k1_t1 : Fin k1_t1_loop.trips) : Fin 3 → Nat :=
  let c0_i32_34 : BitVec 32 := 0#32
  let c0_i32_1 : BitVec 32 := 0#32
  let c1_i32 : BitVec 32 := 1#32
  let arg14 : BitVec 32 := Scf.iv c0_i32_1 c1_i32 k1_t1
  let c1_i32_33 : BitVec 32 := 1#32
  let v62 : BitVec 32 := Scalar.muli arg14 c1_i32_33
  let v63 : BitVec 32 := Scalar.addi c0_i32_34 v62
  let v77 : Index := Scalar.indexCast v63
  let c0_39 : Index := 0#32
  let c0_40 : Index := 0#32
  ![v77.toNat, 0, 0]
def k1_cond2 (i : grid1.Coords) : BitVec 1 :=
  let arg1 : BitVec 32 := BitVec.ofNat 32 (i 1).val
  let c41_i32 : BitVec 32 := 41#32
  let v59 : BitVec 1 := Scalar.cmpi .eq arg1 c41_i32
  let v60 : BitVec 32 := Scalar.extui v59
  let c0_i32_32 : BitVec 32 := 0#32
  let v61 : BitVec 1 := Scalar.cmpi .ne v60 c0_i32_32
  v61

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x8x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S8x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  shapeCasts_S1_S1x1 : S1.ShapeCasts S1x1
  inb_S32x64x128_S32x64x128_0_0_0 : ∀ a, (![0, 0, 0] : Fin 3 → Nat) a + S32x64x128.size a ≤ S32x64x128.size a
  h_S32x64x128 : 0 < S32x64x128.numel
  transposes_S32x64x128_p1_0_2_S64x32x128 : S32x64x128.Transposes [1, 0, 2] S64x32x128
  inb_S64x32x128_S64x32x128_0_0_0 : ∀ a, (![0, 0, 0] : Fin 3 → Nat) a + S64x32x128.size a ≤ S64x32x128.size a
  h_S64x32x128 : 0 < S64x32x128.numel
  shapeCasts_S64x32x128_S64x32x128 : S64x32x128.ShapeCasts S64x32x128
  inb_S512x32x128_S64x32x128_0_0_0 : ∀ a, (![0, 0, 0] : Fin 3 → Nat) a + S64x32x128.size a ≤ S512x32x128.size a
  inb_S64x32x128_S63x32x128_1_0_0 : ∀ a, (![1, 0, 0] : Fin 3 → Nat) a + S63x32x128.size a ≤ S64x32x128.size a
  h_S63x32x128 : 0 < S63x32x128.numel
  inb_S64x32x128_S63x32x128_0_0_0 : ∀ a, (![0, 0, 0] : Fin 3 → Nat) a + S63x32x128.size a ≤ S64x32x128.size a
  shapeCasts_S63x32x128_S63x32x128 : S63x32x128.ShapeCasts S63x32x128
  inb_S64x32x128_S1x32x128_63_0_0 : ∀ a, (![63, 0, 0] : Fin 3 → Nat) a + S1x32x128.size a ≤ S64x32x128.size a
  h_S1x32x128 : 0 < S1x32x128.numel
  shapeCasts_S1x32x128_S1x32x128 : S1x32x128.ShapeCasts S1x32x128
  inb_S512x32x128_S64x32x128_64_0_0 : ∀ a, (![64, 0, 0] : Fin 3 → Nat) a + S64x32x128.size a ≤ S512x32x128.size a
  inb_S64x32x128_S62x32x128_2_0_0 : ∀ a, (![2, 0, 0] : Fin 3 → Nat) a + S62x32x128.size a ≤ S64x32x128.size a
  h_S62x32x128 : 0 < S62x32x128.numel
  inb_S64x32x128_S62x32x128_0_0_0 : ∀ a, (![0, 0, 0] : Fin 3 → Nat) a + S62x32x128.size a ≤ S64x32x128.size a
  shapeCasts_S62x32x128_S62x32x128 : S62x32x128.ShapeCasts S62x32x128
  inb_S64x32x128_S2x32x128_62_0_0 : ∀ a, (![62, 0, 0] : Fin 3 → Nat) a + S2x32x128.size a ≤ S64x32x128.size a
  h_S2x32x128 : 0 < S2x32x128.numel
  shapeCasts_S2x32x128_S2x32x128 : S2x32x128.ShapeCasts S2x32x128
  inb_S512x32x128_S64x32x128_128_0_0 : ∀ a, (![128, 0, 0] : Fin 3 → Nat) a + S64x32x128.size a ≤ S512x32x128.size a
  inb_S64x32x128_S60x32x128_4_0_0 : ∀ a, (![4, 0, 0] : Fin 3 → Nat) a + S60x32x128.size a ≤ S64x32x128.size a
  h_S60x32x128 : 0 < S60x32x128.numel
  inb_S64x32x128_S60x32x128_0_0_0 : ∀ a, (![0, 0, 0] : Fin 3 → Nat) a + S60x32x128.size a ≤ S64x32x128.size a
  shapeCasts_S60x32x128_S60x32x128 : S60x32x128.ShapeCasts S60x32x128
  inb_S64x32x128_S4x32x128_60_0_0 : ∀ a, (![60, 0, 0] : Fin 3 → Nat) a + S4x32x128.size a ≤ S64x32x128.size a
  h_S4x32x128 : 0 < S4x32x128.numel
  shapeCasts_S4x32x128_S4x32x128 : S4x32x128.ShapeCasts S4x32x128
  inb_S512x32x128_S64x32x128_192_0_0 : ∀ a, (![192, 0, 0] : Fin 3 → Nat) a + S64x32x128.size a ≤ S512x32x128.size a
  inb_S64x32x128_S56x32x128_8_0_0 : ∀ a, (![8, 0, 0] : Fin 3 → Nat) a + S56x32x128.size a ≤ S64x32x128.size a
  h_S56x32x128 : 0 < S56x32x128.numel
  inb_S64x32x128_S56x32x128_0_0_0 : ∀ a, (![0, 0, 0] : Fin 3 → Nat) a + S56x32x128.size a ≤ S64x32x128.size a
  shapeCasts_S56x32x128_S56x32x128 : S56x32x128.ShapeCasts S56x32x128
  inb_S64x32x128_S8x32x128_56_0_0 : ∀ a, (![56, 0, 0] : Fin 3 → Nat) a + S8x32x128.size a ≤ S64x32x128.size a
  h_S8x32x128 : 0 < S8x32x128.numel
  shapeCasts_S8x32x128_S8x32x128 : S8x32x128.ShapeCasts S8x32x128
  inb_S512x32x128_S64x32x128_256_0_0 : ∀ a, (![256, 0, 0] : Fin 3 → Nat) a + S64x32x128.size a ≤ S512x32x128.size a
  inb_S64x32x128_S48x32x128_16_0_0 : ∀ a, (![16, 0, 0] : Fin 3 → Nat) a + S48x32x128.size a ≤ S64x32x128.size a
  h_S48x32x128 : 0 < S48x32x128.numel
  inb_S64x32x128_S48x32x128_0_0_0 : ∀ a, (![0, 0, 0] : Fin 3 → Nat) a + S48x32x128.size a ≤ S64x32x128.size a
  shapeCasts_S48x32x128_S48x32x128 : S48x32x128.ShapeCasts S48x32x128
  inb_S64x32x128_S16x32x128_48_0_0 : ∀ a, (![48, 0, 0] : Fin 3 → Nat) a + S16x32x128.size a ≤ S64x32x128.size a
  h_S16x32x128 : 0 < S16x32x128.numel
  shapeCasts_S16x32x128_S16x32x128 : S16x32x128.ShapeCasts S16x32x128
  inb_S512x32x128_S64x32x128_320_0_0 : ∀ a, (![320, 0, 0] : Fin 3 → Nat) a + S64x32x128.size a ≤ S512x32x128.size a
  inb_S64x32x128_S32x32x128_32_0_0 : ∀ a, (![32, 0, 0] : Fin 3 → Nat) a + S32x32x128.size a ≤ S64x32x128.size a
  h_S32x32x128 : 0 < S32x32x128.numel
  inb_S64x32x128_S32x32x128_0_0_0 : ∀ a, (![0, 0, 0] : Fin 3 → Nat) a + S32x32x128.size a ≤ S64x32x128.size a
  shapeCasts_S32x32x128_S32x32x128 : S32x32x128.ShapeCasts S32x32x128
  inb_S512x32x128_S64x32x128_384_0_0 : ∀ a, (![384, 0, 0] : Fin 3 → Nat) a + S64x32x128.size a ≤ S512x32x128.size a
  inb_S512x32x128_S64x32x128_448_0_0 : ∀ a, (![448, 0, 0] : Fin 3 → Nat) a + S64x32x128.size a ≤ S512x32x128.size a
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512_S8x512_0_0 : ∀ a, (![0, 0] : Fin 2 → Nat) a + S8x512.size a ≤ S8x512.size a
  h_S8x512 : 0 < S8x512.numel
  shapeCasts_S8x512_S8x512 : S8x512.ShapeCasts S8x512
  numel1_S1 : S1.numel = 1
  h_S1x8x512 : 0 < S1x8x512.numel
  shapeCasts_S1x8x512_S8x512 : S1x8x512.ShapeCasts S8x512
  shapeCasts_S8x512_S1x8x512 : S8x512.ShapeCasts S1x8x512
  inb_S48x8x512_S48x8x512_0_0_0 : ∀ a, (![0, 0, 0] : Fin 3 → Nat) a + S48x8x512.size a ≤ S48x8x512.size a
  h_S48x8x512 : 0 < S48x8x512.numel
  transposes_S48x8x512_p1_0_2_S8x48x512 : S48x8x512.Transposes [1, 0, 2] S8x48x512
  shapeCasts_S8x48x512_S384x512 : S8x48x512.ShapeCasts S384x512
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S384x128 : S1x128.Broadcasts S384x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S384x1 : S1x1.Broadcasts S384x1
  shapeCasts_S384x1_S8x48 : S384x1.ShapeCasts S8x48
  reduces_S8x48_S8 : S8x48.Reduces [1] S8
  shapeCasts_S8_S8x1 : S8.ShapeCasts S8x1
  broadcasts_S8x1_S8x48 : S8x1.Broadcasts S8x48
  shapeCasts_S8x48_S8x48x1 : S8x48.ShapeCasts S8x48x1
  broadcasts_S8x48x1_S8x48x512 : S8x48x1.Broadcasts S8x48x512
  reduces_S8x48x512_S8x512 : S8x48x512.Reduces [1] S8x512
  broadcasts_S8x1_S8x512 : S8x1.Broadcasts S8x512
  dot_S384x512_S512x128_S384x128_1_0_0_1_n_n_wf : DotDims.WF S384x512 S512x128 S384x128 [1] [0] [0] [1] [] []
  dot_S384x128_S128x1_S384x1_1_0_0_1_n_n_wf : DotDims.WF S384x128 S128x1 S384x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x128.size a ≤ S32x64x512.size a
  hwx0_0 : ∀ i : grid0.Coords, EltTy.bits .f32 = 32 ∨ (Rect.block (s := S32x64x512) S32x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32x128.size a ≤ S512x32x512.size a
  hwx0_1 : ∀ i : grid0.Coords, EltTy.bits .f32 = 32 ∨ (Rect.block (s := S512x32x512) S512x32x128.size (cc0_transform_1 i) (hinb0_1 i)).WholeWords (EltTy.packing .f32)
  hrank1 : 0 < grid1.rank
  k1_t1_ok : k1_t1_loop.OK
  k1_off1_inb : ∀ (i : grid1.Coords) (k1_t1 : Fin k1_t1_loop.trips), ∀ a, (k1_off1 i k1_t1) a + S1.size a ≤ S2016.size a
  k1_off4_inb : ∀ k1_t1 : Fin k1_t1_loop.trips, ∀ a, (k1_off4 k1_t1) a + S1x8x512.size a ≤ S48x8x512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x8x512.size a ≤ S512x32x512.size a
  hwx1_0 : ∀ i : grid1.Coords, EltTy.bits .f32 = 32 ∨ (Rect.block (s := S512x32x512) S512x8x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S512x128.size a
  hwx1_1 : ∀ i : grid1.Coords, EltTy.bits .f32 = 32 ∨ (Rect.block (s := S512x128) S512x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x512.size a ≤ S32x512.size a
  hwx1_5 : ∀ i : grid1.Coords, EltTy.bits .f32 = 32 ∨ (Rect.block (s := S32x512) S8x512.size (cc1_transform_5 i) (hinb1_5 i)).WholeWords (EltTy.packing .f32)

variable [Facts₀]

def dot_S384x512_S512x128_S384x128_1_0_0_1_n_n : DotDims S384x512 S512x128 S384x128 where
  lhsContracting := [1]
  rhsContracting := [0]
  lhsNonContracting := [0]
  rhsNonContracting := [1]
  lhsBatch := []
  rhsBatch := []
  wf := dot_S384x512_S512x128_S384x128_1_0_0_1_n_n_wf
def dot_S384x128_S128x1_S384x1_1_0_0_1_n_n : DotDims S384x128 S128x1 S384x1 where
  lhsContracting := [1]
  rhsContracting := [0]
  lhsNonContracting := [0]
  rhsNonContracting := [1]
  lhsBatch := []
  rhsBatch := []
  wf := dot_S384x128_S128x1_S384x1_1_0_0_1_n_n_wf

abbrev win0_0 : Pipeline.Window sig grid0 :=
  Pipeline.Window.ofSpec (Memref.whole main_arg0) S32x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x32x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev spec1_0 : Pipeline.WinSpec sig grid1.rank :=
  Pipeline.WinSpec.ofSpec (Memref.whole main_v1) S512x8x512.size reads1_0 false false 2 stage1_0 sem1_0 nbuf1_0 hstage1_0

abbrev spec1_1 : Pipeline.WinSpec sig grid1.rank :=
  Pipeline.WinSpec.ofSpec (Memref.whole main_arg1) S512x128.size reads1_1 false true 1 stage1_1 sem1_1 nbuf1_1 hstage1_1

abbrev spec1_2 : Pipeline.WinSpec sig grid1.rank :=
  Pipeline.WinSpec.ofSpec (Memref.whole main_arg2) S128.size reads1_2 false true 1 stage1_2 sem1_2 nbuf1_2 hstage1_2

abbrev spec1_3 : Pipeline.WinSpec sig grid1.rank :=
  Pipeline.WinSpec.ofSpec (Memref.whole main_arg3) S128x1.size reads1_3 false true 1 stage1_3 sem1_3 nbuf1_3 hstage1_3

abbrev spec1_4 : Pipeline.WinSpec sig grid1.rank :=
  Pipeline.WinSpec.ofSpec (Memref.whole main_v0) S1x1.size reads1_4 false true 1 stage1_4 sem1_4 nbuf1_4 hstage1_4

abbrev spec1_5 : Pipeline.WinSpec sig grid1.rank :=
  Pipeline.WinSpec.ofSpec (Memref.whole main_v2) S8x512.size reads1_5 true false 2 stage1_5 sem1_5 nbuf1_5 hstage1_5

abbrev spec1 : Fin 6 → Pipeline.WinSpec sig grid1.rank := fun | 0 => spec1_0 | 1 => spec1_1 | 2 => spec1_2 | 3 => spec1_3 | 4 => spec1_4 | 5 => spec1_5 | ⟨_ + 6, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | ⟨_ + 6, h⟩ => absurd h (Nat.not_lt.2 (Nat.le_add_left _ _))
abbrev ix1 (pf : pre1.Contents (Elt F)) : (w : Fin 6) → grid1.Coords → Fin (spec1 w).shape.rank → Nat := fun | 0 => cc1_transform_0 | 1 => cc1_transform_1 | 2 => cc1_transform_2 | 3 => cc1_transform_3 | 4 => cc1_transform_4 | 5 => cc1_transform_5 | ⟨_ + 6, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 | 1 => hreads1_1 | 2 => hreads1_2 | 3 => hreads1_3 | 4 => hreads1_4 | 5 => hreads1_5 | ⟨_ + 6, h⟩ => absurd h (Nat.not_lt.2 (Nat.le_add_left _ _))
def ok1 (_ : pre1.Contents (Elt F)) : Prop :=
  True
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun _ _ => fun | 0 => hinb1_0 | 1 => hinb1_1 | 2 => hinb1_2 | 3 => hinb1_3 | 4 => hinb1_4 | 5 => hinb1_5 | ⟨_ + 6, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun _ _ => fun | 0 => hwx1_0 | 1 => hwx1_1 | 2 => hwx1_2 | 3 => hwx1_3 | 4 => hwx1_4 | 5 => hwx1_5 | ⟨_ + 6, h⟩ => absurd h (Nat.not_lt.2 (Nat.le_add_left _ _))
abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where
  harr1 : ∀ w, (spec1 w).arr.IsWhole

variable [Facts]
-- ==== ReferenceIdeal.lean ====
abbrev S32x64x512 : Shape := ⟨3, ![32, 64, 512]⟩
abbrev S512x128 : Shape := ⟨2, ![512, 128]⟩
abbrev S128 : Shape := ⟨1, ![128]⟩
abbrev S128x1 : Shape := ⟨2, ![128, 1]⟩
abbrev S1 : Shape := ⟨1, ![1]⟩
abbrev S2016 : Shape := ⟨1, ![2016]⟩
abbrev S32x63x512 : Shape := ⟨3, ![32, 63, 512]⟩
abbrev S_ : Shape := ⟨0, ![]⟩
abbrev S32x1x512 : Shape := ⟨3, ![32, 1, 512]⟩
abbrev S32x62x512 : Shape := ⟨3, ![32, 62, 512]⟩
abbrev S32x2x512 : Shape := ⟨3, ![32, 2, 512]⟩
abbrev S32x60x512 : Shape := ⟨3, ![32, 60, 512]⟩
abbrev S32x4x512 : Shape := ⟨3, ![32, 4, 512]⟩
abbrev S32x56x512 : Shape := ⟨3, ![32, 56, 512]⟩
abbrev S32x8x512 : Shape := ⟨3, ![32, 8, 512]⟩
abbrev S32x48x512 : Shape := ⟨3, ![32, 48, 512]⟩
abbrev S32x16x512 : Shape := ⟨3, ![32, 16, 512]⟩
abbrev S32x32x512 : Shape := ⟨3, ![32, 32, 512]⟩
abbrev S1x32x64x512 : Shape := ⟨4, ![1, 32, 64, 512]⟩
abbrev S7x32x64x512 : Shape := ⟨4, ![7, 32, 64, 512]⟩
abbrev S2016x1 : Shape := ⟨2, ![2016, 1]⟩
abbrev S2016x2 : Shape := ⟨2, ![2016, 2]⟩
abbrev S2016x32x512 : Shape := ⟨3, ![2016, 32, 512]⟩
abbrev S32x2016x512 : Shape := ⟨3, ![32, 2016, 512]⟩
abbrev S32x2016x128 : Shape := ⟨3, ![32, 2016, 128]⟩
abbrev S1x1x128 : Shape := ⟨3, ![1, 1, 128]⟩
abbrev S32x2016x1 : Shape := ⟨3, ![32, 2016, 1]⟩
abbrev S1x1x1 : Shape := ⟨3, ![1, 1, 1]⟩
abbrev S32x1 : Shape := ⟨2, ![32, 1]⟩
abbrev S32x1x1 : Shape := ⟨3, ![32, 1, 1]⟩
abbrev S32x512 : Shape := ⟨2, ![32, 512]⟩

abbrev nBuf : Space → Nat
  | .hbm => 105
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S512x128, .f32⟩
  | .hbm, ⟨2, _⟩ => ⟨S128, .f32⟩
  | .hbm, ⟨3, _⟩ => ⟨S128x1, .f32⟩
  | .hbm, ⟨4, _⟩ => ⟨S1, .f32⟩
  | .hbm, ⟨5, _⟩ => ⟨S2016, .i32⟩
  | .hbm, ⟨6, _⟩ => ⟨S2016, .i1⟩
  | .hbm, ⟨7, _⟩ => ⟨S2016, .i32⟩
  | .hbm, ⟨8, _⟩ => ⟨S2016, .i1⟩
  | .hbm, ⟨9, _⟩ => ⟨S2016, .i1⟩
  | .hbm, ⟨10, _⟩ => ⟨S2016, .i32⟩
  | .hbm, ⟨11, _⟩ => ⟨S2016, .i1⟩
  | .hbm, ⟨12, _⟩ => ⟨S32x63x512, .f32⟩
  | .hbm, ⟨13, _⟩ => ⟨S_, .f32⟩
  | .hbm, ⟨14, _⟩ => ⟨S32x1x512, .f32⟩
  | .hbm, ⟨15, _⟩ => ⟨S32x64x512, .f32⟩
  | .hbm, ⟨16, _⟩ => ⟨S32x64x512, .f32⟩
  | .hbm, ⟨17, _⟩ => ⟨S32x62x512, .f32⟩
  | .hbm, ⟨18, _⟩ => ⟨S_, .f32⟩
  | .hbm, ⟨19, _⟩ => ⟨S32x2x512, .f32⟩
  | .hbm, ⟨20, _⟩ => ⟨S32x64x512, .f32⟩
  | .hbm, ⟨21, _⟩ => ⟨S32x64x512, .f32⟩
  | .hbm, ⟨22, _⟩ => ⟨S32x60x512, .f32⟩
  | .hbm, ⟨23, _⟩ => ⟨S_, .f32⟩
  | .hbm, ⟨24, _⟩ => ⟨S32x4x512, .f32⟩
  | .hbm, ⟨25, _⟩ => ⟨S32x64x512, .f32⟩
  | .hbm, ⟨26, _⟩ => ⟨S32x64x512, .f32⟩
  | .hbm, ⟨27, _⟩ => ⟨S32x56x512, .f32⟩
  | .hbm, ⟨28, _⟩ => ⟨S_, .f32⟩
  | .hbm, ⟨29, _⟩ => ⟨S32x8x512, .f32⟩
  | .hbm, ⟨30, _⟩ => ⟨S32x64x512, .f32⟩
  | .hbm, ⟨31, _⟩ => ⟨S32x64x512, .f32⟩
  | .hbm, ⟨32, _⟩ => ⟨S32x48x512, .f32⟩
  | .hbm, ⟨33, _⟩ => ⟨S_, .f32⟩
  | .hbm, ⟨34, _⟩ => ⟨S32x16x512, .f32⟩
  | .hbm, ⟨35, _⟩ => ⟨S32x64x512, .f32⟩
  | .hbm, ⟨36, _⟩ => ⟨S32x64x512, .f32⟩
  | .hbm, ⟨37, _⟩ => ⟨S32x32x512, .f32⟩
  | .hbm, ⟨38, _⟩ => ⟨S_, .f32⟩
  | .hbm, ⟨39, _⟩ => ⟨S32x32x512, .f32⟩
  | .hbm, ⟨40, _⟩ => ⟨S32x64x512, .f32⟩
  | .hbm, ⟨41, _⟩ => ⟨S32x64x512, .f32⟩
  | .hbm, ⟨42, _⟩ => ⟨S1x32x64x512, .f32⟩
  | .hbm, ⟨43, _⟩ => ⟨S1x32x64x512, .f32⟩
  | .hbm, ⟨44, _⟩ => ⟨S1x32x64x512, .f32⟩
  | .hbm, ⟨45, _⟩ => ⟨S1x32x64x512, .f32⟩
  | .hbm, ⟨46, _⟩ => ⟨S1x32x64x512, .f32⟩
  | .hbm, ⟨47, _⟩ => ⟨S1x32x64x512, .f32⟩
  | .hbm, ⟨48, _⟩ => ⟨S1x32x64x512, .f32⟩
  | .hbm, ⟨49, _⟩ => ⟨S7x32x64x512, .f32⟩
  | .hbm, ⟨50, _⟩ => ⟨S_, .i32⟩
  | .hbm, ⟨51, _⟩ => ⟨S2016, .i32⟩
  | .hbm, ⟨52, _⟩ => ⟨S2016, .i32⟩
  | .hbm, ⟨53, _⟩ => ⟨S2016, .i32⟩
  | .hbm, ⟨54, _⟩ => ⟨S_, .i32⟩
  | .hbm, ⟨55, _⟩ => ⟨S2016, .i32⟩
  | .hbm, ⟨56, _⟩ => ⟨S2016, .i32⟩
  | .hbm, ⟨57, _⟩ => ⟨S2016, .i32⟩
  | .hbm, ⟨58, _⟩ => ⟨S2016x1, .i32⟩
  | .hbm, ⟨59, _⟩ => ⟨S2016x1, .i32⟩
  | .hbm, ⟨60, _⟩ => ⟨S2016x2, .i32⟩
  | .hbm, ⟨61, _⟩ => ⟨S2016x32x512, .f32⟩
  | .hbm, ⟨62, _⟩ => ⟨S_, .i32⟩
  | .hbm, ⟨63, _⟩ => ⟨S2016, .i32⟩
  | .hbm, ⟨64, _⟩ => ⟨S2016, .i32⟩
  | .hbm, ⟨65, _⟩ => ⟨S2016, .i32⟩
  | .hbm, ⟨66, _⟩ => ⟨S_, .i32⟩
  | .hbm, ⟨67, _⟩ => ⟨S2016, .i32⟩
  | .hbm, ⟨68, _⟩ => ⟨S2016, .i32⟩
  | .hbm, ⟨69, _⟩ => ⟨S2016, .i32⟩
  | .hbm, ⟨70, _⟩ => ⟨S2016x1, .i32⟩
  | .hbm, ⟨71, _⟩ => ⟨S2016x1, .i32⟩
  | .hbm, ⟨72, _⟩ => ⟨S2016x2, .i32⟩
  | .hbm, ⟨73, _⟩ => ⟨S2016x32x512, .f32⟩
  | .hbm, ⟨74, _⟩ => ⟨S2016x32x512, .f32⟩
  | .hbm, ⟨75, _⟩ => ⟨S32x2016x512, .f32⟩
  | .hbm, ⟨76, _⟩ => ⟨S32x2016x128, .f32⟩
  | .hbm, ⟨77, _⟩ => ⟨S1x1x128, .f32⟩
  | .hbm, ⟨78, _⟩ => ⟨S32x2016x128, .f32⟩
  | .hbm, ⟨79, _⟩ => ⟨S32x2016x128, .f32⟩
  | .hbm, ⟨80, _⟩ => ⟨S_, .f32⟩
  | .hbm, ⟨81, _⟩ => ⟨S32x2016x128, .f32⟩
  | .hbm, ⟨82, _⟩ => ⟨S32x2016x128, .f32⟩
  | .hbm, ⟨83, _⟩ => ⟨S32x2016x1, .f32⟩
  | .hbm, ⟨84, _⟩ => ⟨S1x1x1, .f32⟩
  | .hbm, ⟨85, _⟩ => ⟨S32x2016x1, .f32⟩
  | .hbm, ⟨86, _⟩ => ⟨S32x2016x1, .f32⟩
  | .hbm, ⟨87, _⟩ => ⟨S_, .f32⟩
  | .hbm, ⟨88, _⟩ => ⟨S32x1, .f32⟩
  | .hbm, ⟨89, _⟩ => ⟨S_, .f32⟩
  | .hbm, ⟨90, _⟩ => ⟨S32x1, .f32⟩
  | .hbm, ⟨91, _⟩ => ⟨S32x1, .f32⟩
  | .hbm, ⟨92, _⟩ => ⟨S32x1x1, .f32⟩
  | .hbm, ⟨93, _⟩ => ⟨S32x2016x1, .f32⟩
  | .hbm, ⟨94, _⟩ => ⟨S32x2016x1, .f32⟩
  | .hbm, ⟨95, _⟩ => ⟨S32x2016x1, .f32⟩
  | .hbm, ⟨96, _⟩ => ⟨S_, .f32⟩
  | .hbm, ⟨97, _⟩ => ⟨S32x1, .f32⟩
  | .hbm, ⟨98, _⟩ => ⟨S32x1x1, .f32⟩
  | .hbm, ⟨99, _⟩ => ⟨S32x2016x1, .f32⟩
  | .hbm, ⟨100, _⟩ => ⟨S32x2016x1, .f32⟩
  | .hbm, ⟨101, _⟩ => ⟨S32x2016x512, .f32⟩
  | .hbm, ⟨102, _⟩ => ⟨S32x2016x512, .f32⟩
  | .hbm, ⟨103, _⟩ => ⟨S_, .f32⟩
  | .hbm, ⟨104, _⟩ => ⟨S32x512, .f32⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_6 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_7 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_8 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_9 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_10 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_11 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_12 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_13 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_14 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_call0_cst : Ref sig .tc := ⟨.hbm, 80, rfl⟩
abbrev main_call0_v0 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_18 : Ref sig .tc := ⟨.hbm, 103, rfl⟩
abbrev main_v76 : Ref sig .tc := ⟨.hbm, 104, rfl⟩

abbrev nD : Nat := 1
abbrev τ : Topo := Topo.v7x

variable {F : FTy → Type} [FloatOps F]

class Facts₀ : Prop where
  slices_S32x64x512_S32x63x512_0_1_0 : S32x64x512.Slices ![0, 1, 0] S32x63x512
  bcast_S_S32x1x512 : S_.BroadcastsInDim S32x1x512 (![] : Fin 0 → Fin S32x1x512.rank)
  concatenates_S32x63x512_S32x1x512_S32x64x512_d1 : Shape.Concatenates [S32x63x512, S32x1x512] S32x64x512 1
  slices_S32x64x512_S32x62x512_0_2_0 : S32x64x512.Slices ![0, 2, 0] S32x62x512
  bcast_S_S32x2x512 : S_.BroadcastsInDim S32x2x512 (![] : Fin 0 → Fin S32x2x512.rank)
  concatenates_S32x62x512_S32x2x512_S32x64x512_d1 : Shape.Concatenates [S32x62x512, S32x2x512] S32x64x512 1
  slices_S32x64x512_S32x60x512_0_4_0 : S32x64x512.Slices ![0, 4, 0] S32x60x512
  bcast_S_S32x4x512 : S_.BroadcastsInDim S32x4x512 (![] : Fin 0 → Fin S32x4x512.rank)
  concatenates_S32x60x512_S32x4x512_S32x64x512_d1 : Shape.Concatenates [S32x60x512, S32x4x512] S32x64x512 1
  slices_S32x64x512_S32x56x512_0_8_0 : S32x64x512.Slices ![0, 8, 0] S32x56x512
  bcast_S_S32x8x512 : S_.BroadcastsInDim S32x8x512 (![] : Fin 0 → Fin S32x8x512.rank)
  concatenates_S32x56x512_S32x8x512_S32x64x512_d1 : Shape.Concatenates [S32x56x512, S32x8x512] S32x64x512 1
  slices_S32x64x512_S32x48x512_0_16_0 : S32x64x512.Slices ![0, 16, 0] S32x48x512
  bcast_S_S32x16x512 : S_.BroadcastsInDim S32x16x512 (![] : Fin 0 → Fin S32x16x512.rank)
  concatenates_S32x48x512_S32x16x512_S32x64x512_d1 : Shape.Concatenates [S32x48x512, S32x16x512] S32x64x512 1
  slices_S32x64x512_S32x32x512_0_32_0 : S32x64x512.Slices ![0, 32, 0] S32x32x512
  bcast_S_S32x32x512 : S_.BroadcastsInDim S32x32x512 (![] : Fin 0 → Fin S32x32x512.rank)
  concatenates_S32x32x512_S32x32x512_S32x64x512_d1 : Shape.Concatenates [S32x32x512, S32x32x512] S32x64x512 1
  bcast_S32x64x512_S1x32x64x512_1_2_3 : S32x64x512.BroadcastsInDim S1x32x64x512 (![1, 2, 3] : Fin 3 → Fin S1x32x64x512.rank)
  concatenates_S1x32x64x512_S1x32x64x512_S1x32x64x512_S1x32x64x512_S1x32x64x512_S1x32x64x512_S1x32x64x512_S7x32x64x512_d0 : Shape.Concatenates [S1x32x64x512, S1x32x64x512, S1x32x64x512, S1x32x64x512, S1x32x64x512, S1x32x64x512, S1x32x64x512] S7x32x64x512 0
  bcast_S_S2016 : S_.BroadcastsInDim S2016 (![] : Fin 0 → Fin S2016.rank)
  bcast_S2016_S2016x1_0 : S2016.BroadcastsInDim S2016x1 (![0] : Fin 1 → Fin S2016x1.rank)
  concatenates_S2016x1_S2016x1_S2016x2_d1 : Shape.Concatenates [S2016x1, S2016x1] S2016x2 1
  transposes_S2016x32x512_S32x2016x512_1_0_2 : S2016x32x512.Transposes [1, 0, 2] S32x2016x512
  bcast_S128_S1x1x128_2 : S128.BroadcastsInDim S1x1x128 (![2] : Fin 1 → Fin S1x1x128.rank)
  bcast_S1x1x128_S32x2016x128_0_1_2 : S1x1x128.BroadcastsInDim S32x2016x128 (![0, 1, 2] : Fin 3 → Fin S32x2016x128.rank)
  bcast_S_S32x2016x128 : S_.BroadcastsInDim S32x2016x128 (![] : Fin 0 → Fin S32x2016x128.rank)
  bcast_S1_S1x1x1_2 : S1.BroadcastsInDim S1x1x1 (![2] : Fin 1 → Fin S1x1x1.rank)
  bcast_S1x1x1_S32x2016x1_0_1_2 : S1x1x1.BroadcastsInDim S32x2016x1 (![0, 1, 2] : Fin 3 → Fin S32x2016x1.rank)
  reducesTo_S32x2016x1_S32x1_d1 : S32x2016x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x2016x1_0_1_2 : S32x1x1.BroadcastsInDim S32x2016x1 (![0, 1, 2] : Fin 3 → Fin S32x2016x1.rank)
  bcast_S32x2016x1_S32x2016x512_0_1_2 : S32x2016x1.BroadcastsInDim S32x2016x512 (![0, 1, 2] : Fin 3 → Fin S32x2016x512.rank)
  reducesTo_S32x2016x512_S32x512_d1 : S32x2016x512.ReducesTo [1] S32x512
  gather_S7x32x64x512_S2016x2_S2016x32x512_12_02_n_n_02_1_1321512_wf : GatherDims.WF S7x32x64x512 S2016x2 S2016x32x512 [1, 2] [0, 2] [] [0, 2] [] 1 ![1, 32, 1, 512]
  dot_S32x2016x512_S512x128_S32x2016x128_2_0_01_1_n_n_wf : DotDims.WF S32x2016x512 S512x128 S32x2016x128 [2] [0] [0, 1] [1] [] []
  dot_S32x2016x128_S128x1_S32x2016x1_2_0_01_1_n_n_wf : DotDims.WF S32x2016x128 S128x1 S32x2016x1 [2] [0] [0, 1] [1] [] []

variable [Facts₀]

def gather_S7x32x64x512_S2016x2_S2016x32x512_12_02_n_n_02_1_1321512 : GatherDims S7x32x64x512 S2016x2 S2016x32x512 where
  offsetDims := [1, 2]
  collapsedSliceDims := [0, 2]
  operandBatchingDims := []
  startIndicesBatchingDims := []
  startIndexMap := [0, 2]
  indexVectorDim := 1
  sliceSizes := ![1, 32, 1, 512]
  wf := gather_S7x32x64x512_S2016x2_S2016x32x512_12_02_n_n_02_1_1321512_wf
def dot_S32x2016x512_S512x128_S32x2016x128_2_0_01_1_n_n : DotDims S32x2016x512 S512x128 S32x2016x128 where
  lhsContracting := [2]
  rhsContracting := [0]
  lhsNonContracting := [0, 1]
  rhsNonContracting := [1]
  lhsBatch := []
  rhsBatch := []
  wf := dot_S32x2016x512_S512x128_S32x2016x128_2_0_01_1_n_n_wf
def dot_S32x2016x128_S128x1_S32x2016x1_2_0_01_1_n_n : DotDims S32x2016x128 S128x1 S32x2016x1 where
  lhsContracting := [2]
  rhsContracting := [0]
  lhsNonContracting := [0, 1]
  rhsNonContracting := [1]
  lhsBatch := []
  rhsBatch := []
  wf := dot_S32x2016x128_S128x1_S32x2016x1_2_0_01_1_n_n_wf

class Facts : Prop extends Facts₀ where

variable [Facts]
-- ==== Proof.K0Body.lean ====
import proofs.«401211_j85263690760702_3_alg».proof.Proof.Gen.KernelIdeal.Skeleton
import Idealize.ShloMosaic.Lib.Pipeline.Value
import Idealize.ShloMosaic.Lib.QrPanel.Panel
import Idealize.ShloMosaic.Lib.Ring
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F] [Named F]

local notation "𝕄" => MT nD τ sig Unit (Elt F) ℕ (UR sig nD τ) ℕ

-- Rows o, …, o + n - 1 of a buffer of m rows.
abbrev rows (m o n : ℕ) (inb : ∀ a : Fin 3, ![o, 0, 0] a + ![n, 32, 128] a ≤ ![m, 32, 128] a := by decide) :
    Rect ⟨3, ![m, 32, 128]⟩ := Rect.unit ![o, 0, 0] ![n, 32, 128] inb

abbrev rAll : Rect S64x32x128 := rows 64 0 64
abbrev rFrom1 : Rect S64x32x128 := rows 64 1 63
abbrev rFrom2 : Rect S64x32x128 := rows 64 2 62
abbrev rFrom3 : Rect S64x32x128 := rows 64 4 60
abbrev rFrom4 : Rect S64x32x128 := rows 64 8 56
abbrev rFrom5 : Rect S64x32x128 := rows 64 16 48
abbrev rFrom6 : Rect S64x32x128 := rows 64 32 32
abbrev rOut0 : Rect S512x32x128 := rows 512 0 64
abbrev rOut1 : Rect S512x32x128 := rows 512 64 64
abbrev rOut2 : Rect S512x32x128 := rows 512 128 64
abbrev rOut3 : Rect S512x32x128 := rows 512 192 64
abbrev rOut4 : Rect S512x32x128 := rows 512 256 64
abbrev rOut5 : Rect S512x32x128 := rows 512 320 64
abbrev rOut6 : Rect S512x32x128 := rows 512 384 64
abbrev rOut7 : Rect S512x32x128 := rows 512 448 64

section Levels

variable (x0 : Vec F S32x64x128 .f32)

-- Level k joins level k - 1 with its copy moved 2 ^ (k - 1) rows up, the rows past the end filled with a constant.
def prev0 : Vec F S64x32x128 .f32 := k0_pay1 x0
def shift1 : Vec F S64x32x128 .f32 :=
  View.canon [⟨rows 64 63 1, k0_pay3⟩, ⟨rows 64 0 63, k0_pay2 (View.ld (prev0 x0) rFrom1)⟩]
def prev1 : Vec F S64x32x128 .f32 := k0_pay4 (prev0 x0) (shift1 x0)
def shift2 : Vec F S64x32x128 .f32 :=
  View.canon [⟨rows 64 62 2, k0_pay6⟩, ⟨rows 64 0 62, k0_pay5 (View.ld (prev1 x0) rFrom2)⟩]
def prev2 : Vec F S64x32x128 .f32 := k0_pay7 (prev1 x0) (shift2 x0)
def shift3 : Vec F S64x32x128 .f32 :=
  View.canon [⟨rows 64 60 4, k0_pay9⟩, ⟨rows 64 0 60, k0_pay8 (View.ld (prev2 x0) rFrom3)⟩]
def prev3 : Vec F S64x32x128 .f32 := k0_pay10 (prev2 x0) (shift3 x0)
def shift4 : Vec F S64x32x128 .f32 :=
  View.canon [⟨rows 64 56 8, k0_pay12⟩, ⟨rows 64 0 56, k0_pay11 (View.ld (prev3 x0) rFrom4)⟩]
def prev4 : Vec F S64x32x128 .f32 := k0_pay13 (prev3 x0) (shift4 x0)
def shift5 : Vec F S64x32x128 .f32 :=
  View.canon [⟨rows 64 48 16, k0_pay15⟩, ⟨rows 64 0 48, k0_pay14 (View.ld (prev4 x0) rFrom5)⟩]
def prev5 : Vec F S64x32x128 .f32 := k0_pay16 (prev4 x0) (shift5 x0)
def shift6 : Vec F S64x32x128 .f32 :=
  View.canon [⟨rows 64 32 32, k0_pay18⟩, ⟨rows 64 0 32, k0_pay17 (View.ld (prev5 x0) rFrom6)⟩]
def prev6 : Vec F S64x32x128 .f32 := k0_pay19 (prev5 x0) (shift6 x0)

def out0_1 : Vec F S512x32x128 .f32 :=
  View.canon [⟨rOut7, k0_pay20⟩, ⟨rOut6, prev6 x0⟩, ⟨rOut5, prev5 x0⟩, ⟨rOut4, prev4 x0⟩,
    ⟨rOut3, prev3 x0⟩, ⟨rOut2, prev2 x0⟩, ⟨rOut1, prev1 x0⟩, ⟨rOut0, prev0 x0⟩]

end Levels

theorem cover0_1 (p7 p6 p5 p4 p3 p2 p1 p0 : Vec F S64x32x128 .f32) (y : S512x32x128.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S512x32x128 .f32)), y ∈ pc.1.set :=
  View.cover_of_tiled (s := S512x32x128) _ S64x32x128.size (by rfl) y

section Pieces

variable {sig' : RefSig} {κ' : Kind} {sp' : Space} {s : Shape} {e : EltTy} {Val : EltTy → Type} [∀ e, Nonempty (Val e)]

theorem readCov_all (v : View sig' κ' sp' S64x32x128 e) (L : List (View.Piece Val S64x32x128 e)) :
    v.readCov L rAll.toLoadRect = View.canon L :=
  (View.readCov_eq_canon' v L _).trans (View.ld_unit_zero QrPanel.Panel.zeros3 _ _)

-- Two last stores whose rectangles together hold every index leave what they alone leave.
theorem canon_two_of_cover (r₁ r₂ : Rect s) (w₁ : r₁.shape.Idx → Val e) (w₂ : r₂.shape.Idx → Val e)
    (L : List (View.Piece Val s e)) (h : ∀ y : s.Idx, y ∈ r₁.set ∨ y ∈ r₂.set) :
    View.canon ((⟨r₁, w₁⟩ : View.Piece Val s e) :: ⟨r₂, w₂⟩ :: L) = View.canon [(⟨r₁, w₁⟩ : View.Piece Val s e), ⟨r₂, w₂⟩] := by
  funext y
  by_cases h1 : y ∈ r₁.set
  · obtain ⟨x, rfl⟩ := r₁.exists_idx_of_mem h1
    exact (View.canon_cons_emb r₁ w₁ _ x).trans (View.canon_cons_emb r₁ w₁ _ x).symm
  · rw [View.canon_cons_of_not_mem ⟨r₁, w₁⟩ _ h1, View.canon_cons_of_not_mem ⟨r₁, w₁⟩ _ h1]
    obtain ⟨x, rfl⟩ := r₂.exists_idx_of_mem ((h y).resolve_left h1)
    exact (View.canon_cons_emb r₂ w₂ _ x).trans (View.canon_cons_emb r₂ w₂ _ x).symm

-- The last h rows and the first n rows of the 64-row buffer hold every index, when n + h = 64.
theorem cover_rows (n h : ℕ) (hn : n + h = 64) (inbT) (inbH) (y : S64x32x128.Idx) :
    y ∈ (rows 64 n h inbT).set ∨ y ∈ (rows 64 0 n inbH).set := by
  have h0 : (y 0).val < 64 := (y 0).isLt
  have h1 : (y 1).val < 32 := (y 1).isLt
  have h2 : (y 2).val < 128 := (y 2).isLt
  rw [Rect.mem_set_unit, Rect.mem_set_unit]
  by_cases hy : (y 0).val < n
  · right; intro a; fin_cases a
    · show 0 ≤ (y 0).val ∧ (y 0).val < 0 + n; omega
    · show 0 ≤ (y 1).val ∧ (y 1).val < 0 + 32; omega
    · show 0 ≤ (y 2).val ∧ (y 2).val < 0 + 128; omega
  · left; intro a; fin_cases a
    · show n ≤ (y 0).val ∧ (y 0).val < n + h; omega
    · show 0 ≤ (y 1).val ∧ (y 1).val < 0 + 32; omega
    · show 0 ≤ (y 2).val ∧ (y 2).val < 0 + 128; omega

-- One round: the second buffer takes mv of rows h.. of p and cst below them; the first, holding p, takes mx of p and that.
theorem round (n h : ℕ) (hn : n + h = 64) {inbT inbH inbF} {v₀ v₁ : View sig' κ' sp' S64x32x128 e}
    {L₀ L₁ : List (View.Piece Val S64x32x128 e)} {p : S64x32x128.Idx → Val e}
    (mx : (S64x32x128.Idx → Val e) → (S64x32x128.Idx → Val e) → S64x32x128.Idx → Val e)
    (mv : ((rows 64 h n inbF).shape.Idx → Val e) → (rows 64 0 n inbH).shape.Idx → Val e)
    (cst : (rows 64 n h inbT).shape.Idx → Val e) (he : v₀.readCov L₀ rAll.toLoadRect = p) :
    v₀.readCov (⟨rAll, mx (v₀.readCov L₀ rAll.toLoadRect) (v₁.readCov (⟨rows 64 n h inbT, cst⟩ ::
        ⟨rows 64 0 n inbH, mv (v₀.readCov L₀ (rows 64 h n inbF).toLoadRect)⟩ :: L₁) rAll.toLoadRect)⟩ :: L₀) rAll.toLoadRect
      = mx p (View.canon [⟨rows 64 n h inbT, cst⟩, ⟨rows 64 0 n inbH, mv (View.ld p (rows 64 h n inbF))⟩]) := by
  have hc : View.canon L₀ = p := (readCov_all v₀ L₀).symm.trans he
  rw [View.readCov_cons_toLoadRect, he, readCov_all, canon_two_of_cover _ _ _ _ _ (cover_rows n h hn _ _), View.readCov_eq_canon', hc]

end Pieces

-- The body on whole buffers: the input block is left as it was, the output block takes out0_1 of it.
theorem sound_kernel0 (c : Dev nD) (E : Set ℕ) (i : grid0.Coords) (arg1 : Memref sig .tc .vmem S32x64x128 .f32) (harg1 : arg1.IsWhole) (arg2 : Memref sig .tc .vmem S512x32x128 .f32) (harg2 : arg2.IsWhole) (arg3 : Memref sig .tc .vmem S64x32x128 .f32) (harg3 : arg3.IsWhole) (arg4 : Memref sig .tc .vmem S64x32x128 .f32) (harg4 : arg4.IsWhole)
    (x0 : Vec F S32x64x128 .f32) (K : PUnit → sProp 𝕄) :
    iprop(owns c arg1 fullShare x0 ∗ (∃ d, owns c arg2 fullShare d)
        ∗ (∃ d, owns c arg3 fullShare d) ∗ (∃ d, owns c arg4 fullShare d)
        ∗ (iprop(owns c arg1 fullShare x0 ∗ owns c arg2 fullShare (out0_1 x0)
            ∗ (∃ d, owns c arg3 fullShare d) ∗ (∃ d, owns c arg4 fullShare d)) -∗ K ⟨⟩))
      ⊢ wp frame (wpE (defs₀ (F := F)) Variants.none c none) E (cc0__build_table_kernel i arg1 harg1 arg2 harg2 arg3 harg3 arg4 harg4) K := by
  sl_unfold [cc0__build_table_kernel, k0_part5, k0_part1, k0_part2, k0_part3, k0_part4]
  unfold owns
  iintro ⟨⟨%f1, %hf1, H1⟩, ⟨%d2, %f2, -, H2⟩, ⟨%d3, %f3, -, H3⟩, ⟨%d4, %f4, -, H4⟩, Hk⟩
  sl_exec
  sl_step
  iapply Hk
  isplitl [H1]
  · iexists f1; isplitr; · ipureintro; exact hf1
    iexact H1
  isplitl [H2]
  swap
  · isplitl [H3]
    · iexists _, _; isplitr
      swap; · iexact H3
      ipureintro; rfl
    · iexists _, _; isplitr
      swap; · iexact H4
      ipureintro; rfl
  iexists _; isplitr
  swap; · iexact H2
  ipureintro
  rw [View.read_writes_eq_canon _ _ _ (cover0_1 _ _ _ _ _ _ _ _)]
  have e0 : sound_kernel0.sl.v5 c arg1 arg3 f1 = prev0 x0 :=
    (View.readCov_cons_toLoadRect _ _ _ _).trans (congrArg k0_pay1 ((View.ld_unit_zero QrPanel.Panel.zeros3 _ _).trans hf1))
  have e1 : sound_kernel0.sl.v21 c arg1 arg3 arg4 f1 = prev1 x0 := round 63 1 rfl k0_pay4 k0_pay2 k0_pay3 e0
  have e2 : sound_kernel0.sl.v37 c arg1 arg3 arg4 f1 = prev2 x0 := round 62 2 rfl k0_pay7 k0_pay5 k0_pay6 e1
  have e3 : sound_kernel0.sl.v53 c arg1 arg3 arg4 f1 = prev3 x0 := round 60 4 rfl k0_pay10 k0_pay8 k0_pay9 e2
  have e4 : sound_kernel0.sl.v69 c arg1 arg3 arg4 f1 = prev4 x0 := round 56 8 rfl k0_pay13 k0_pay11 k0_pay12 e3
  have e5 : sound_kernel0.sl.v85 c arg1 arg3 arg4 f1 = prev5 x0 := round 48 16 rfl k0_pay16 k0_pay14 k0_pay15 e4
  have e6 : sound_kernel0.sl.v101 c arg1 arg3 arg4 f1 = prev6 x0 := round 32 32 rfl k0_pay19 k0_pay17 k0_pay18 e5
  rw [e0, e1, e2, e3, e4, e5, e6]; rfl

end Cert.KernelIdeal.R0
-- ==== Proof.K0Data.lean ====
import proofs.«401211_j85263690760702_3_alg».proof.Proof.K0Body
import proofs.«401211_j85263690760702_3_alg».proof.Proof.Gen.KernelIdeal.Launch
import proofs.«401211_j85263690760702_3_alg».proof.Proof.Gen.KernelIdeal.Points

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

-- Window w's block at point t, read off its array.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The proof data: the body leaves the input block as it was and out0_1 of it in the output block.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]

theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  (dat0 V c).before_fetched 0 t (fetch0_0 t) d

theorem PhiA0_split (c : Dev nD) : ∃ R : sProp 𝕄,
    (Pipeline.ΦA spec0 c : sProp 𝕄)
      = iprop(iprop((∃ d, owns c (Memref.whole cc0_scratch0) fullShare d)
          ∗ (∃ d, owns c (Memref.whole cc0_scratch1) fullShare d) ∗ R) ∗ (∃ r, prngReg c r)) :=
  ⟨_, by unfold Pipeline.ΦA; rw [scopedRest0_eq]; simp only [owns_whole]; rfl⟩

-- The body's triple at every grid point.
theorem body_obligation0 (c : Dev nD) : BodyObligation (dat0 V c) defs₀ Variants.none () Set.univ := fun t => by
  obtain ⟨R, hR⟩ := PhiA0_split (F := F) c
  rw [bigSep_W0, bigSep_W0]
  simp only [before0_0, after0_0, after0_1, show ∀ i, (dat0 V c).Φ i = _ from fun _ => hR]
  iintro ⟨⟨⟨HS0, HS1, HR⟩, Hg⟩, Ho, ⟨%d0, H0⟩, ⟨%d1, H1⟩⟩
  iapply (sound_kernel0 c Set.univ _ _ _ _ _ _ _ _ _ (iblk0 V c 0 t) _)
  iframe H0 HS0 HS1
  isplitl [H1]; · iexists _; iexact H1
  iintro ⟨H0, H1, HS0, HS1⟩
  iframe; iexact Ho

end Cert.KernelIdeal.R0
-- ==== Proof.K1Tables.lean ====
import proofs.«401211_j85263690760702_3_alg».proof.Proof.Gen.KernelIdeal
import proofs.«401211_j85263690760702_3_alg».proof.Proof.Gen.KernelIdeal.Launch

noncomputable section

namespace Cert.KernelIdeal.R1

open Cert.KernelIdeal Cert.KernelIdeal.Gen
open Idealize.ShloMosaic

variable {F : FTy → Type} [FloatOps F] [Named F]

theorem lit0_lt : ∀ j : Fin 2016, (lit0 j).toNat < 512 := by decide +kernel

theorem lit1_lt : ∀ j : Fin 2016, (lit1 j).toNat < 512 := by decide +kernel

-- A word below 512 names a row of the 512-row block, so the row gathered at it lies inside the block; both gathers ask the same of their word.
theorem chk_of_lt (v : BitVec 32) (h : v.toNat < 512) : k1_chk1 v := by
  intro a
  fin_cases a
  exacts [h, le_rfl, le_rfl]

def tb0 : Vec F S2016 .i32 := fun x => lit0 (S2016.rowMajor x)

def tb1 : Vec F S2016 .i32 := fun x => lit1 (S2016.rowMajor x)

theorem tb0_chk (x : S2016.Idx) : k1_chk1 (tb0 (F := F) x) := chk_of_lt _ (lit0_lt _)

theorem tb1_chk (x : S2016.Idx) : k1_chk2 (tb1 (F := F) x) := chk_of_lt _ (lit1_lt _)

def tbl : pre1.Contents (Elt F) := fun
  | ⟨0, _⟩ => tb0 (F := F)
  | ⟨1, _⟩ => tb1 (F := F)
  | ⟨_ + 2, h⟩ => absurd h (Nat.not_lt.2 (Nat.le_add_left _ _))

def adm1 : (pcfg1 (F := F)).Adm := ⟨tbl, trivial⟩

end Cert.KernelIdeal.R1

end
-- ==== Proof.K1Step.lean ====
import proofs.«401211_j85263690760702_3_alg».proof.Proof.Gen.KernelIdeal
import proofs.«401211_j85263690760702_3_alg».proof.Proof.Gen.KernelIdeal.Skeleton
import Idealize.ShloMosaic.Lib.Pipeline.FrameBody

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
  (i : grid1.Coords) (tb0 tb1 : Vec F S2016 .i32) (T : Vec F S512x8x512 .f32)

def slot (k : Fin k1_t1_loop.trips) : S2016.Idx :=
  (Rect.unit (s := S2016) (k1_off1 i k) S1.size (k1_off1_inb i k)).idx (Shape.Idx.first (numel1_S1.symm ▸ Nat.one_pos))

def rowA (v : BitVec 32) : Vec F S1x8x512 .f32 :=
  if h : k1_chk1 v then View.ld T (Rect.unit (s := S512x8x512) (k1_off2 v) S1x8x512.size (k1_off2_inb v h))
  else fun _ => Scalar.ofBits .f32 0x00000000#32

def rowB (v : BitVec 32) : Vec F S1x8x512 .f32 :=
  if h : k1_chk2 v then View.ld T (Rect.unit (s := S512x8x512) (k1_off3 v) S1x8x512.size (k1_off3_inb v h))
  else fun _ => Scalar.ofBits .f32 0x00000000#32

theorem rowA_of (v : BitVec 32) (h : k1_chk1 v) :
    rowA T v = View.ld T (Rect.unit (s := S512x8x512) (k1_off2 v) S1x8x512.size (k1_off2_inb v h)) := dif_pos h

theorem rowB_of (v : BitVec 32) (h : k1_chk2 v) :
    rowB T v = View.ld T (Rect.unit (s := S512x8x512) (k1_off3 v) S1x8x512.size (k1_off3_inb v h)) := dif_pos h

def rowPiece (k : Fin k1_t1_loop.trips) : View.Piece (Elt F) S48x8x512 .f32 :=
  ⟨Rect.unit (s := S48x8x512) (k1_off4 k) S1x8x512.size (k1_off4_inb k), k1_pay10 (rowA T (tb0 (slot i k))) (rowB T (tb1 (slot i k)))⟩

def rows : ℕ → List (View.Piece (Elt F) S48x8x512 .f32)
  | 0 => []
  | k + 1 => if h : k < k1_t1_loop.trips then rowPiece i tb0 tb1 T ⟨k, h⟩ :: rows k else rows k

def pooledOf : Vec F S48x8x512 .f32 :=
  View.canon (rows i tb0 tb1 T k1_t1_loop.trips)

variable (P : Vec F S48x8x512 .f32) (W1 : Vec F S512x128 .f32) (b1 : Vec F S128 .f32) (W2 : Vec F S128x1 .f32) (b2 : Vec F S1x1 .f32)

def newM (m0 : Vec F S8x1 .f32) : Vec F S8x1 .f32 := k1_pay5 (k1_pay13 P W1 b1 W2 b2 m0)

def newL (m0 l0 : Vec F S8x1 .f32) : Vec F S8x1 .f32 := k1_pay3 (k1_pay12 P W1 b1 W2 b2) (k1_pay13 P W1 b1 W2 b2 m0) m0 l0

def newAcc (m0 : Vec F S8x1 .f32) (a0 : Vec F S8x512 .f32) : Vec F S8x512 .f32 :=
  k1_pay4 (k1_pay11 P) (k1_pay12 P W1 b1 W2 b2) (k1_pay13 P W1 b1 W2 b2 m0) m0 a0

def outBlk (acc : Vec F S8x512 .f32) (l : Vec F S8x1 .f32) : Vec F S8x512 .f32 := k1_pay6 acc l

end Cert.KernelIdeal.R1

end
-- ==== Proof.K1Data.lean ====
import proofs.«401211_j85263690760702_3_alg».proof.Proof.Gen.KernelIdeal.Launch
import proofs.«401211_j85263690760702_3_alg».proof.Proof.Gen.KernelIdeal.Skeleton
import proofs.«401211_j85263690760702_3_alg».proof.Proof.Gen.KernelIdeal.Points
import proofs.«401211_j85263690760702_3_alg».proof.Proof.K1Step
import proofs.«401211_j85263690760702_3_alg».proof.Proof.K1Tables
import Idealize.ShloMosaic.Lib.Pipeline.FrameBody
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev isFirst (i : grid1.Coords) : Prop := (Scalar.cmpi .ne (Scalar.extui (Scalar.cmpi .eq (BitVec.ofNat 32 (i 1).val) 0#32)) 0#32) = 1#1
abbrev isLast (i : grid1.Coords) : Prop := k1_cond2 i = 1#1
theorem isFirst_iff : ∀ t : Fin grid1.N, isFirst (grid1.coords t) ↔ t.val % 42 = 0 := by decide +kernel
theorem isLast_iff : ∀ t : Fin grid1.N, isLast (grid1.coords t) ↔ t.val % 42 = 41 := by decide +kernel

section Owned

variable (c : Dev nD) (i : grid1.Coords)
  (arg2 arg3 : Memref sig .tc .smem S2016 .i32) (arg4 : Memref sig .tc .vmem S512x8x512 .f32) (arg5 : Memref sig .tc .vmem S512x128 .f32)
  (arg6 : Memref sig .tc .vmem S128 .f32) (arg7 : Memref sig .tc .vmem S128x1 .f32) (arg8 : Memref sig .tc .vmem S1x1 .f32)
  (arg10 arg11 : Memref sig .tc .vmem S8x1 .f32) (arg12 : Memref sig .tc .vmem S8x512 .f32)
  (q : PosShare TreeShare) (tb0 tb1 : Vec F S2016 .i32)
  (T : Vec F S512x8x512 .f32) (W1 : Vec F S512x128 .f32) (b1 : Vec F S128 .f32) (W2 : Vec F S128x1 .f32) (b2 : Vec F S1x1 .f32)

-- A memref of the core owned whole at some contents.
abbrev someAt {sp : Space} {sh : Shape} {e : EltTy} (m : Memref sig .tc sp sh e) : sProp 𝕄 :=
  iprop(∃ d, owns (c : Thread nD τ) m fullShare d)

-- The two tables and the five inputs owned at their contents, beside `R`.
abbrev insAnd (R : sProp 𝕄) : sProp 𝕄 :=
  iprop(owns (c : Thread nD τ) arg2 q tb0 ∗ owns (c : Thread nD τ) arg3 q tb1 ∗ owns (c : Thread nD τ) arg4 fullShare T ∗ owns (c : Thread nD τ) arg5 fullShare W1
    ∗ owns (c : Thread nD τ) arg6 fullShare b1 ∗ owns (c : Thread nD τ) arg7 fullShare W2 ∗ owns (c : Thread nD τ) arg8 fullShare b2 ∗ R)

-- The three carried scratch operands owned at `m`, `l`, `acc`, beside `R`.
abbrev carriedAnd (m l : Vec F S8x1 .f32) (acc : Vec F S8x512 .f32) (R : sProp 𝕄) : sProp 𝕄 :=
  iprop(owns (c : Thread nD τ) arg10 fullShare m ∗ owns (c : Thread nD τ) arg11 fullShare l ∗ owns (c : Thread nD τ) arg12 fullShare acc ∗ R)

-- The carried scratch at one tile's update of `m0`, `l0`, `a0`, beside `R`.
abbrev steppedAnd (m0 l0 : Vec F S8x1 .f32) (a0 : Vec F S8x512 .f32) (R : sProp 𝕄) : sProp 𝕄 :=
  carriedAnd c arg10 arg11 arg12 (newM (pooledOf i tb0 tb1 T) W1 b1 W2 b2 m0) (newL (pooledOf i tb0 tb1 T) W1 b1 W2 b2 m0 l0)
    (newAcc (pooledOf i tb0 tb1 T) W1 b1 W2 b2 m0 a0) R

end Owned

-- The body at a first tile, on whole memrefs: the scratch at anything; it leaves the carried scratch at the update of the reset values.
def RunA : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : isFirst i) (hc1 : ¬isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32)
    (K : PUnit → sProp 𝕄),
      insAnd c arg2 arg3 arg4 arg5 arg6 arg7 arg8 q tb0 tb1 T W1 b1 W2 b2 iprop(someAt c arg10 ∗ someAt c arg11 ∗ someAt c arg12 ∗ someAt c arg13
          ∗ (insAnd c arg2 arg3 arg4 arg5 arg6 arg7 arg8 q tb0 tb1 T W1 b1 W2 b2 (steppedAnd c i arg10 arg11 arg12 tb0 tb1 T W1 b1 W2 b2 k1_pay7 k1_pay8 k1_pay9 (owns (c : Thread nD τ) arg13 fullShare (pooledOf i tb0 tb1 T))) -∗ K ⟨⟩))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

-- At a tile neither first nor last: the carried scratch at `m0`, `l0`, `a0` is left at their update.
def RunB : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : ¬isFirst i) (hc1 : ¬isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32) (m0 l0 : Vec F S8x1 .f32) (a0 : Vec F S8x512 .f32)
    (K : PUnit → sProp 𝕄),
      insAnd c arg2 arg3 arg4 arg5 arg6 arg7 arg8 q tb0 tb1 T W1 b1 W2 b2 (carriedAnd c arg10 arg11 arg12 m0 l0 a0 iprop(someAt c arg13
          ∗ (insAnd c arg2 arg3 arg4 arg5 arg6 arg7 arg8 q tb0 tb1 T W1 b1 W2 b2 (steppedAnd c i arg10 arg11 arg12 tb0 tb1 T W1 b1 W2 b2 m0 l0 a0 (owns (c : Thread nD τ) arg13 fullShare (pooledOf i tb0 tb1 T))) -∗ K ⟨⟩)))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

-- At a last tile: as before, and the output buffer is left at the quotient of the updated sum by the updated denominator.
def RunC : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : ¬isFirst i) (hc1 : isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32) (m0 l0 : Vec F S8x1 .f32) (a0 : Vec F S8x512 .f32)
    (K : PUnit → sProp 𝕄),
      insAnd c arg2 arg3 arg4 arg5 arg6 arg7 arg8 q tb0 tb1 T W1 b1 W2 b2 (carriedAnd c arg10 arg11 arg12 m0 l0 a0 iprop(someAt c arg13 ∗ someAt c arg9
          ∗ (insAnd c arg2 arg3 arg4 arg5 arg6 arg7 arg8 q tb0 tb1 T W1 b1 W2 b2 (steppedAnd c i arg10 arg11 arg12 tb0 tb1 T W1 b1 W2 b2 m0 l0 a0 iprop(owns (c : Thread nD τ) arg13 fullShare (pooledOf i tb0 tb1 T)
              ∗ owns (c : Thread nD τ) arg9 fullShare (outBlk (newAcc (pooledOf i tb0 tb1 T) W1 b1 W2 b2 m0 a0) (newL (pooledOf i tb0 tb1 T) W1 b1 W2 b2 m0 l0)))) -∗ K ⟨⟩)))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

section Data

variable (a : (pcfg1 (F := F)).Adm)
variable (V : (c : Dev nD) → (b : Ref sig .tc) → Buf (Elt F) ((c : Thread nD τ).loc b)) (c : Dev nD)

-- Window `w`'s block at point `t`, read off its array as the region finds it.
def iblk1P (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem idle1_5_iff : ∀ t : Fin grid1.N, idle1 5 (grid1.coords t) = true ↔ t.val % 42 ≠ 41 := by decide +kernel

-- `t` is the last point, or the output window's block index changes at the next.
def flush5 (t : Fin grid1.N) : Bool :=
  (t.val + 1 = grid1.N || decide (∃ h : t.val + 1 < grid1.N, cc1_transform_5 (grid1.coords ⟨t.val + 1, h⟩) ≠ cc1_transform_5 (grid1.coords t)))

theorem flush5_iff : ∀ t : Fin grid1.N, flush5 t = true ↔ t.val % 42 = 41 := by decide +kernel

theorem flush1_5_eq (t : Fin (cfg1 a).N) : ((cfg1 a).win 5).flush t = flush5 t := rfl
theorem idleAt1_5 (t : Fin (cfg1 a).N) (h : t.val % 42 ≠ 41) : (cfg1 a).idle 5 ((cfg1 a).grid.coords t) = true := (idle1_5_iff t).mpr h
theorem liveAt1_5 (t : Fin (cfg1 a).N) (h : t.val % 42 = 41) : (cfg1 a).idle 5 ((cfg1 a).grid.coords t) = false :=
  Bool.eq_false_iff.mpr ((idle1_5_iff t).not.mpr (not_not_intro h))
theorem noFlush1_5 (t : Fin (cfg1 a).N) (h : t.val % 42 ≠ 41) : ((cfg1 a).win 5).flush t = false := by
  rw [flush1_5_eq]; exact Bool.eq_false_iff.mpr fun hf => h ((flush5_iff t).mp hf)

-- What the kernel carries between the window tiles of one batch chunk: running maximum, denominator and weighted sum.
structure Carried (F : FTy → Type) where
  m : Vec F S8x1 .f32
  l : Vec F S8x1 .f32
  acc : Vec F S8x512 .f32

def init1 : Carried F := ⟨k1_pay7, k1_pay8, k1_pay9⟩

-- One tile's update of the carried scratch from the tile's pooled rows and the weights.
def step1 (P : Vec F S48x8x512 .f32) (W1 : Vec F S512x128 .f32) (b1 : Vec F S128 .f32) (W2 : Vec F S128x1 .f32) (b2 : Vec F S1x1 .f32)
    (s : Carried F) : Carried F :=
  ⟨newM P W1 b1 W2 b2 s.m, newL P W1 b1 W2 b2 s.m s.l, newAcc P W1 b1 W2 b2 s.m s.acc⟩

def pooledAtP (t : Fin (cfg1 a).N) : Vec F S48x8x512 .f32 :=
  pooledOf (grid1.coords t) (a.1 0) (a.1 1) (iblk1P a V c 0 t)

def stepAtP (t : Fin (cfg1 a).N) (s : Carried F) : Carried F :=
  step1 (pooledAtP a V c t) (iblk1P a V c 1 t) (iblk1P a V c 2 t) (iblk1P a V c 3 t) (iblk1P a V c 4 t) s

-- The carried scratch after the body at position `n`: the point's update, of the reset values at the first tile of a batch chunk and of what the point before left elsewhere.
def outsAt1P : (n : ℕ) → n < (cfg1 a).N → Carried F
  | 0, hn => stepAtP a V c ⟨0, hn⟩ init1
  | n + 1, hn => stepAtP a V c ⟨n + 1, hn⟩ (if (n + 1) % 42 = 0 then init1 else outsAt1P n (Nat.lt_of_succ_lt hn))

theorem outsAt1P_A (t : Fin (cfg1 a).N) (h : t.val % 42 = 0) :
    outsAt1P a V c t.val t.isLt = stepAtP a V c t init1 := by
  obtain ⟨n, hn⟩ := t
  cases n with
  | zero => rfl
  | succ n => show stepAtP a V c _ (if _ then _ else _) = _; rw [if_pos h]

theorem outsAt1P_BC (t : Fin (cfg1 a).N) (h : t.val % 42 ≠ 0) :
    outsAt1P a V c t.val t.isLt = stepAtP a V c t (outsAt1P a V c (t.val - 1) (Nat.lt_of_le_of_lt (Nat.sub_le _ _) t.isLt)) := by
  obtain ⟨n, hn⟩ := t
  cases n with
  | zero => exact absurd (Nat.zero_mod _) h
  | succ n => show stepAtP a V c _ (if _ then _ else _) = _; rw [if_neg h]; rfl

abbrev tbM1_0 : Memref sig .tc .smem S2016 .i32 := Memref.whole main_c
abbrev tbM1_1 : Memref sig .tc .smem S2016 .i32 := Memref.whole main_c_0
abbrev scM1_0 : Memref sig .tc .vmem S8x1 .f32 := Memref.whole cc1_scratch0
abbrev scM1_1 : Memref sig .tc .vmem S8x1 .f32 := Memref.whole cc1_scratch1
abbrev scM1_2 : Memref sig .tc .vmem S8x512 .f32 := Memref.whole cc1_scratch2
abbrev scM1_3 : Memref sig .tc .vmem S48x8x512 .f32 := Memref.whole cc1_scratch3

abbrev ms1_0 (t : Fin (cfg1 a).N) : Memref sig .tc .vmem S512x8x512 .f32 := spec1_0.stage ((cfg1 a).slots t 0)
abbrev ms1_1 (t : Fin (cfg1 a).N) : Memref sig .tc .vmem S512x128 .f32 := spec1_1.stage ((cfg1 a).slots t 1)
abbrev ms1_2 (t : Fin (cfg1 a).N) : Memref sig .tc .vmem S128 .f32 := spec1_2.stage ((cfg1 a).slots t 2)
abbrev ms1_3 (t : Fin (cfg1 a).N) : Memref sig .tc .vmem S128x1 .f32 := spec1_3.stage ((cfg1 a).slots t 3)
abbrev ms1_4 (t : Fin (cfg1 a).N) : Memref sig .tc .vmem S1x1 .f32 := spec1_4.stage ((cfg1 a).slots t 4)
abbrev ms1_5 (t : Fin (cfg1 a).N) : Memref sig .tc .vmem S8x512 .f32 := spec1_5.stage ((cfg1 a).slots t 5)

abbrev bodyAt1 (t : Fin (cfg1 a).N) : Prog (TpuEff nD τ sig (Elt F) Λ₀ .tc) PUnit :=
  cc1__attn_kernel (grid1.coords t) tbM1_0 (Memref.isWhole_whole _) tbM1_1 (Memref.isWhole_whole _)
    (ms1_0 a t) (stage_whole1 0 _) (ms1_1 a t) (stage_whole1 1 _) (ms1_2 a t) (stage_whole1 2 _) (ms1_3 a t) (stage_whole1 3 _) (ms1_4 a t) (stage_whole1 4 _) (ms1_5 a t) (stage_whole1 5 _)
    scM1_0 (Memref.isWhole_whole _) scM1_1 (Memref.isWhole_whole _) scM1_2 (Memref.isWhole_whole _) scM1_3 (Memref.isWhole_whole _)

abbrev anyAt (b : Ref sig .tc) : sProp 𝕄 :=
  iprop(∃ f : Buf (Elt F) ((c : Thread nD τ).loc b), ((c : Thread nD τ).loc b) ↦{fullShare} f)

-- The two tables held whole are the body's two table memrefs owned at their contents.
theorem tables_eq :
    (Pipeline.prefHeld pre1 c (fun _ => fullShare) a.1 : sProp 𝕄)
      = iprop(owns (c : Thread nD τ) tbM1_0 fullShare (a.1 0) ∗ owns (c : Thread nD τ) tbM1_1 fullShare (a.1 1)) := by
  unfold Pipeline.prefHeld
  rw [show (Finset.univ : Finset (Fin 2)) = insert (0 : Fin 2) {(1 : Fin 2)} from by decide,
    bigSep_insert (by decide), bigSep_singleton]
  exact congrArg₂ _ (owns_whole (c : Thread nD τ) main_c fullShare (a.1 0)).symm (owns_whole (c : Thread nD τ) main_c_0 fullShare (a.1 1)).symm

-- Everything the invariant carries that the body never touches, beside `R`.
abbrev othersAnd (R : sProp 𝕄) : sProp 𝕄 :=
  iprop(anyAt c cc0_stg0_0 ∗ anyAt c cc0_stg0_1 ∗ anyAt c cc0_stg1_0 ∗ anyAt c cc0_stg1_1 ∗ anyAt c cc0_scratch0 ∗ anyAt c cc0_scratch1 ∗ R)

-- The invariant around its scratch part `R`: the tables, which the body only reads, and what it never touches.
abbrev restAnd (R : sProp 𝕄) : sProp 𝕄 :=
  iprop((∃ r, prngReg c r) ∗ (owns (c : Thread nD τ) tbM1_0 fullShare (a.1 0) ∗ owns (c : Thread nD τ) tbM1_1 fullShare (a.1 1)) ∗ othersAnd c R)

-- The carried scratch operands at `s`, the pooled scratch at anything.
abbrev carriedAt (s : Carried F) : sProp 𝕄 := carriedAnd c scM1_0 scM1_1 scM1_2 s.m s.l s.acc (someAt c scM1_3)

-- Every scratch operand at anything.
abbrev scratchAny : sProp 𝕄 := iprop(someAt c scM1_0 ∗ someAt c scM1_1 ∗ someAt c scM1_2 ∗ someAt c scM1_3)

-- On entry the four scratch operands are held at unspecified contents.
theorem scopedRest1_owns : (Pipeline.scopedRest spec1 c : sProp 𝕄) = othersAnd c (scratchAny c) := by
  rw [scopedRest1_eq]; simp only [scratchAny, someAt, scM1_0, scM1_1, scM1_2, scM1_3, owns_whole]; rfl

-- The region invariant before position `n`: what the region is entered with; after a point, the carried scratch at what that point left.
def PhiS : (n : ℕ) → n ≤ (cfg1 a).N → sProp 𝕄
  | 0, _ => iprop((∃ r, prngReg c r) ∗ Pipeline.prefHeld pre1 c (fun _ => fullShare) a.1 ∗ Pipeline.scopedRest spec1 c)
  | n + 1, hn => restAnd a c (carriedAt c (outsAt1P a V c n hn))

theorem PhiS_pos (n : ℕ) (h : n ≤ (cfg1 a).N) (hz : n ≠ 0) :
    PhiS a V c n h = restAnd a c (carriedAt c (outsAt1P a V c (n - 1) (by omega))) := by
  cases n with
  | zero => exact absurd rfl hz
  | succ n => rfl

-- At every position the invariant gives the entry form back: the carried scratch's contents are forgotten.
theorem PhiS_any (n : ℕ) (h : n ≤ (cfg1 a).N) : PhiS a V c n h ⊢ restAnd a c (scratchAny c) := by
  cases n with
  | zero => rw [PhiS, scopedRest1_owns, tables_eq]
  | succ n =>
    rw [PhiS]; dsimp only [restAnd, othersAnd, scratchAny, carriedAt, carriedAnd]
    iintro ⟨Hg, Ht, R1, R2, R3, R4, R5, R6, HS0, HS1, HS2, HS3⟩
    iframe Hg Ht R1 R2 R3 R4 R5 R6 HS3
    isplitl [HS0]; · iexists _; iexact HS0
    isplitl [HS1]; · iexists _; iexact HS1
    iexists _; iexact HS2

-- The proof data of the call on core `c`: after the body each input's buffer at its block, the output's at the quotient of the carried sum by the carried denominator.
def dat1P : Dat τ (Elt F) Unit ℕ (UR sig nD τ) ℕ (cfg1 a) c where
  A w := V c (Pipeline.arrRef spec1 w)
  after w t := match w with
    | ⟨5, _⟩ => outBlk (outsAt1P a V c t.val t.isLt).acc (outsAt1P a V c t.val t.isLt).l
    | w => iblk1P a V c w t
  Φ t := PhiS a V c t.val (Nat.le_of_lt_succ t.isLt)
  q _ := fullShare
  owed _ := 0

-- The body only reads an input window, so its buffer holds the window's block at every point.
theorem before1P (w : Fin (cfg1 a).W) (hw : ((cfg1 a).win w).isOut = false) (t : Fin (cfg1 a).N) (d) :
    (dat1P a V c).before w t d = iblk1P a V c w t :=
  match w, hw with
  | ⟨0, _⟩, _ | ⟨1, _⟩, _ | ⟨2, _⟩, _ | ⟨3, _⟩, _ | ⟨4, _⟩, _ =>
    ((dat1P a V c).before_in_eq_fetched _ rfl (fun _ => rfl) (fun _ _ _ => rfl) (fun _ => rfl) t d).trans rfl
  | ⟨5, _⟩, hw => Bool.noConfusion hw
  | ⟨_ + 6, h⟩, _ => absurd h (Nat.not_lt.2 (Nat.le_add_left _ _))

theorem Phi_castSucc (t : Fin (cfg1 a).N) : (dat1P a V c).Φ t.castSucc = PhiS a V c t.val (Nat.le_of_lt t.isLt) := by
  dsimp only [dat1P]; simp only [Fin.coe_castSucc]

-- The body at any point: the position within the batch chunk says which run applies; the invariant lends the tables and the carried scratch and takes the scratch back at the point's update; the output buffer is touched only at a last tile.
theorem sound_bodyP (hA : RunA (F := F)) (hB : RunB (F := F)) (hC : RunC (F := F)) (hchk1 : ∀ x, k1_chk1 (a.1 0 x)) (hchk2 : ∀ x, k1_chk2 (a.1 1 x)) (t : Fin (cfg1 a).N) :
    iprop((dat1P a V c).Φ t.castSucc ∗ (dat1P a V c).owesAt () t.castSucc
      ∗ (∃ d, owns (c : Thread nD τ) (ms1_0 a t) fullShare ((dat1P a V c).before 0 t d)) ∗ (∃ d, owns (c : Thread nD τ) (ms1_1 a t) fullShare ((dat1P a V c).before 1 t d)) ∗ (∃ d, owns (c : Thread nD τ) (ms1_2 a t) fullShare ((dat1P a V c).before 2 t d))
      ∗ (∃ d, owns (c : Thread nD τ) (ms1_3 a t) fullShare ((dat1P a V c).before 3 t d)) ∗ (∃ d, owns (c : Thread nD τ) (ms1_4 a t) fullShare ((dat1P a V c).before 4 t d)) ∗ (∃ d, owns (c : Thread nD τ) (ms1_5 a t) fullShare ((dat1P a V c).before 5 t d)))
      ⊢ wp frame (wpE (defs₀ (F := F)) Variants.none c none) Set.univ (bodyAt1 a t) (fun _ => iprop(restAnd a c (carriedAt c (outsAt1P a V c t.val t.isLt)) ∗ (dat1P a V c).owesAt () t.castSucc
        ∗ owns (c : Thread nD τ) (ms1_0 a t) fullShare (iblk1P a V c 0 t) ∗ owns (c : Thread nD τ) (ms1_1 a t) fullShare (iblk1P a V c 1 t) ∗ owns (c : Thread nD τ) (ms1_2 a t) fullShare (iblk1P a V c 2 t)
        ∗ owns (c : Thread nD τ) (ms1_3 a t) fullShare (iblk1P a V c 3 t) ∗ owns (c : Thread nD τ) (ms1_4 a t) fullShare (iblk1P a V c 4 t) ∗ (dat1P a V c).leavesExact 5 t)) := by
  simp only [before1P a V c 0 rfl, before1P a V c 1 rfl, before1P a V c 2 rfl, before1P a V c 3 rfl, before1P a V c 4 rfl]
  rw [Phi_castSucc]
  dsimp only [RunA, RunB, RunC, insAnd, steppedAnd, carriedAnd, someAt] at hA hB hC
  by_cases h0 : t.val % 42 = 0
  · have h41 : t.val % 42 ≠ 41 := by omega
    rw [Dat.leavesExact_idle _ 5 t (idleAt1_5 a t h41) (noFlush1_5 a t h41), outsAt1P_A a V c t h0]
    unfold stepAtP step1 pooledAtP init1; dsimp only [restAnd, othersAnd, carriedAt, carriedAnd, someAt, bodyAt1]
    iintro ⟨HΦ, Ho, ⟨%d0, H0⟩, ⟨%d1, H1⟩, ⟨%d2, H2⟩, ⟨%d3, H3⟩, ⟨%d4, H4⟩, H5⟩
    ihave HΦ' := (PhiS_any a V c _ _) $$ HΦ
    icases HΦ' with ⟨Hg, ⟨Ht0, Ht1⟩, R1, R2, R3, R4, R5, R6, HS0, HS1, HS2, HS3⟩
    iapply (hA c (grid1.coords t) _ _ _ _ _ _ _ _ _ _ _ _ _ _ _ _ _ _ _ _ _ _ _ _ ((isFirst_iff t).mpr h0) (fun h => h41 ((isLast_iff t).mp h)) fullShare (a.1 0) (a.1 1) hchk1 hchk2 (iblk1P a V c 0 t) (iblk1P a V c 1 t) (iblk1P a V c 2 t) (iblk1P a V c 3 t) (iblk1P a V c 4 t) _)
    iframe Ht0 Ht1 H0 H1 H2 H3 H4 HS0 HS1 HS2 HS3
    iintro ⟨Ht0, Ht1, H0, H1, H2, H3, H4, HS0, HS1, HS2, HS3⟩
    iframe Hg Ht0 Ht1 R1 R2 R3 R4 R5 R6 HS0 HS1 HS2 Ho H0 H1 H2 H3 H4
    isplitl [HS3]; · iexists _; iexact HS3
    iexact H5
  · rw [PhiS_pos a V c _ _ fun hz => h0 (by rw [hz])]
    by_cases h41 : t.val % 42 = 41
    · rw [show (dat1P a V c).leavesExact 5 t = owns (c : Thread nD τ) (ms1_5 a t) fullShare (outBlk (outsAt1P a V c t.val t.isLt).acc (outsAt1P a V c t.val t.isLt).l) from by
          unfold Dat.leavesExact; rw [liveAt1_5 a t h41]; rfl,
        outsAt1P_BC a V c t h0]
      unfold stepAtP step1 pooledAtP; dsimp only [restAnd, othersAnd, carriedAt, carriedAnd, someAt, bodyAt1]
      iintro ⟨⟨Hg, ⟨Ht0, Ht1⟩, R1, R2, R3, R4, R5, R6, HS0, HS1, HS2, HS3⟩, Ho, ⟨%d0, H0⟩, ⟨%d1, H1⟩, ⟨%d2, H2⟩, ⟨%d3, H3⟩, ⟨%d4, H4⟩, ⟨%d5, H5⟩⟩
      iapply (hC c (grid1.coords t) _ _ _ _ _ _ _ _ _ _ _ _ _ _ _ _ _ _ _ _ _ _ _ _ (fun h => h0 ((isFirst_iff t).mp h)) ((isLast_iff t).mpr h41) fullShare (a.1 0) (a.1 1) hchk1 hchk2 (iblk1P a V c 0 t) (iblk1P a V c 1 t) (iblk1P a V c 2 t) (iblk1P a V c 3 t) (iblk1P a V c 4 t) _ _ _ _)
      iframe Ht0 Ht1 H0 H1 H2 H3 H4 HS0 HS1 HS2 HS3
      isplitl [H5]; · iexists _; iexact H5
      iintro ⟨Ht0, Ht1, H0, H1, H2, H3, H4, HS0, HS1, HS2, HS3, H5⟩
      iframe Hg Ht0 Ht1 R1 R2 R3 R4 R5 R6 HS0 HS1 HS2 Ho H0 H1 H2 H3 H4
      isplitl [HS3]; · iexists _; iexact HS3
      iexact H5
    · rw [Dat.leavesExact_idle _ 5 t (idleAt1_5 a t h41) (noFlush1_5 a t h41), outsAt1P_BC a V c t h0]
      unfold stepAtP step1 pooledAtP; dsimp only [restAnd, othersAnd, carriedAt, carriedAnd, someAt, bodyAt1]
      iintro ⟨⟨Hg, ⟨Ht0, Ht1⟩, R1, R2, R3, R4, R5, R6, HS0, HS1, HS2, HS3⟩, Ho, ⟨%d0, H0⟩, ⟨%d1, H1⟩, ⟨%d2, H2⟩, ⟨%d3, H3⟩, ⟨%d4, H4⟩, H5⟩
      iapply (hB c (grid1.coords t) _ _ _ _ _ _ _ _ _ _ _ _ _ _ _ _ _ _ _ _ _ _ _ _ (fun h => h0 ((isFirst_iff t).mp h)) (fun h => h41 ((isLast_iff t).mp h)) fullShare (a.1 0) (a.1 1) hchk1 hchk2 (iblk1P a V c 0 t) (iblk1P a V c 1 t) (iblk1P a V c 2 t) (iblk1P a V c 3 t) (iblk1P a V c 4 t) _ _ _ _)
      iframe Ht0 Ht1 H0 H1 H2 H3 H4 HS0 HS1 HS2 HS3
      iintro ⟨Ht0, Ht1, H0, H1, H2, H3, H4, HS0, HS1, HS2, HS3⟩
      iframe Hg Ht0 Ht1 R1 R2 R3 R4 R5 R6 HS0 HS1 HS2 Ho H0 H1 H2 H3 H4
      isplitl [HS3]; · iexists _; iexact HS3
      iexact H5

theorem body_obligation1P (hA : RunA (F := F)) (hB : RunB (F := F)) (hC : RunC (F := F)) (hchk1 : ∀ x, k1_chk1 (a.1 0 x)) (hchk2 : ∀ x, k1_chk2 (a.1 1 x)) :
    BodyObligation (dat1P (F := F) a V c) (defs₀ (F := F)) Variants.none () Set.univ := fun t => by
  rw [bigSep_W1, bigSep_W1]
  exact sound_bodyP a V c hA hB hC hchk1 hchk2 t

end Data

section Export

variable (V : (c : Dev nD) → (b : Ref sig .tc) → Buf (Elt F) ((c : Thread nD τ).loc b)) (c : Dev nD)

abbrev iblk1 (w : Fin (cfg1 (adm1 (F := F))).W) (t : Fin (cfg1 (adm1 (F := F))).N) := iblk1P (adm1 (F := F)) V c w t
abbrev pooledAt (t : Fin (cfg1 (adm1 (F := F))).N) : Vec F S48x8x512 .f32 := pooledAtP (adm1 (F := F)) V c t
abbrev stepAt (t : Fin (cfg1 (adm1 (F := F))).N) (s : Carried F) : Carried F := stepAtP (adm1 (F := F)) V c t s
abbrev outsAt1 (n : ℕ) (hn : n < (cfg1 (adm1 (F := F))).N) : Carried F := outsAt1P (adm1 (F := F)) V c n hn
-- The proof data of the call on core `c`, at the tables' contents.
abbrev dat1 : Dat τ (Elt F) Unit ℕ (UR sig nD τ) ℕ (cfg1 (adm1 (F := F))) c := dat1P (adm1 (F := F)) V c

theorem pooledAt_eq (t : Fin (cfg1 (adm1 (F := F))).N) :
    pooledAt V c t = pooledOf (grid1.coords t) (tb0 (F := F)) (tb1 (F := F)) (iblk1 V c 0 t) := rfl
theorem outsAt1_A (t : Fin (cfg1 (adm1 (F := F))).N) (h : t.val % 42 = 0) :
    outsAt1 V c t.val t.isLt = stepAt V c t init1 := outsAt1P_A _ V c t h
theorem outsAt1_BC (t : Fin (cfg1 (adm1 (F := F))).N) (h : t.val % 42 ≠ 0) :
    outsAt1 V c t.val t.isLt = stepAt V c t (outsAt1 V c (t.val - 1) (Nat.lt_of_le_of_lt (Nat.sub_le _ _) t.isLt)) := outsAt1P_BC _ V c t h
theorem A_eq1 (w : Fin (cfg1 (adm1 (F := F))).W) : (dat1 V c).A w = V c (Pipeline.arrRef spec1 w) := rfl
theorem owed1 (t) : (dat1 V c).owed t = 0 := rfl
theorem q1 (w) : (dat1 V c).q w = fullShare := rfl
theorem after1_5 (t : Fin (cfg1 (adm1 (F := F))).N) :
    (dat1 V c).after 5 t = outBlk (outsAt1 V c t.val t.isLt).acc (outsAt1 V c t.val t.isLt).l := rfl

-- What the region is entered with is the invariant before the first point.
theorem hin1 :
    iprop((∃ r, prngReg c r) ∗ Pipeline.prefHeld pre1 c (fun _ => fullShare) (adm1 (F := F)).1 ∗ Pipeline.scopedRest spec1 c) ⊢ (dat1 V c).Φ 0 := .rfl

-- After the last point the invariant gives the entry form back.
theorem hout1 :
    (dat1 V c).Φ (Fin.last _) ⊢ iprop(((∃ r, prngReg c r) ∗ Pipeline.prefHeld pre1 c (fun _ => fullShare) (adm1 (F := F)).1)
      ∗ Pipeline.ownSems0 (fun k : PEmpty => k.elim) c ∗ Pipeline.scopedRest spec1 c) := by
  rw [Pipeline.ownSems0_none, scopedRest1_owns, tables_eq]
  refine (PhiS_any (adm1 (F := F)) V c _ (le_refl _)).trans ?_
  dsimp only [restAnd]
  iintro ⟨Hg, Ht, HR⟩
  iframe; iempintro

end Export

end Cert.KernelIdeal.R1

end
-- ==== Proof.KLaunch.lean ====
import proofs.«401211_j85263690760702_3_alg».proof.Proof.Gen.KernelIdeal.Regions
import proofs.«401211_j85263690760702_3_alg».proof.Proof.K0Data
import proofs.«401211_j85263690760702_3_alg».proof.Proof.K1Tables
import proofs.«401211_j85263690760702_3_alg».proof.Proof.K1Data
import Idealize.ShloMosaic.Lib.Pipeline.RegionsLoop
import Idealize.ShloMosaic.Lib.Pipeline.FrameSuffix
import Idealize.ShloMosaic.Lib.Tactic

noncomputable section

namespace Cert.KernelIdeal.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen Cert.KernelIdeal.R0 Cert.KernelIdeal.R1

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev V1 : (c : Dev nD) → (b : Ref sig .tc) → Buf (Elt F) ((c : Thread nD τ).loc b) := fun c b => Gen.V1 m c b

-- What region 0 leaves: its arrays at their last contents, every other buffer as entered.
def W2 (c : Dev nD) : Valuation τ sig (Elt F) :=
  Pipeline.withArrays spec0 c (Gen.V1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 winFacts0.arr_inj c _ _ w
theorem W2_of_ne (c : Dev nD) (b : Ref sig .tc) (hb : ∀ w, Pipeline.arrRef spec0 w ≠ b) :
    W2 m c (Proc.devRef .tc b) = Gen.V1 m c (Proc.devRef .tc b) :=
  Pipeline.withArrays_of_ne spec0 c _ _ b hb
abbrev V2 : (c : Dev nD) → (b : Ref sig .tc) → Buf (Elt F) ((c : Thread nD τ).loc b) := fun c b => W2 m c b

-- and region 1, likewise.
def W3 (c : Dev nD) : Valuation τ sig (Elt F) :=
  Pipeline.withArrays spec1 c (W2 m c) fun w => (dat1 (V2 m) c).arrAt w (cfg1 (adm1 (F := F))).N
theorem W3_arr (c : Dev nD) (w : Fin (cfg1 (adm1 (F := F))).W) :
    W3 m c (Proc.devRef .tc (Pipeline.arrRef spec1 w)) = (dat1 (V2 m) c).arrAt w (cfg1 (adm1 (F := F))).N :=
  Pipeline.withArrays_arr spec1 winFacts1.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

-- The host operations write the two tables as constants, and region 0 writes neither.
theorem tables_V2 (c : Dev nD) : ∀ k : Fin pre1.K, V2 m c (pre1.ref k) = (adm1 (F := F)).1 k
  | ⟨0, _⟩ => (W2_of_ne m c main_c (by decide)).trans (by
    show StableHlo.after hostOps0 (V0 m c) main_c = _
    after_results
    rfl)
  | ⟨1, _⟩ => (W2_of_ne m c main_c_0 (by decide)).trans (by
    show StableHlo.after hostOps0 (V0 m c) main_c_0 = _
    after_results
    rfl)

-- What region 1 does not write: the two tables at their contents, and the rest.
theorem rest1 (c : Dev nD) : (Pipeline.unscopedRest spec1 c (V2 m c) : sProp 𝕄)
    = iprop(Pipeline.prefHeld pre1 c (fun _ => fullShare) (adm1 (F := F)).1 ∗ Pipeline.unscopedRestP pre1 spec1 c (V2 m c)) := by
  rw [Pipeline.unscopedRest_split preFacts1 c (V2 m c), show (fun k => V2 m c (pre1.ref k)) = (adm1 (F := F)).1 from funext (tables_V2 m c)]

abbrev held (c : Dev nD) (W : Valuation τ sig (Elt F)) : sProp 𝕄 := StableHlo.held (c : Thread nD τ) (Pipeline.ucRefs τ sig) W
abbrev prng (c : Dev nD) : sProp 𝕄 := iprop(∃ r, prngReg c r)
abbrev owesNone (c : Dev nD) : sProp 𝕄 := iprop(∃ W, owes (c : Thread nD τ) (0 : CellTallies nD τ sig Unit) W)

theorem owesAt_intro {cfg : Pipeline.Cfg sig Λ₀} {c : Dev nD} (dat : Pipeline.Dat τ (Elt F) Unit ℕ (UR sig nD τ) ℕ cfg c)
    (t : Fin (cfg.N + 1)) (h0 : dat.owed t = 0) (hr : dat.recorded t = Set.univ) : owesNone c ⊢ dat.owesAt () t := by
  unfold Pipeline.Dat.owesAt Pipeline.owesWithin
  rw [h0]
  iintro ⟨%W, HO⟩; iexists W; isplitr
  · ipureintro; intro x _; exact Or.inl (by rw [hr]; trivial)
  iexact HO
theorem owesAt_elim {cfg : Pipeline.Cfg sig Λ₀} {c : Dev nD} (dat : Pipeline.Dat τ (Elt F) Unit ℕ (UR sig nD τ) ℕ cfg c)
    (t : Fin (cfg.N + 1)) (h0 : dat.owed t = 0) : dat.owesAt () t ⊢ owesNone c := by
  unfold Pipeline.Dat.owesAt Pipeline.owesWithin
  rw [h0]
  iintro ⟨%W, -, HO⟩; iexists W; iexact HO

def adm : (p : Fin 2) → (pcfgs (F := F) p).Adm
  | ⟨0, _⟩ => cfg0.toPCfg_adm
  | ⟨1, _⟩ => adm1

def pdats : (p : Fin 2) → (c : Dev nD) → Pipeline.Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop(prng c ∗ owesNone c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(held c (W3 m c) ∗ prng c)

set_option backward.isDefEq.respectTransparency.types false in
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun c t => rfl
  pre c := iprop(held c (Gen.V1 m c) ∗ R c)
  post c := iprop(held c (W2 m c) ∗ R c)
  X := prng
  Y := prng
  Z c := Pipeline.unscopedRest spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun w => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iapply (owesAt_intro (pdats m 0 c) 0 rfl rfl); iexact HO
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm
      (launch0 (F := F)).win (launch0 (F := F)).arr_whole c (pdats m) ((pdats m 0 c).share_full fun w => rfl)
      (V1 m c) (V2 m c) ((pdats m 0 c).arrAt · cfg0.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    iapply (owesAt_elim (pdats m 0 c) (Fin.last _) rfl); iexact HO

variable (hb1 : ∀ c : Dev nD, Pipeline.BodyObligation (dat1 (F := F) (V2 m) c) (defs₀ (F := F)) Variants.none () Set.univ)

-- Region 1's two tables enter at what the host operations wrote, and come back unchanged.
set_option backward.isDefEq.respectTransparency.types false in
def reg1 : Pipeline.RegionSeg (pcfgs (F := F)) adm (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ L lv 1 fun c t => rfl
  pre c := iprop(held c (W2 m c) ∗ R c)
  post c := iprop(Tₙ m c ∗ owesNone c)
  X := prng
  Y c := iprop(prng c ∗ Pipeline.prefHeld pre1 c (fun _ => fullShare) (adm1 (F := F)).1)
  Z c := Pipeline.unscopedRestP pre1 spec1 c (V2 m c)
  hentry c := by
    rw [Pipeline.ownSems0_none]
    have hsplit := (Pipeline.arrays_of_unscopedBufs (p := 1) (pcfgs (F := F)) adm (pdats m) (launch1 (F := F)).win (launch1 (F := F)).arr_whole c
      ((pdats m 1 c).share_full fun w => rfl) (V2 m c) (A_eq1 (V2 m) c)).trans (sep_mono .rfl (Entails.of_eq (rest1 m c)))
    rw [Pipeline.unscopedBufs_held] at hsplit
    iintro ⟨⟨Hub, Hp, HO⟩, -, -⟩
    ihave H := hsplit $$ Hub
    icases H with ⟨Ha, Ht, Hrest⟩
    imodintro
    iframe Ha Hp Hrest
    isplitl [Ht]; · iexact Ht
    iapply (owesAt_intro (pdats m 1 c) 0 rfl rfl); iexact HO
  hin c := hin1 (V2 m) c
  hout c := hout1 (V2 m) c
  hexit c := by
    have hjoin := (sep_mono .rfl (Entails.of_eq (rest1 m c).symm)).trans (Pipeline.unscopedBufs_of_arrays (p := 1) (pcfgs (F := F)) adm
      (launch1 (F := F)).win (launch1 (F := F)).arr_whole c (pdats m) ((pdats m 1 c).share_full fun w => rfl)
      (V2 m c) (fun b => W3 m c b) ((pdats m 1 c).arrAt · (cfg1 (adm1 (F := F))).N) (fun w => (W3_arr m c w).symm)
      fun b hb => W3_of_ne m c b fun w e => hb (Finset.mem_image.mpr ⟨w, Finset.mem_univ _, e⟩))
    rw [Pipeline.unscopedBufs_held] at hjoin
    iintro ⟨Ha, HO, ⟨HY, Ht⟩, Hrest⟩
    imodintro
    isplitl [Ha Hrest Ht HY]
    · isplitl [Ha Hrest Ht]
      · iapply hjoin; iframe
      iexact HY
    iapply (owesAt_elim (pdats m 1 c) (Fin.last _) rfl); iexact HO

theorem V2_main_v1 (c : Dev nD) : V2 m c main_v1 = (dat0 (V1 m) c).arrAt (1 : Fin 2) cfg0.N := W2_arr m c 1

theorem V1_main_arg0 (c : Dev nD) : V1 m c main_arg0 = m ((c : Thread nD τ).loc main_arg0) := V1_of m c main_arg0 (by decide)

-- A buffer that neither the host operations nor region 0 write is as launched when region 1 is entered.
theorem V2_launch (c : Dev nD) (b : Ref sig .tc) (hh : b ∉ hostOps0_W) (h0 : ∀ w, Pipeline.arrRef spec0 w ≠ b) :
    V2 m c b = m ((c : Thread nD τ).loc b) := (W2_of_ne m c b h0).trans (V1_of m c b hh)
theorem V2_main_arg1 (c : Dev nD) : V2 m c main_arg1 = m ((c : Thread nD τ).loc main_arg1) := V2_launch m c _ (by decide) (by decide)
theorem V2_main_arg2 (c : Dev nD) : V2 m c main_arg2 = m ((c : Thread nD τ).loc main_arg2) := V2_launch m c _ (by decide) (by decide)
theorem V2_main_arg3 (c : Dev nD) : V2 m c main_arg3 = m ((c : Thread nD τ).loc main_arg3) := V2_launch m c _ (by decide) (by decide)

-- The reshaped bias is the launch's bias through the shape cast.
theorem V2_main_v0' (c : Dev nD) :
    V2 m c main_v0 = fun i => shapeCast main_v0.ty.shape (m ((c : Thread nD τ).loc main_arg4)) shapeCasts_S1_S1x1 i :=
  (W2_of_ne m c main_v0 (by decide)).trans (by
    show StableHlo.after hostOps0 (V0 m c) main_v0 = _
    after_results)

-- Region 1 only reads the array of an input window, which therefore ends as it was entered.
theorem W3_in (c : Dev nD) (w : Fin (cfg1 (adm1 (F := F))).W) (h : ((cfg1 (adm1 (F := F))).win w).isOut = false) :
    W3 m c (Proc.devRef .tc (Pipeline.arrRef spec1 w)) = V2 m c (Pipeline.arrRef spec1 w) :=
  (W3_arr m c w).trans (((dat1 (V2 m) c).arrAt_in w h _).trans (A_eq1 (V2 m) c w))

abbrev segs : List (Pipeline.Seg (pcfgs (F := F)) adm (pdats m) () defs₀ 𝒱₀ L lv) :=
  [.host (seg0 m 𝒱₀ L lv fun _ => R), .region (reg0 m), .region (reg1 m hb1)]
theorem main_run (c : Dev nD) : main (F := F) c = Pipeline.Seg.run (segs m hb1) := (main_chain c).trans (by chain_rfl)

-- What every final memory holds on every core: the result at the last contents of region 1's output array, each argument as launched.
abbrev Post (r : PUnit × MemSt nD τ sig (Elt F)) : Prop := ∀ c : Dev nD,
  r.2.mem ((c.tc : Thread nD τ).loc main_v2) = (dat1 (V2 m) c).arrAt (5 : Fin 6) (cfg1 (adm1 (F := F))).N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

-- Every weakly fair execution of @main terminates, in a memory as `Post` says.
include hb1 in
set_option backward.isDefEq.respectTransparency.types false in
theorem run_of : θ_run defs (onTc (τ := τ) (main (F := F))) ⟨m, fun _ => 0, ρ⟩ (Post m) :=
  Pipeline.θ_run_regions_kit (pcfgs (F := F)) adm (pdats m) () (cellOf_inj adm) emb₁ defs₀ 𝒱₀ L lv m ρ main (segs m hb1)
    (fun c Q => by rw [main_run m hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(held c (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = held c (V0 m c) from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold held StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 5),
       (h c _ (mem_uc main_arg0 (by decide))).trans ((W3_of_ne m c _ (by decide)).trans
         (((W2_arr m c 0).trans (((dat0 (V1 m) c).arrAt_in 0 rfl _).trans (A_eq0 (V1 m) c 0))).trans (V1_main_arg0 m c))),
       (h c _ (mem_uc main_arg1 (by decide))).trans ((W3_in m c 1 rfl).trans (V2_main_arg1 m c)),
       (h c _ (mem_uc main_arg2 (by decide))).trans ((W3_in m c 2 rfl).trans (V2_main_arg2 m c)),
       (h c _ (mem_uc main_arg3 (by decide))).trans ((W3_in m c 3 rfl).trans (V2_main_arg3 m c)),
       (h c _ (mem_uc main_arg4 (by decide))).trans ((W3_of_ne m c _ (by decide)).trans (V2_launch m c _ (by decide) (by decide)))⟩)

end Cert.KernelIdeal.Launch

end
-- ==== Proof.K1Loop.lean ====
import proofs.«401211_j85263690760702_3_alg».proof.Proof.Gen.KernelIdeal
import proofs.«401211_j85263690760702_3_alg».proof.Proof.Gen.KernelIdeal.Skeleton
import proofs.«401211_j85263690760702_3_alg».proof.Proof.Gen.KernelIdeal.Loops
import proofs.«401211_j85263690760702_3_alg».proof.Proof.K1Step
import Idealize.ShloMosaic.Lib.Exec
import Idealize.ShloMosaic.Lib.Tactic
import Idealize.ShloMosaic.Lib.Pipeline.Kit

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid1.Coords)
  (arg2 : Memref sig .tc .smem S2016 .i32) (harg2 : arg2.IsWhole) (arg3 : Memref sig .tc .smem S2016 .i32) (harg3 : arg3.IsWhole)
  (arg4 : Memref sig .tc .vmem S512x8x512 .f32) (harg4 : arg4.IsWhole) (arg5 : Memref sig .tc .vmem S512x128 .f32) (harg5 : arg5.IsWhole)
  (arg6 : Memref sig .tc .vmem S128 .f32) (harg6 : arg6.IsWhole) (arg7 : Memref sig .tc .vmem S128x1 .f32) (harg7 : arg7.IsWhole)
  (arg8 : Memref sig .tc .vmem S1x1 .f32) (harg8 : arg8.IsWhole) (arg9 : Memref sig .tc .vmem S8x512 .f32) (harg9 : arg9.IsWhole)
  (arg10 : Memref sig .tc .vmem S8x1 .f32) (harg10 : arg10.IsWhole) (arg11 : Memref sig .tc .vmem S8x1 .f32) (harg11 : arg11.IsWhole)
  (arg12 : Memref sig .tc .vmem S8x512 .f32) (harg12 : arg12.IsWhole) (arg13 : Memref sig .tc .vmem S48x8x512 .f32) (harg13 : arg13.IsWhole)
  (q : PosShare TreeShare) (X2 : BufTy.Contents (Elt F) arg2.view.ty) (X3 : BufTy.Contents (Elt F) arg3.view.ty)
  (X4 : BufTy.Contents (Elt F) arg4.view.ty)
  (h1 : ∀ j, k1_chk1 (arg2.view.read (Elt F) X2 j)) (h2 : ∀ j, k1_chk2 (arg3.view.read (Elt F) X3 j))

-- What a trip holds: both index tables and the table block at their contents, and the pooled scratch at `f13`.
abbrev Trip (f13 : BufTy.Contents (Elt F) arg13.view.ty) : sProp 𝕄G :=
  iprop((arg2.view.loc (c : Thread nD τ) ↦[arg2.view.set]{q} X2) ∗ (arg3.view.loc (c : Thread nD τ) ↦[arg3.view.set]{q} X3)
    ∗ (arg4.view.loc (c : Thread nD τ) ↦[arg4.view.set]{fullShare} X4) ∗ (arg13.view.loc (c : Thread nD τ) ↦[arg13.view.set]{fullShare} f13))

-- One trip at a symbolic `k` leaves the tables and the table block as they were and stores some rows `L13` into the pooled scratch.
@[irreducible] def trip (k : Fin k1_t1_loop.trips) :
    { L13 : List (View.Piece (Elt F) S48x8x512 .f32) // ∀ f13, Trip c arg2 arg3 arg4 arg13 q X2 X3 X4 f13
      ⊢ wp frame (wpE (defs₀ (F := F)) Variants.none (c : Thread nD τ) none) Set.univ
          (k1_t1_body (F := F) i arg2 harg2 arg3 harg3 arg4 harg4 arg5 harg5 arg6 harg6 arg7 harg7 arg8 harg8 arg9 harg9 arg10 harg10 arg11 harg11 arg12 harg12 arg13 harg13 k ())
          (fun _ => Trip c arg2 arg3 arg4 arg13 q X2 X3 X4 (arg13.view.writes (Elt F) f13 L13)) } := by
  refine ⟨?_, fun f13 => ?run⟩
  case run =>
    unfold k1_t1_body
    iintro ⟨H2, H3, H4, H13⟩
    sl_exec (disch := first | exact h1 _ | exact h2 _)
    sl_step
    sl_close

-- The rows stored by the trips before `k`, last first.
def pb : ℕ → List (View.Piece (Elt F) S48x8x512 .f32)
  | 0 => []
  | k + 1 => if h : k < k1_t1_loop.trips then (trip c i arg2 harg2 arg3 harg3 arg4 harg4 arg5 harg5 arg6 harg6 arg7 harg7 arg8 harg8 arg9 harg9 arg10 harg10 arg11 harg11 arg12 harg12 arg13 harg13 q X2 X3 X4 h1 h2 ⟨k, h⟩).1 ++ pb k else pb k

-- Before trip `k` the pooled scratch holds its contents at loop entry `G13` overwritten by the rows of the trips before `k`.
abbrev inv (G13 : BufTy.Contents (Elt F) arg13.view.ty) (k : ℕ) (_u : PUnit) : sProp 𝕄G :=
  iprop((arg2.view.loc (c : Thread nD τ) ↦[arg2.view.set]{q} X2) ∗ (arg3.view.loc (c : Thread nD τ) ↦[arg3.view.set]{q} X3)
    ∗ (arg4.view.loc (c : Thread nD τ) ↦[arg4.view.set]{fullShare} X4)
    ∗ (∃ f, (arg13.view.loc (c : Thread nD τ) ↦[arg13.view.set]{fullShare} f) ∗ ⌜f = arg13.view.writes (Elt F) G13 (pb c i arg2 harg2 arg3 harg3 arg4 harg4 arg5 harg5 arg6 harg6 arg7 harg7 arg8 harg8 arg9 harg9 arg10 harg10 arg11 harg11 arg12 harg12 arg13 harg13 q X2 X3 X4 h1 h2 k)⌝))

set_option warn.classDefReducibility false in
@[sl_loop] def loopInv_k1_t1 (G13 : BufTy.Contents (Elt F) arg13.view.ty) :
    Cert.KernelIdeal.Gen.LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv := inv c i arg2 harg2 arg3 harg3 arg4 harg4 arg5 harg5 arg6 harg6 arg7 harg7 arg8 harg8 arg9 harg9 arg10 harg10 arg11 harg11 arg12 harg12 arg13 harg13 q X2 X3 X4 h1 h2 G13
  step k acc := by
    iintro ⟨H2, H3, H4, ⟨%f13, H13, %h13⟩⟩
    iapply (wp_wand_r Idealize.ShloMosaic.frame (wpE (defs₀ (F := F)) Variants.none (c : Thread nD τ) none) Set.univ)
    isplitl [H2 H3 H4 H13]
    · iapply ((trip c i arg2 harg2 arg3 harg3 arg4 harg4 arg5 harg5 arg6 harg6 arg7 harg7 arg8 harg8 arg9 harg9 arg10 harg10 arg11 harg11 arg12 harg12 arg13 harg13 q X2 X3 X4 h1 h2 k).2 f13)
      unfold Trip; iframe
    · iintro %_ ⟨H2, H3, H4, H13⟩
      unfold inv; iframe H2 H3 H4
      rw [pb, dif_pos k.isLt]
      iexists _; iframe H13
      ipureintro; rw [h13, ← View.writes_append]

end Cert.KernelIdeal.R1

end
-- ==== Proof.K1Pooled.lean ====
import proofs.«401211_j85263690760702_3_alg».proof.Proof.K1Loop
import Idealize.ShloMosaic.Lib.WholeRead
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable {sp : Space} {S : Shape} {e : EltTy} {m : Memref sig .tc sp S e} (h : m.IsWhole) (f : m.view.ty.Contents (Elt F))
  {off : Fin S.rank → ℕ} (hoff : off = fun _ => 0) (inb : ∀ a, off a + S.size a ≤ S.size a)

-- A load through `R` of a buffer held at the contents that read `X` loads `X` through `R`.
theorem readAt_unread_ld (X : S.Idx → Elt F e) (R : Rect S) :
    View.readAt (Elt F) m.view R.toLoadRect (h.unread X) = View.ld X R :=
  congrArg (View.ld · R) (h.read_unread X)

include hoff

theorem readAt_zero_unread (X : S.Idx → Elt F e) :
    View.readAt (Elt F) m.view (Rect.unit (s := S) off S.size inb).toLoadRect (h.unread X) = X :=
  (readAt_unread_ld h X _).trans (View.ld_unit_zero hoff inb X)

variable (m)

-- After a store of the whole of a buffer, whatever was stored before, it reads the last payload.
theorem read_writes_zero_cons (w : S.Idx → Elt F e) (L : List (View.Piece (Elt F) S e)) :
    m.view.read (Elt F) (m.view.writes (Elt F) f ((⟨Rect.unit (s := S) off S.size inb, w⟩ : View.Piece (Elt F) S e) :: L)) = w :=
  (View.read_writes_eq_canon m.view f _ (fun y => ⟨_, List.mem_cons_self .., View.mem_set_unit_zero hoff inb y⟩)).trans
    (View.canon_cons_unit_zero hoff inb w L)

theorem read_writes_zero (w : S.Idx → Elt F e) :
    m.view.read (Elt F) (m.view.writes (Elt F) f [(⟨Rect.unit (s := S) off S.size inb, w⟩ : View.Piece (Elt F) S e)]) = w :=
  read_writes_zero_cons m f hoff inb w []

end

variable (c : Dev nD) (i : grid1.Coords)
  (arg2 : Memref sig .tc .smem S2016 .i32) (harg2 : arg2.IsWhole) (arg3 : Memref sig .tc .smem S2016 .i32) (harg3 : arg3.IsWhole)
  (arg4 : Memref sig .tc .vmem S512x8x512 .f32) (harg4 : arg4.IsWhole) (arg5 : Memref sig .tc .vmem S512x128 .f32) (harg5 : arg5.IsWhole)
  (arg6 : Memref sig .tc .vmem S128 .f32) (harg6 : arg6.IsWhole) (arg7 : Memref sig .tc .vmem S128x1 .f32) (harg7 : arg7.IsWhole)
  (arg8 : Memref sig .tc .vmem S1x1 .f32) (harg8 : arg8.IsWhole) (arg9 : Memref sig .tc .vmem S8x512 .f32) (harg9 : arg9.IsWhole)
  (arg10 : Memref sig .tc .vmem S8x1 .f32) (harg10 : arg10.IsWhole) (arg11 : Memref sig .tc .vmem S8x1 .f32) (harg11 : arg11.IsWhole)
  (arg12 : Memref sig .tc .vmem S8x512 .f32) (harg12 : arg12.IsWhole) (arg13 : Memref sig .tc .vmem S48x8x512 .f32) (harg13 : arg13.IsWhole)
  (q : PosShare TreeShare) (tb0 tb1 : Vec F S2016 .i32) (T : Vec F S512x8x512 .f32)
  (h1 : ∀ j, k1_chk1 (arg2.view.read (Elt F) (harg2.unread tb0) j)) (h2 : ∀ j, k1_chk2 (arg3.view.read (Elt F) (harg3.unread tb1) j))

-- Held at the contents that read `tb0`, `tb1`, `T`, each gather of trip `k` loads the row of `T` its table's word names: the trip stores `rowPiece … k`.
theorem trip_eq (k : Fin k1_t1_loop.trips) : (trip c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 k).1 = [rowPiece i tb0 tb1 T k] := by
  unfold trip
  refine congrArg (fun w => [(⟨_, w⟩ : View.Piece (Elt F) S48x8x512 .f32)]) ?_
  exact congrArg₂ k1_pay10
    (((readAt_unread_ld harg4 T _).trans (rowA_of T _ (h1 _)).symm).trans (congrArg (rowA T) (harg2.readAt_unread tb0 _ _)))
    (((readAt_unread_ld harg4 T _).trans (rowB_of T _ (h2 _)).symm).trans (congrArg (rowB T) (harg3.readAt_unread tb1 _ _)))

theorem pb_eq_rows : ∀ k, pb c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 k = rows i tb0 tb1 T k
  | 0 => rfl
  | k + 1 => by
    rw [pb, rows, pb_eq_rows k]
    exact dite_congr rfl (fun h => congrArg (· ++ _) (trip_eq ..)) fun _ => rfl

theorem trips_eq : k1_t1_loop.trips = 48 := by decide +kernel

theorem rowPiece_mem (n : Fin k1_t1_loop.trips) : ∀ k, n.val < k → rowPiece i tb0 tb1 T n ∈ rows i tb0 tb1 T k
  | k + 1, h => by
    rw [rows]
    split
    · rcases Nat.lt_succ_iff_lt_or_eq.mp h with h' | rfl
      · exact List.mem_cons_of_mem _ (rowPiece_mem n k h')
      · exact List.mem_cons_self ..
    · exact rowPiece_mem n k (n.isLt.trans_le (Nat.le_of_not_lt ‹_›))

-- Row `y 0` of the pooled block is stored by trip `y 0`.
theorem rows_cover (y : S48x8x512.Idx) : ∃ p ∈ rows i tb0 tb1 T k1_t1_loop.trips, y ∈ p.1.set := by
  have hn : ((y 0 : Fin 48) : ℕ) < k1_t1_loop.trips := (y 0 : Fin 48).isLt.trans_eq trips_eq.symm
  refine ⟨rowPiece i tb0 tb1 T ⟨(y 0 : Fin 48), hn⟩, rowPiece_mem i tb0 tb1 T _ _ hn, ?_⟩
  show y ∈ (Rect.unit (s := S48x8x512) (k1_off4 ⟨(y 0 : Fin 48), hn⟩) S1x8x512.size (k1_off4_inb _)).set
  rw [Rect.mem_set_unit, k1_off4_eq]
  intro a
  fin_cases a
  · exact ⟨le_rfl, Nat.lt_succ_self _⟩
  · exact ⟨Nat.zero_le _, (y 1).isLt⟩
  · exact ⟨Nat.zero_le _, (y 2).isLt⟩

-- After the loop the pooled scratch reads `pooledOf`, whatever it held before.
theorem pooled_read (f13 : BufTy.Contents (Elt F) arg13.view.ty) :
    arg13.view.read (Elt F) (arg13.view.writes (Elt F) f13 (pb (F := F) c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 (Scf.trips k1_t1_loop.lb k1_t1_loop.ub k1_t1_loop.st)))
      = pooledOf i tb0 tb1 T := by
  rw [pb_eq_rows]
  exact View.read_writes_eq_canon arg13.view f13 _ (rows_cover i tb0 tb1 T)

theorem pooled_load (f13 : BufTy.Contents (Elt F) arg13.view.ty) :
    View.readAt (Elt F) arg13.view (Rect.unit (s := S48x8x512) ![0, 0, 0] S48x8x512.size inb_S48x8x512_S48x8x512_0_0_0).toLoadRect
        (arg13.view.writes (Elt F) f13 (pb (F := F) c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 (Scf.trips k1_t1_loop.lb k1_t1_loop.ub k1_t1_loop.st)))
      = pooledOf i tb0 tb1 T :=
  (congrArg (View.ld · (Rect.unit (s := S48x8x512) ![0, 0, 0] S48x8x512.size inb_S48x8x512_S48x8x512_0_0_0))
    (pooled_read ..)).trans (View.ld_unit_zero (funext fun a => by fin_cases a <;> rfl) _ _)

end Cert.KernelIdeal.R1

end
-- ==== Proof.K1Body.lean ====
import proofs.«401211_j85263690760702_3_alg».proof.Proof.Gen.KernelIdeal.Skeleton
import proofs.«401211_j85263690760702_3_alg».proof.Proof.K1Pooled
import proofs.«401211_j85263690760702_3_alg».proof.Proof.K1Data
import Idealize.ShloMosaic.Lib.Pipeline.Value
import Idealize.ShloMosaic.Lib.Tactic

namespace Cert.KernelIdeal.R1

open Cert.KernelIdeal.Gen Idealize.ShloMosaic Idealize.SL.ProofMode

variable {F : FTy → Type} [FloatOps F] [Named F]

/-- A tile strictly inside its batch chunk: the three running quantities are loaded, updated and stored back. -/
theorem run_B : RunB (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 m0 l0 a0 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%f11, %hf11, H11⟩, ⟨%f12, %hf12, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := readAt_zero_unread (F := F) harg10 (by decide) inb_S8x1_S8x1_0_0 m0
  have hl := readAt_zero_unread (F := F) harg11 (by decide) inb_S8x1_S8x1_0_0 l0
  have ha := readAt_zero_unread (F := F) harg12 (by decide) inb_S8x512_S8x512_0_0 a0
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  iexists _; isplitr; rotate_left; · iexact H13
  ipureintro; exact pooled_read ..

end Cert.KernelIdeal.R1
-- ==== Proof.K1BodyA.lean ====
import proofs.«401211_j85263690760702_3_alg».proof.Proof.K1Body

namespace Cert.KernelIdeal.R1

open Cert.KernelIdeal.Gen Idealize.ShloMosaic Idealize.SL.ProofMode

variable {F : FTy → Type} [FloatOps F] [Named F]

/-- The first tile of a batch chunk: the running quantities are reset before the update, so what they held does not matter. -/
theorem run_A : RunA (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := View.readCov_unit_zero (Val := Elt F) arg10.view (by decide) inb_S8x1_S8x1_0_0 (k1_pay7 (F := F))
  have hl := View.readCov_unit_zero (Val := Elt F) arg11.view (by decide) inb_S8x1_S8x1_0_0 (k1_pay8 (F := F))
  have ha := View.readCov_unit_zero (Val := Elt F) arg12.view (by decide) inb_S8x512_S8x512_0_0 (k1_pay9 (F := F))
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  iexists _; isplitr; rotate_left; · iexact H13
  ipureintro; exact pooled_read ..

end Cert.KernelIdeal.R1
-- ==== Proof.K1BodyC.lean ====
import proofs.«401211_j85263690760702_3_alg».proof.Proof.K1Body

namespace Cert.KernelIdeal.R1

open Cert.KernelIdeal.Gen Idealize.ShloMosaic Idealize.SL.ProofMode

variable {F : FTy → Type} [FloatOps F] [Named F]

/-- The last tile of a batch chunk: after the update the output block is the accumulator over the normaliser. -/
theorem run_C : RunC (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 m0 l0 a0 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%f11, %hf11, H11⟩, ⟨%f12, %hf12, H12⟩, ⟨%d13, %f13, -, H13⟩, ⟨%d9, %f9, -, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := readAt_zero_unread (F := F) harg10 (by decide) inb_S8x1_S8x1_0_0 m0
  have hl := readAt_zero_unread (F := F) harg11 (by decide) inb_S8x1_S8x1_0_0 l0
  have ha := readAt_zero_unread (F := F) harg12 (by decide) inb_S8x512_S8x512_0_0 a0
  have hl' := fun (w : Vec F S8x1 .f32) => View.readCov_unit_zero (Val := Elt F) arg11.view (by decide) inb_S8x1_S8x1_0_0 w
  have ha' := fun (w : Vec F S8x512 .f32) => View.readCov_unit_zero (Val := Elt F) arg12.view (by decide) inb_S8x512_S8x512_0_0 w
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  isplitl [H13]
  · iexists _; isplitr; rotate_left; · iexact H13
    ipureintro; exact pooled_read ..
  iexists _; isplitr; rotate_left; · iexact H9
  ipureintro; exact (read_writes_zero_cons arg9 _ (by decide) _ _ _).trans rfl

end Cert.KernelIdeal.R1
-- ==== Proof.K1Oblig.lean ====
import proofs.«401211_j85263690760702_3_alg».proof.Proof.K1Body
import proofs.«401211_j85263690760702_3_alg».proof.Proof.K1BodyA
import proofs.«401211_j85263690760702_3_alg».proof.Proof.K1BodyC
import proofs.«401211_j85263690760702_3_alg».proof.Proof.K1Data

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable (V : (c : Dev nD) → (b : Ref sig .tc) → Buf (Elt F) ((c : Thread nD τ).loc b))

-- The three runs of the body discharge the obligation of the proof data at the tables' contents, at every point of the grid.
theorem body_obligation1 (c : Dev nD) : BodyObligation (dat1 (F := F) V c) (defs₀ (F := F)) Variants.none () Set.univ :=
  body_obligation1P (adm1 (F := F)) V c run_A run_B run_C (fun x => tb0_chk (F := F) x) (fun x => tb1_chk (F := F) x)

end Cert.KernelIdeal.R1

end
-- ==== Proof.KRun.lean ====
import proofs.«401211_j85263690760702_3_alg».proof.Proof.KLaunch
import proofs.«401211_j85263690760702_3_alg».proof.Proof.K1Oblig

noncomputable section

namespace Cert.KernelIdeal.Launch

open Idealize.ShloMosaic Idealize.ShloMosaic.TcCoe
open Cert.KernelIdeal Cert.KernelIdeal.Gen Cert.KernelIdeal.R1

variable {F : FTy → Type} [FloatOps F] [Named F]

-- Every weakly fair execution of @main terminates, in a memory as `Post` says.
theorem run (m : (ℓ : Loc nD τ sig) → Buf (Elt F) ℓ) (ρ : Dev nD → PrngReg) :
    θ_run defs (onTc (τ := τ) (main (F := F))) ⟨m, fun _ => 0, ρ⟩ (Post m) :=
  run_of m ρ fun c => body_obligation1 (V2 m) c

end Cert.KernelIdeal.Launch

end
-- ==== Proof.Bits.K0Body.lean ====
import proofs.«401211_j85263690760702_3_alg».proof.Proof.Gen.Kernel.Skeleton
import Idealize.ShloMosaic.Lib.Pipeline.Value
import Idealize.ShloMosaic.Lib.QrPanel.Panel
import Idealize.ShloMosaic.Lib.Ring
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem

variable {F : FTy → Type} [FloatOps F]

local notation "𝕄" => MT nD τ sig Unit (Elt F) ℕ (UR sig nD τ) ℕ

-- Rows o, …, o + n - 1 of a buffer of m rows.
abbrev rows (m o n : ℕ) (inb : ∀ a : Fin 3, ![o, 0, 0] a + ![n, 32, 128] a ≤ ![m, 32, 128] a := by decide) :
    Rect ⟨3, ![m, 32, 128]⟩ := Rect.unit ![o, 0, 0] ![n, 32, 128] inb

abbrev rAll : Rect S64x32x128 := rows 64 0 64
abbrev rFrom1 : Rect S64x32x128 := rows 64 1 63
abbrev rFrom2 : Rect S64x32x128 := rows 64 2 62
abbrev rFrom3 : Rect S64x32x128 := rows 64 4 60
abbrev rFrom4 : Rect S64x32x128 := rows 64 8 56
abbrev rFrom5 : Rect S64x32x128 := rows 64 16 48
abbrev rFrom6 : Rect S64x32x128 := rows 64 32 32
abbrev rOut0 : Rect S512x32x128 := rows 512 0 64
abbrev rOut1 : Rect S512x32x128 := rows 512 64 64
abbrev rOut2 : Rect S512x32x128 := rows 512 128 64
abbrev rOut3 : Rect S512x32x128 := rows 512 192 64
abbrev rOut4 : Rect S512x32x128 := rows 512 256 64
abbrev rOut5 : Rect S512x32x128 := rows 512 320 64
abbrev rOut6 : Rect S512x32x128 := rows 512 384 64
abbrev rOut7 : Rect S512x32x128 := rows 512 448 64

section Levels

variable (x0 : Vec F S32x64x128 .f32)

-- Level k joins level k - 1 with its copy moved 2 ^ (k - 1) rows up, the rows past the end filled with a constant.
def prev0 : Vec F S64x32x128 .f32 := k0_pay1 x0
def shift1 : Vec F S64x32x128 .f32 :=
  View.canon [⟨rows 64 63 1, k0_pay3⟩, ⟨rows 64 0 63, k0_pay2 (View.ld (prev0 x0) rFrom1)⟩]
def prev1 : Vec F S64x32x128 .f32 := k0_pay4 (prev0 x0) (shift1 x0)
def shift2 : Vec F S64x32x128 .f32 :=
  View.canon [⟨rows 64 62 2, k0_pay6⟩, ⟨rows 64 0 62, k0_pay5 (View.ld (prev1 x0) rFrom2)⟩]
def prev2 : Vec F S64x32x128 .f32 := k0_pay7 (prev1 x0) (shift2 x0)
def shift3 : Vec F S64x32x128 .f32 :=
  View.canon [⟨rows 64 60 4, k0_pay9⟩, ⟨rows 64 0 60, k0_pay8 (View.ld (prev2 x0) rFrom3)⟩]
def prev3 : Vec F S64x32x128 .f32 := k0_pay10 (prev2 x0) (shift3 x0)
def shift4 : Vec F S64x32x128 .f32 :=
  View.canon [⟨rows 64 56 8, k0_pay12⟩, ⟨rows 64 0 56, k0_pay11 (View.ld (prev3 x0) rFrom4)⟩]
def prev4 : Vec F S64x32x128 .f32 := k0_pay13 (prev3 x0) (shift4 x0)
def shift5 : Vec F S64x32x128 .f32 :=
  View.canon [⟨rows 64 48 16, k0_pay15⟩, ⟨rows 64 0 48, k0_pay14 (View.ld (prev4 x0) rFrom5)⟩]
def prev5 : Vec F S64x32x128 .f32 := k0_pay16 (prev4 x0) (shift5 x0)
def shift6 : Vec F S64x32x128 .f32 :=
  View.canon [⟨rows 64 32 32, k0_pay18⟩, ⟨rows 64 0 32, k0_pay17 (View.ld (prev5 x0) rFrom6)⟩]
def prev6 : Vec F S64x32x128 .f32 := k0_pay19 (prev5 x0) (shift6 x0)

def out0_1 : Vec F S512x32x128 .f32 :=
  View.canon [⟨rOut7, k0_pay20⟩, ⟨rOut6, prev6 x0⟩, ⟨rOut5, prev5 x0⟩, ⟨rOut4, prev4 x0⟩,
    ⟨rOut3, prev3 x0⟩, ⟨rOut2, prev2 x0⟩, ⟨rOut1, prev1 x0⟩, ⟨rOut0, prev0 x0⟩]

end Levels

theorem cover0_1 (p7 p6 p5 p4 p3 p2 p1 p0 : Vec F S64x32x128 .f32) (y : S512x32x128.Idx) :
    ∃ pc ∈ ([⟨rOut7, p7⟩, ⟨rOut6, p6⟩, ⟨rOut5, p5⟩, ⟨rOut4, p4⟩, ⟨rOut3, p3⟩, ⟨rOut2, p2⟩, ⟨rOut1, p1⟩, ⟨rOut0, p0⟩] :
      List (View.Piece (Elt F) S512x32x128 .f32)), y ∈ pc.1.set :=
  View.cover_of_tiled (s := S512x32x128) _ S64x32x128.size (by rfl) y

section Pieces

variable {sig' : RefSig} {κ' : Kind} {sp' : Space} {s : Shape} {e : EltTy} {Val : EltTy → Type} [∀ e, Nonempty (Val e)]

theorem readCov_all (v : View sig' κ' sp' S64x32x128 e) (L : List (View.Piece Val S64x32x128 e)) :
    v.readCov L rAll.toLoadRect = View.canon L :=
  (View.readCov_eq_canon' v L _).trans (View.ld_unit_zero QrPanel.Panel.zeros3 _ _)

-- Two last stores whose rectangles together hold every index leave what they alone leave.
theorem canon_two_of_cover (r₁ r₂ : Rect s) (w₁ : r₁.shape.Idx → Val e) (w₂ : r₂.shape.Idx → Val e)
    (L : List (View.Piece Val s e)) (h : ∀ y : s.Idx, y ∈ r₁.set ∨ y ∈ r₂.set) :
    View.canon ((⟨r₁, w₁⟩ : View.Piece Val s e) :: ⟨r₂, w₂⟩ :: L) = View.canon [(⟨r₁, w₁⟩ : View.Piece Val s e), ⟨r₂, w₂⟩] := by
  funext y
  by_cases h1 : y ∈ r₁.set
  · obtain ⟨x, rfl⟩ := r₁.exists_idx_of_mem h1
    exact (View.canon_cons_emb r₁ w₁ _ x).trans (View.canon_cons_emb r₁ w₁ _ x).symm
  · rw [View.canon_cons_of_not_mem ⟨r₁, w₁⟩ _ h1, View.canon_cons_of_not_mem ⟨r₁, w₁⟩ _ h1]
    obtain ⟨x, rfl⟩ := r₂.exists_idx_of_mem ((h y).resolve_left h1)
    exact (View.canon_cons_emb r₂ w₂ _ x).trans (View.canon_cons_emb r₂ w₂ _ x).symm

-- The last h rows and the first n rows of the 64-row buffer hold every index, when n + h = 64.
theorem cover_rows (n h : ℕ) (hn : n + h = 64) (inbT) (inbH) (y : S64x32x128.Idx) :
    y ∈ (rows 64 n h inbT).set ∨ y ∈ (rows 64 0 n inbH).set := by
  have h0 : (y 0).val < 64 := (y 0).isLt
  have h1 : (y 1).val < 32 := (y 1).isLt
  have h2 : (y 2).val < 128 := (y 2).isLt
  rw [Rect.mem_set_unit, Rect.mem_set_unit]
  by_cases hy : (y 0).val < n
  · right; intro a; fin_cases a
    · show 0 ≤ (y 0).val ∧ (y 0).val < 0 + n; omega
    · show 0 ≤ (y 1).val ∧ (y 1).val < 0 + 32; omega
    · show 0 ≤ (y 2).val ∧ (y 2).val < 0 + 128; omega
  · left; intro a; fin_cases a
    · show n ≤ (y 0).val ∧ (y 0).val < n + h; omega
    · show 0 ≤ (y 1).val ∧ (y 1).val < 0 + 32; omega
    · show 0 ≤ (y 2).val ∧ (y 2).val < 0 + 128; omega

-- One round: the second buffer takes mv of rows h.. of p and cst below them; the first, holding p, takes mx of p and that.
theorem round (n h : ℕ) (hn : n + h = 64) {inbT inbH inbF} {v₀ v₁ : View sig' κ' sp' S64x32x128 e}
    {L₀ L₁ : List (View.Piece Val S64x32x128 e)} {p : S64x32x128.Idx → Val e}
    (mx : (S64x32x128.Idx → Val e) → (S64x32x128.Idx → Val e) → S64x32x128.Idx → Val e)
    (mv : ((rows 64 h n inbF).shape.Idx → Val e) → (rows 64 0 n inbH).shape.Idx → Val e)
    (cst : (rows 64 n h inbT).shape.Idx → Val e) (he : v₀.readCov L₀ rAll.toLoadRect = p) :
    v₀.readCov (⟨rAll, mx (v₀.readCov L₀ rAll.toLoadRect) (v₁.readCov (⟨rows 64 n h inbT, cst⟩ ::
        ⟨rows 64 0 n inbH, mv (v₀.readCov L₀ (rows 64 h n inbF).toLoadRect)⟩ :: L₁) rAll.toLoadRect)⟩ :: L₀) rAll.toLoadRect
      = mx p (View.canon [⟨rows 64 n h inbT, cst⟩, ⟨rows 64 0 n inbH, mv (View.ld p (rows 64 h n inbF))⟩]) := by
  have hc : View.canon L₀ = p := (readCov_all v₀ L₀).symm.trans he
  rw [View.readCov_cons_toLoadRect, he, readCov_all, canon_two_of_cover _ _ _ _ _ (cover_rows n h hn _ _), View.readCov_eq_canon', hc]

end Pieces

-- The body on whole buffers: the input block is left as it was, the output block takes out0_1 of it.
theorem sound_kernel0 (c : Dev nD) (E : Set ℕ) (i : grid0.Coords) (arg1 : Memref sig .tc .vmem S32x64x128 .f32) (harg1 : arg1.IsWhole) (arg2 : Memref sig .tc .vmem S512x32x128 .f32) (harg2 : arg2.IsWhole) (arg3 : Memref sig .tc .vmem S64x32x128 .f32) (harg3 : arg3.IsWhole) (arg4 : Memref sig .tc .vmem S64x32x128 .f32) (harg4 : arg4.IsWhole)
    (x0 : Vec F S32x64x128 .f32) (K : PUnit → sProp 𝕄) :
    iprop(owns c arg1 fullShare x0 ∗ (∃ d, owns c arg2 fullShare d)
        ∗ (∃ d, owns c arg3 fullShare d) ∗ (∃ d, owns c arg4 fullShare d)
        ∗ (iprop(owns c arg1 fullShare x0 ∗ owns c arg2 fullShare (out0_1 x0)
            ∗ (∃ d, owns c arg3 fullShare d) ∗ (∃ d, owns c arg4 fullShare d)) -∗ K ⟨⟩))
      ⊢ wp frame (wpE (defs₀ (F := F)) Variants.none c none) E (cc0__build_table_kernel i arg1 harg1 arg2 harg2 arg3 harg3 arg4 harg4) K := by
  sl_unfold [cc0__build_table_kernel, k0_part5, k0_part1, k0_part2, k0_part3, k0_part4]
  unfold owns
  iintro ⟨⟨%f1, %hf1, H1⟩, ⟨%d2, %f2, -, H2⟩, ⟨%d3, %f3, -, H3⟩, ⟨%d4, %f4, -, H4⟩, Hk⟩
  sl_exec
  sl_step
  iapply Hk
  isplitl [H1]
  · iexists f1; isplitr; · ipureintro; exact hf1
    iexact H1
  isplitl [H2]
  swap
  · isplitl [H3]
    · iexists _, _; isplitr
      swap; · iexact H3
      ipureintro; rfl
    · iexists _, _; isplitr
      swap; · iexact H4
      ipureintro; rfl
  iexists _; isplitr
  swap; · iexact H2
  ipureintro
  rw [View.read_writes_eq_canon _ _ _ (cover0_1 _ _ _ _ _ _ _ _)]
  have e0 : sound_kernel0.sl.v5 c arg1 arg3 f1 = prev0 x0 :=
    (View.readCov_cons_toLoadRect _ _ _ _).trans (congrArg k0_pay1 ((View.ld_unit_zero QrPanel.Panel.zeros3 _ _).trans hf1))
  have e1 : sound_kernel0.sl.v21 c arg1 arg3 arg4 f1 = prev1 x0 := round 63 1 rfl k0_pay4 k0_pay2 k0_pay3 e0
  have e2 : sound_kernel0.sl.v37 c arg1 arg3 arg4 f1 = prev2 x0 := round 62 2 rfl k0_pay7 k0_pay5 k0_pay6 e1
  have e3 : sound_kernel0.sl.v53 c arg1 arg3 arg4 f1 = prev3 x0 := round 60 4 rfl k0_pay10 k0_pay8 k0_pay9 e2
  have e4 : sound_kernel0.sl.v69 c arg1 arg3 arg4 f1 = prev4 x0 := round 56 8 rfl k0_pay13 k0_pay11 k0_pay12 e3
  have e5 : sound_kernel0.sl.v85 c arg1 arg3 arg4 f1 = prev5 x0 := round 48 16 rfl k0_pay16 k0_pay14 k0_pay15 e4
  have e6 : sound_kernel0.sl.v101 c arg1 arg3 arg4 f1 = prev6 x0 := round 32 32 rfl k0_pay19 k0_pay17 k0_pay18 e5
  rw [e0, e1, e2, e3, e4, e5, e6]; rfl

end Cert.Kernel.R0
-- ==== Proof.Bits.K0Data.lean ====
import proofs.«401211_j85263690760702_3_alg».proof.Proof.Bits.K0Body
import proofs.«401211_j85263690760702_3_alg».proof.Proof.Gen.Kernel.Launch
import proofs.«401211_j85263690760702_3_alg».proof.Proof.Gen.Kernel.Points

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- Window w's block at point t, read off its array.
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

-- The proof data: the body leaves the input block as it was and out0_1 of it in the output block.
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := rfl

theorem after0_0 (c : Dev nD) (t : Fin cfg0.N) : (dat0 V c).after 0 t = iblk0 V c 0 t := by dsimp only [dat0]

theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  (dat0 V c).before_fetched 0 t (fetch0_0 t) d

theorem PhiA0_split (c : Dev nD) : ∃ R : sProp 𝕄,
    (Pipeline.ΦA spec0 c : sProp 𝕄)
      = iprop(iprop((∃ d, owns c (Memref.whole cc0_scratch0) fullShare d)
          ∗ (∃ d, owns c (Memref.whole cc0_scratch1) fullShare d) ∗ R) ∗ (∃ r, prngReg c r)) :=
  ⟨_, by unfold Pipeline.ΦA; rw [scopedRest0_eq]; simp only [owns_whole]; rfl⟩

-- The body's triple at every grid point.
theorem body_obligation0 (c : Dev nD) : BodyObligation (dat0 V c) defs₀ Variants.none () Set.univ := fun t => by
  obtain ⟨R, hR⟩ := PhiA0_split (F := F) c
  rw [bigSep_W0, bigSep_W0]
  simp only [before0_0, after0_0, after0_1, show ∀ i, (dat0 V c).Φ i = _ from fun _ => hR]
  iintro ⟨⟨⟨HS0, HS1, HR⟩, Hg⟩, Ho, ⟨%d0, H0⟩, ⟨%d1, H1⟩⟩
  iapply (sound_kernel0 c Set.univ _ _ _ _ _ _ _ _ _ (iblk0 V c 0 t) _)
  iframe H0 HS0 HS1
  isplitl [H1]; · iexists _; iexact H1
  iintro ⟨H0, H1, HS0, HS1⟩
  iframe; iexact Ho

end Cert.Kernel.R0
-- ==== Proof.Bits.K1Tables.lean ====
import proofs.«401211_j85263690760702_3_alg».proof.Proof.Gen.Kernel
import proofs.«401211_j85263690760702_3_alg».proof.Proof.Gen.Kernel.Launch

noncomputable section

namespace Cert.Kernel.R1

open Cert.Kernel Cert.Kernel.Gen
open Idealize.ShloMosaic

variable {F : FTy → Type} [FloatOps F]

theorem lit0_lt : ∀ j : Fin 2016, (lit0 j).toNat < 512 := by decide +kernel

theorem lit1_lt : ∀ j : Fin 2016, (lit1 j).toNat < 512 := by decide +kernel

-- A word below 512 names a row of the 512-row block, so the row gathered at it lies inside the block; both gathers ask the same of their word.
theorem chk_of_lt (v : BitVec 32) (h : v.toNat < 512) : k1_chk1 v := by
  intro a
  fin_cases a
  exacts [h, le_rfl, le_rfl]

def tb0 : Vec F S2016 .i32 := fun x => lit0 (S2016.rowMajor x)

def tb1 : Vec F S2016 .i32 := fun x => lit1 (S2016.rowMajor x)

theorem tb0_chk (x : S2016.Idx) : k1_chk1 (tb0 (F := F) x) := chk_of_lt _ (lit0_lt _)

theorem tb1_chk (x : S2016.Idx) : k1_chk2 (tb1 (F := F) x) := chk_of_lt _ (lit1_lt _)

def tbl : pre1.Contents (Elt F) := fun
  | ⟨0, _⟩ => tb0 (F := F)
  | ⟨1, _⟩ => tb1 (F := F)
  | ⟨_ + 2, h⟩ => absurd h (Nat.not_lt.2 (Nat.le_add_left _ _))

def adm1 : (pcfg1 (F := F)).Adm := ⟨tbl, trivial⟩

end Cert.Kernel.R1

end
-- ==== Proof.Bits.K1Step.lean ====
import proofs.«401211_j85263690760702_3_alg».proof.Proof.Gen.Kernel
import proofs.«401211_j85263690760702_3_alg».proof.Proof.Gen.Kernel.Skeleton
import Idealize.ShloMosaic.Lib.Pipeline.FrameBody

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
  (i : grid1.Coords) (tb0 tb1 : Vec F S2016 .i32) (T : Vec F S512x8x512 .f32)

def slot (k : Fin k1_t1_loop.trips) : S2016.Idx :=
  (Rect.unit (s := S2016) (k1_off1 i k) S1.size (k1_off1_inb i k)).idx (Shape.Idx.first (numel1_S1.symm ▸ Nat.one_pos))

def rowA (v : BitVec 32) : Vec F S1x8x512 .f32 :=
  if h : k1_chk1 v then View.ld T (Rect.unit (s := S512x8x512) (k1_off2 v) S1x8x512.size (k1_off2_inb v h))
  else fun _ => Scalar.ofBits .f32 0x00000000#32

def rowB (v : BitVec 32) : Vec F S1x8x512 .f32 :=
  if h : k1_chk2 v then View.ld T (Rect.unit (s := S512x8x512) (k1_off3 v) S1x8x512.size (k1_off3_inb v h))
  else fun _ => Scalar.ofBits .f32 0x00000000#32

theorem rowA_of (v : BitVec 32) (h : k1_chk1 v) :
    rowA T v = View.ld T (Rect.unit (s := S512x8x512) (k1_off2 v) S1x8x512.size (k1_off2_inb v h)) := dif_pos h

theorem rowB_of (v : BitVec 32) (h : k1_chk2 v) :
    rowB T v = View.ld T (Rect.unit (s := S512x8x512) (k1_off3 v) S1x8x512.size (k1_off3_inb v h)) := dif_pos h

def rowPiece (k : Fin k1_t1_loop.trips) : View.Piece (Elt F) S48x8x512 .f32 :=
  ⟨Rect.unit (s := S48x8x512) (k1_off4 k) S1x8x512.size (k1_off4_inb k), k1_pay10 (rowA T (tb0 (slot i k))) (rowB T (tb1 (slot i k)))⟩

def rows : ℕ → List (View.Piece (Elt F) S48x8x512 .f32)
  | 0 => []
  | k + 1 => if h : k < k1_t1_loop.trips then rowPiece i tb0 tb1 T ⟨k, h⟩ :: rows k else rows k

def pooledOf : Vec F S48x8x512 .f32 :=
  View.canon (rows i tb0 tb1 T k1_t1_loop.trips)

variable (P : Vec F S48x8x512 .f32) (W1 : Vec F S512x128 .f32) (b1 : Vec F S128 .f32) (W2 : Vec F S128x1 .f32) (b2 : Vec F S1x1 .f32)

def newM (m0 : Vec F S8x1 .f32) : Vec F S8x1 .f32 := k1_pay5 (k1_pay13 P W1 b1 W2 b2 m0)

def newL (m0 l0 : Vec F S8x1 .f32) : Vec F S8x1 .f32 := k1_pay3 (k1_pay12 P W1 b1 W2 b2) (k1_pay13 P W1 b1 W2 b2 m0) m0 l0

def newAcc (m0 : Vec F S8x1 .f32) (a0 : Vec F S8x512 .f32) : Vec F S8x512 .f32 :=
  k1_pay4 (k1_pay11 P) (k1_pay12 P W1 b1 W2 b2) (k1_pay13 P W1 b1 W2 b2 m0) m0 a0

def outBlk (acc : Vec F S8x512 .f32) (l : Vec F S8x1 .f32) : Vec F S8x512 .f32 := k1_pay6 acc l

end Cert.Kernel.R1

end
-- ==== Proof.Bits.K1Data.lean ====
import proofs.«401211_j85263690760702_3_alg».proof.Proof.Gen.Kernel.Launch
import proofs.«401211_j85263690760702_3_alg».proof.Proof.Gen.Kernel.Skeleton
import proofs.«401211_j85263690760702_3_alg».proof.Proof.Gen.Kernel.Points
import proofs.«401211_j85263690760702_3_alg».proof.Proof.Bits.K1Step
import proofs.«401211_j85263690760702_3_alg».proof.Proof.Bits.K1Tables
import Idealize.ShloMosaic.Lib.Pipeline.FrameBody
import Idealize.ShloMosaic.Lib.Ring
import Idealize.ShloMosaic.Lib.Tactic

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev isFirst (i : grid1.Coords) : Prop := (Scalar.cmpi .ne (Scalar.extui (Scalar.cmpi .eq (BitVec.ofNat 32 (i 1).val) 0#32)) 0#32) = 1#1
abbrev isLast (i : grid1.Coords) : Prop := k1_cond2 i = 1#1
theorem isFirst_iff : ∀ t : Fin grid1.N, isFirst (grid1.coords t) ↔ t.val % 42 = 0 := by decide +kernel
theorem isLast_iff : ∀ t : Fin grid1.N, isLast (grid1.coords t) ↔ t.val % 42 = 41 := by decide +kernel

section Owned

variable (c : Dev nD) (i : grid1.Coords)
  (arg2 arg3 : Memref sig .tc .smem S2016 .i32) (arg4 : Memref sig .tc .vmem S512x8x512 .f32) (arg5 : Memref sig .tc .vmem S512x128 .f32)
  (arg6 : Memref sig .tc .vmem S128 .f32) (arg7 : Memref sig .tc .vmem S128x1 .f32) (arg8 : Memref sig .tc .vmem S1x1 .f32)
  (arg10 arg11 : Memref sig .tc .vmem S8x1 .f32) (arg12 : Memref sig .tc .vmem S8x512 .f32)
  (q : PosShare TreeShare) (tb0 tb1 : Vec F S2016 .i32)
  (T : Vec F S512x8x512 .f32) (W1 : Vec F S512x128 .f32) (b1 : Vec F S128 .f32) (W2 : Vec F S128x1 .f32) (b2 : Vec F S1x1 .f32)

-- A memref of the core owned whole at some contents.
abbrev someAt {sp : Space} {sh : Shape} {e : EltTy} (m : Memref sig .tc sp sh e) : sProp 𝕄 :=
  iprop(∃ d, owns (c : Thread nD τ) m fullShare d)

-- The two tables and the five inputs owned at their contents, beside `R`.
abbrev insAnd (R : sProp 𝕄) : sProp 𝕄 :=
  iprop(owns (c : Thread nD τ) arg2 q tb0 ∗ owns (c : Thread nD τ) arg3 q tb1 ∗ owns (c : Thread nD τ) arg4 fullShare T ∗ owns (c : Thread nD τ) arg5 fullShare W1
    ∗ owns (c : Thread nD τ) arg6 fullShare b1 ∗ owns (c : Thread nD τ) arg7 fullShare W2 ∗ owns (c : Thread nD τ) arg8 fullShare b2 ∗ R)

-- The three carried scratch operands owned at `m`, `l`, `acc`, beside `R`.
abbrev carriedAnd (m l : Vec F S8x1 .f32) (acc : Vec F S8x512 .f32) (R : sProp 𝕄) : sProp 𝕄 :=
  iprop(owns (c : Thread nD τ) arg10 fullShare m ∗ owns (c : Thread nD τ) arg11 fullShare l ∗ owns (c : Thread nD τ) arg12 fullShare acc ∗ R)

-- The carried scratch at one tile's update of `m0`, `l0`, `a0`, beside `R`.
abbrev steppedAnd (m0 l0 : Vec F S8x1 .f32) (a0 : Vec F S8x512 .f32) (R : sProp 𝕄) : sProp 𝕄 :=
  carriedAnd c arg10 arg11 arg12 (newM (pooledOf i tb0 tb1 T) W1 b1 W2 b2 m0) (newL (pooledOf i tb0 tb1 T) W1 b1 W2 b2 m0 l0)
    (newAcc (pooledOf i tb0 tb1 T) W1 b1 W2 b2 m0 a0) R

end Owned

-- The body at a first tile, on whole memrefs: the scratch at anything; it leaves the carried scratch at the update of the reset values.
def RunA : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : isFirst i) (hc1 : ¬isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32)
    (K : PUnit → sProp 𝕄),
      insAnd c arg2 arg3 arg4 arg5 arg6 arg7 arg8 q tb0 tb1 T W1 b1 W2 b2 iprop(someAt c arg10 ∗ someAt c arg11 ∗ someAt c arg12 ∗ someAt c arg13
          ∗ (insAnd c arg2 arg3 arg4 arg5 arg6 arg7 arg8 q tb0 tb1 T W1 b1 W2 b2 (steppedAnd c i arg10 arg11 arg12 tb0 tb1 T W1 b1 W2 b2 k1_pay7 k1_pay8 k1_pay9 (owns (c : Thread nD τ) arg13 fullShare (pooledOf i tb0 tb1 T))) -∗ K ⟨⟩))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

-- At a tile neither first nor last: the carried scratch at `m0`, `l0`, `a0` is left at their update.
def RunB : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : ¬isFirst i) (hc1 : ¬isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32) (m0 l0 : Vec F S8x1 .f32) (a0 : Vec F S8x512 .f32)
    (K : PUnit → sProp 𝕄),
      insAnd c arg2 arg3 arg4 arg5 arg6 arg7 arg8 q tb0 tb1 T W1 b1 W2 b2 (carriedAnd c arg10 arg11 arg12 m0 l0 a0 iprop(someAt c arg13
          ∗ (insAnd c arg2 arg3 arg4 arg5 arg6 arg7 arg8 q tb0 tb1 T W1 b1 W2 b2 (steppedAnd c i arg10 arg11 arg12 tb0 tb1 T W1 b1 W2 b2 m0 l0 a0 (owns (c : Thread nD τ) arg13 fullShare (pooledOf i tb0 tb1 T))) -∗ K ⟨⟩)))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

-- At a last tile: as before, and the output buffer is left at the quotient of the updated sum by the updated denominator.
def RunC : Prop :=
  ∀ (c : Dev nD) (i : grid1.Coords) arg2 harg2 arg3 harg3 arg4 harg4 arg5 harg5 arg6 harg6 arg7 harg7 arg8 harg8 arg9 harg9 arg10 harg10 arg11 harg11 arg12 harg12 arg13 harg13
    (hc0 : ¬isFirst i) (hc1 : isLast i) (q : PosShare TreeShare) (tb0 tb1 : Vec F S2016 .i32) (hchk1 : ∀ x, k1_chk1 (tb0 x)) (hchk2 : ∀ x, k1_chk2 (tb1 x))
    (T : Vec F S512x8x512 .f32) (W1 : Vec F S512x128 .f32) (b1 : Vec F S128 .f32) (W2 : Vec F S128x1 .f32) (b2 : Vec F S1x1 .f32) (m0 l0 : Vec F S8x1 .f32) (a0 : Vec F S8x512 .f32)
    (K : PUnit → sProp 𝕄),
      insAnd c arg2 arg3 arg4 arg5 arg6 arg7 arg8 q tb0 tb1 T W1 b1 W2 b2 (carriedAnd c arg10 arg11 arg12 m0 l0 a0 iprop(someAt c arg13 ∗ someAt c arg9
          ∗ (insAnd c arg2 arg3 arg4 arg5 arg6 arg7 arg8 q tb0 tb1 T W1 b1 W2 b2 (steppedAnd c i arg10 arg11 arg12 tb0 tb1 T W1 b1 W2 b2 m0 l0 a0 iprop(owns (c : Thread nD τ) arg13 fullShare (pooledOf i tb0 tb1 T)
              ∗ owns (c : Thread nD τ) arg9 fullShare (outBlk (newAcc (pooledOf i tb0 tb1 T) W1 b1 W2 b2 m0 a0) (newL (pooledOf i tb0 tb1 T) W1 b1 W2 b2 m0 l0)))) -∗ K ⟨⟩)))
        ⊢ wp frame (wpE (defs₀ (F := F)) Variants.none (c : Thread nD τ) none) Set.univ (cc1__attn_kernel i arg2 harg2 arg3 harg3 arg4 harg4 arg5 harg5 arg6 harg6 arg7 harg7 arg8 harg8 arg9 harg9 arg10 harg10 arg11 harg11 arg12 harg12 arg13 harg13) K

section Data

variable (a : (pcfg1 (F := F)).Adm)
variable (V : (c : Dev nD) → (b : Ref sig .tc) → Buf (Elt F) ((c : Thread nD τ).loc b)) (c : Dev nD)

-- Window `w`'s block at point `t`, read off its array as the region finds it.
def iblk1P (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

theorem idle1_5_iff : ∀ t : Fin grid1.N, idle1 5 (grid1.coords t) = true ↔ t.val % 42 ≠ 41 := by decide +kernel

-- `t` is the last point, or the output window's block index changes at the next.
def flush5 (t : Fin grid1.N) : Bool :=
  (t.val + 1 = grid1.N || decide (∃ h : t.val + 1 < grid1.N, cc1_transform_5 (grid1.coords ⟨t.val + 1, h⟩) ≠ cc1_transform_5 (grid1.coords t)))

theorem flush5_iff : ∀ t : Fin grid1.N, flush5 t = true ↔ t.val % 42 = 41 := by decide +kernel

theorem flush1_5_eq (t : Fin (cfg1 a).N) : ((cfg1 a).win 5).flush t = flush5 t := rfl
theorem idleAt1_5 (t : Fin (cfg1 a).N) (h : t.val % 42 ≠ 41) : (cfg1 a).idle 5 ((cfg1 a).grid.coords t) = true := (idle1_5_iff t).mpr h
theorem liveAt1_5 (t : Fin (cfg1 a).N) (h : t.val % 42 = 41) : (cfg1 a).idle 5 ((cfg1 a).grid.coords t) = false :=
  Bool.eq_false_iff.mpr ((idle1_5_iff t).not.mpr (not_not_intro h))
theorem noFlush1_5 (t : Fin (cfg1 a).N) (h : t.val % 42 ≠ 41) : ((cfg1 a).win 5).flush t = false := by
  rw [flush1_5_eq]; exact Bool.eq_false_iff.mpr fun hf => h ((flush5_iff t).mp hf)

-- What the kernel carries between the window tiles of one batch chunk: running maximum, denominator and weighted sum.
structure Carried (F : FTy → Type) where
  m : Vec F S8x1 .f32
  l : Vec F S8x1 .f32
  acc : Vec F S8x512 .f32

def init1 : Carried F := ⟨k1_pay7, k1_pay8, k1_pay9⟩

-- One tile's update of the carried scratch from the tile's pooled rows and the weights.
def step1 (P : Vec F S48x8x512 .f32) (W1 : Vec F S512x128 .f32) (b1 : Vec F S128 .f32) (W2 : Vec F S128x1 .f32) (b2 : Vec F S1x1 .f32)
    (s : Carried F) : Carried F :=
  ⟨newM P W1 b1 W2 b2 s.m, newL P W1 b1 W2 b2 s.m s.l, newAcc P W1 b1 W2 b2 s.m s.acc⟩

def pooledAtP (t : Fin (cfg1 a).N) : Vec F S48x8x512 .f32 :=
  pooledOf (grid1.coords t) (a.1 0) (a.1 1) (iblk1P a V c 0 t)

def stepAtP (t : Fin (cfg1 a).N) (s : Carried F) : Carried F :=
  step1 (pooledAtP a V c t) (iblk1P a V c 1 t) (iblk1P a V c 2 t) (iblk1P a V c 3 t) (iblk1P a V c 4 t) s

-- The carried scratch after the body at position `n`: the point's update, of the reset values at the first tile of a batch chunk and of what the point before left elsewhere.
def outsAt1P : (n : ℕ) → n < (cfg1 a).N → Carried F
  | 0, hn => stepAtP a V c ⟨0, hn⟩ init1
  | n + 1, hn => stepAtP a V c ⟨n + 1, hn⟩ (if (n + 1) % 42 = 0 then init1 else outsAt1P n (Nat.lt_of_succ_lt hn))

theorem outsAt1P_A (t : Fin (cfg1 a).N) (h : t.val % 42 = 0) :
    outsAt1P a V c t.val t.isLt = stepAtP a V c t init1 := by
  obtain ⟨n, hn⟩ := t
  cases n with
  | zero => rfl
  | succ n => show stepAtP a V c _ (if _ then _ else _) = _; rw [if_pos h]

theorem outsAt1P_BC (t : Fin (cfg1 a).N) (h : t.val % 42 ≠ 0) :
    outsAt1P a V c t.val t.isLt = stepAtP a V c t (outsAt1P a V c (t.val - 1) (Nat.lt_of_le_of_lt (Nat.sub_le _ _) t.isLt)) := by
  obtain ⟨n, hn⟩ := t
  cases n with
  | zero => exact absurd (Nat.zero_mod _) h
  | succ n => show stepAtP a V c _ (if _ then _ else _) = _; rw [if_neg h]; rfl

abbrev tbM1_0 : Memref sig .tc .smem S2016 .i32 := Memref.whole main_c
abbrev tbM1_1 : Memref sig .tc .smem S2016 .i32 := Memref.whole main_c_0
abbrev scM1_0 : Memref sig .tc .vmem S8x1 .f32 := Memref.whole cc1_scratch0
abbrev scM1_1 : Memref sig .tc .vmem S8x1 .f32 := Memref.whole cc1_scratch1
abbrev scM1_2 : Memref sig .tc .vmem S8x512 .f32 := Memref.whole cc1_scratch2
abbrev scM1_3 : Memref sig .tc .vmem S48x8x512 .f32 := Memref.whole cc1_scratch3

abbrev ms1_0 (t : Fin (cfg1 a).N) : Memref sig .tc .vmem S512x8x512 .f32 := spec1_0.stage ((cfg1 a).slots t 0)
abbrev ms1_1 (t : Fin (cfg1 a).N) : Memref sig .tc .vmem S512x128 .f32 := spec1_1.stage ((cfg1 a).slots t 1)
abbrev ms1_2 (t : Fin (cfg1 a).N) : Memref sig .tc .vmem S128 .f32 := spec1_2.stage ((cfg1 a).slots t 2)
abbrev ms1_3 (t : Fin (cfg1 a).N) : Memref sig .tc .vmem S128x1 .f32 := spec1_3.stage ((cfg1 a).slots t 3)
abbrev ms1_4 (t : Fin (cfg1 a).N) : Memref sig .tc .vmem S1x1 .f32 := spec1_4.stage ((cfg1 a).slots t 4)
abbrev ms1_5 (t : Fin (cfg1 a).N) : Memref sig .tc .vmem S8x512 .f32 := spec1_5.stage ((cfg1 a).slots t 5)

abbrev bodyAt1 (t : Fin (cfg1 a).N) : Prog (TpuEff nD τ sig (Elt F) Λ₀ .tc) PUnit :=
  cc1__attn_kernel (grid1.coords t) tbM1_0 (Memref.isWhole_whole _) tbM1_1 (Memref.isWhole_whole _)
    (ms1_0 a t) (stage_whole1 0 _) (ms1_1 a t) (stage_whole1 1 _) (ms1_2 a t) (stage_whole1 2 _) (ms1_3 a t) (stage_whole1 3 _) (ms1_4 a t) (stage_whole1 4 _) (ms1_5 a t) (stage_whole1 5 _)
    scM1_0 (Memref.isWhole_whole _) scM1_1 (Memref.isWhole_whole _) scM1_2 (Memref.isWhole_whole _) scM1_3 (Memref.isWhole_whole _)

abbrev anyAt (b : Ref sig .tc) : sProp 𝕄 :=
  iprop(∃ f : Buf (Elt F) ((c : Thread nD τ).loc b), ((c : Thread nD τ).loc b) ↦{fullShare} f)

-- The two tables held whole are the body's two table memrefs owned at their contents.
theorem tables_eq :
    (Pipeline.prefHeld pre1 c (fun _ => fullShare) a.1 : sProp 𝕄)
      = iprop(owns (c : Thread nD τ) tbM1_0 fullShare (a.1 0) ∗ owns (c : Thread nD τ) tbM1_1 fullShare (a.1 1)) := by
  unfold Pipeline.prefHeld
  rw [show (Finset.univ : Finset (Fin 2)) = insert (0 : Fin 2) {(1 : Fin 2)} from by decide,
    bigSep_insert (by decide), bigSep_singleton]
  exact congrArg₂ _ (owns_whole (c : Thread nD τ) main_c fullShare (a.1 0)).symm (owns_whole (c : Thread nD τ) main_c_0 fullShare (a.1 1)).symm

-- Everything the invariant carries that the body never touches, beside `R`.
abbrev othersAnd (R : sProp 𝕄) : sProp 𝕄 :=
  iprop(anyAt c cc0_stg0_0 ∗ anyAt c cc0_stg0_1 ∗ anyAt c cc0_stg1_0 ∗ anyAt c cc0_stg1_1 ∗ anyAt c cc0_scratch0 ∗ anyAt c cc0_scratch1 ∗ R)

-- The invariant around its scratch part `R`: the tables, which the body only reads, and what it never touches.
abbrev restAnd (R : sProp 𝕄) : sProp 𝕄 :=
  iprop((∃ r, prngReg c r) ∗ (owns (c : Thread nD τ) tbM1_0 fullShare (a.1 0) ∗ owns (c : Thread nD τ) tbM1_1 fullShare (a.1 1)) ∗ othersAnd c R)

-- The carried scratch operands at `s`, the pooled scratch at anything.
abbrev carriedAt (s : Carried F) : sProp 𝕄 := carriedAnd c scM1_0 scM1_1 scM1_2 s.m s.l s.acc (someAt c scM1_3)

-- Every scratch operand at anything.
abbrev scratchAny : sProp 𝕄 := iprop(someAt c scM1_0 ∗ someAt c scM1_1 ∗ someAt c scM1_2 ∗ someAt c scM1_3)

-- On entry the four scratch operands are held at unspecified contents.
theorem scopedRest1_owns : (Pipeline.scopedRest spec1 c : sProp 𝕄) = othersAnd c (scratchAny c) := by
  rw [scopedRest1_eq]; simp only [scratchAny, someAt, scM1_0, scM1_1, scM1_2, scM1_3, owns_whole]; rfl

-- The region invariant before position `n`: what the region is entered with; after a point, the carried scratch at what that point left.
def PhiS : (n : ℕ) → n ≤ (cfg1 a).N → sProp 𝕄
  | 0, _ => iprop((∃ r, prngReg c r) ∗ Pipeline.prefHeld pre1 c (fun _ => fullShare) a.1 ∗ Pipeline.scopedRest spec1 c)
  | n + 1, hn => restAnd a c (carriedAt c (outsAt1P a V c n hn))

theorem PhiS_pos (n : ℕ) (h : n ≤ (cfg1 a).N) (hz : n ≠ 0) :
    PhiS a V c n h = restAnd a c (carriedAt c (outsAt1P a V c (n - 1) (by omega))) := by
  cases n with
  | zero => exact absurd rfl hz
  | succ n => rfl

-- At every position the invariant gives the entry form back: the carried scratch's contents are forgotten.
theorem PhiS_any (n : ℕ) (h : n ≤ (cfg1 a).N) : PhiS a V c n h ⊢ restAnd a c (scratchAny c) := by
  cases n with
  | zero => rw [PhiS, scopedRest1_owns, tables_eq]
  | succ n =>
    rw [PhiS]; dsimp only [restAnd, othersAnd, scratchAny, carriedAt, carriedAnd]
    iintro ⟨Hg, Ht, R1, R2, R3, R4, R5, R6, HS0, HS1, HS2, HS3⟩
    iframe Hg Ht R1 R2 R3 R4 R5 R6 HS3
    isplitl [HS0]; · iexists _; iexact HS0
    isplitl [HS1]; · iexists _; iexact HS1
    iexists _; iexact HS2

-- The proof data of the call on core `c`: after the body each input's buffer at its block, the output's at the quotient of the carried sum by the carried denominator.
def dat1P : Dat τ (Elt F) Unit ℕ (UR sig nD τ) ℕ (cfg1 a) c where
  A w := V c (Pipeline.arrRef spec1 w)
  after w t := match w with
    | ⟨5, _⟩ => outBlk (outsAt1P a V c t.val t.isLt).acc (outsAt1P a V c t.val t.isLt).l
    | w => iblk1P a V c w t
  Φ t := PhiS a V c t.val (Nat.le_of_lt_succ t.isLt)
  q _ := fullShare
  owed _ := 0

-- The body only reads an input window, so its buffer holds the window's block at every point.
theorem before1P (w : Fin (cfg1 a).W) (hw : ((cfg1 a).win w).isOut = false) (t : Fin (cfg1 a).N) (d) :
    (dat1P a V c).before w t d = iblk1P a V c w t :=
  match w, hw with
  | ⟨0, _⟩, _ | ⟨1, _⟩, _ | ⟨2, _⟩, _ | ⟨3, _⟩, _ | ⟨4, _⟩, _ =>
    ((dat1P a V c).before_in_eq_fetched _ rfl (fun _ => rfl) (fun _ _ _ => rfl) (fun _ => rfl) t d).trans rfl
  | ⟨5, _⟩, hw => Bool.noConfusion hw
  | ⟨_ + 6, h⟩, _ => absurd h (Nat.not_lt.2 (Nat.le_add_left _ _))

theorem Phi_castSucc (t : Fin (cfg1 a).N) : (dat1P a V c).Φ t.castSucc = PhiS a V c t.val (Nat.le_of_lt t.isLt) := by
  dsimp only [dat1P]; simp only [Fin.coe_castSucc]

-- The body at any point: the position within the batch chunk says which run applies; the invariant lends the tables and the carried scratch and takes the scratch back at the point's update; the output buffer is touched only at a last tile.
theorem sound_bodyP (hA : RunA (F := F)) (hB : RunB (F := F)) (hC : RunC (F := F)) (hchk1 : ∀ x, k1_chk1 (a.1 0 x)) (hchk2 : ∀ x, k1_chk2 (a.1 1 x)) (t : Fin (cfg1 a).N) :
    iprop((dat1P a V c).Φ t.castSucc ∗ (dat1P a V c).owesAt () t.castSucc
      ∗ (∃ d, owns (c : Thread nD τ) (ms1_0 a t) fullShare ((dat1P a V c).before 0 t d)) ∗ (∃ d, owns (c : Thread nD τ) (ms1_1 a t) fullShare ((dat1P a V c).before 1 t d)) ∗ (∃ d, owns (c : Thread nD τ) (ms1_2 a t) fullShare ((dat1P a V c).before 2 t d))
      ∗ (∃ d, owns (c : Thread nD τ) (ms1_3 a t) fullShare ((dat1P a V c).before 3 t d)) ∗ (∃ d, owns (c : Thread nD τ) (ms1_4 a t) fullShare ((dat1P a V c).before 4 t d)) ∗ (∃ d, owns (c : Thread nD τ) (ms1_5 a t) fullShare ((dat1P a V c).before 5 t d)))
      ⊢ wp frame (wpE (defs₀ (F := F)) Variants.none c none) Set.univ (bodyAt1 a t) (fun _ => iprop(restAnd a c (carriedAt c (outsAt1P a V c t.val t.isLt)) ∗ (dat1P a V c).owesAt () t.castSucc
        ∗ owns (c : Thread nD τ) (ms1_0 a t) fullShare (iblk1P a V c 0 t) ∗ owns (c : Thread nD τ) (ms1_1 a t) fullShare (iblk1P a V c 1 t) ∗ owns (c : Thread nD τ) (ms1_2 a t) fullShare (iblk1P a V c 2 t)
        ∗ owns (c : Thread nD τ) (ms1_3 a t) fullShare (iblk1P a V c 3 t) ∗ owns (c : Thread nD τ) (ms1_4 a t) fullShare (iblk1P a V c 4 t) ∗ (dat1P a V c).leavesExact 5 t)) := by
  simp only [before1P a V c 0 rfl, before1P a V c 1 rfl, before1P a V c 2 rfl, before1P a V c 3 rfl, before1P a V c 4 rfl]
  rw [Phi_castSucc]
  dsimp only [RunA, RunB, RunC, insAnd, steppedAnd, carriedAnd, someAt] at hA hB hC
  by_cases h0 : t.val % 42 = 0
  · have h41 : t.val % 42 ≠ 41 := by omega
    rw [Dat.leavesExact_idle _ 5 t (idleAt1_5 a t h41) (noFlush1_5 a t h41), outsAt1P_A a V c t h0]
    unfold stepAtP step1 pooledAtP init1; dsimp only [restAnd, othersAnd, carriedAt, carriedAnd, someAt, bodyAt1]
    iintro ⟨HΦ, Ho, ⟨%d0, H0⟩, ⟨%d1, H1⟩, ⟨%d2, H2⟩, ⟨%d3, H3⟩, ⟨%d4, H4⟩, H5⟩
    ihave HΦ' := (PhiS_any a V c _ _) $$ HΦ
    icases HΦ' with ⟨Hg, ⟨Ht0, Ht1⟩, R1, R2, R3, R4, R5, R6, HS0, HS1, HS2, HS3⟩
    iapply (hA c (grid1.coords t) _ _ _ _ _ _ _ _ _ _ _ _ _ _ _ _ _ _ _ _ _ _ _ _ ((isFirst_iff t).mpr h0) (fun h => h41 ((isLast_iff t).mp h)) fullShare (a.1 0) (a.1 1) hchk1 hchk2 (iblk1P a V c 0 t) (iblk1P a V c 1 t) (iblk1P a V c 2 t) (iblk1P a V c 3 t) (iblk1P a V c 4 t) _)
    iframe Ht0 Ht1 H0 H1 H2 H3 H4 HS0 HS1 HS2 HS3
    iintro ⟨Ht0, Ht1, H0, H1, H2, H3, H4, HS0, HS1, HS2, HS3⟩
    iframe Hg Ht0 Ht1 R1 R2 R3 R4 R5 R6 HS0 HS1 HS2 Ho H0 H1 H2 H3 H4
    isplitl [HS3]; · iexists _; iexact HS3
    iexact H5
  · rw [PhiS_pos a V c _ _ fun hz => h0 (by rw [hz])]
    by_cases h41 : t.val % 42 = 41
    · rw [show (dat1P a V c).leavesExact 5 t = owns (c : Thread nD τ) (ms1_5 a t) fullShare (outBlk (outsAt1P a V c t.val t.isLt).acc (outsAt1P a V c t.val t.isLt).l) from by
          unfold Dat.leavesExact; rw [liveAt1_5 a t h41]; rfl,
        outsAt1P_BC a V c t h0]
      unfold stepAtP step1 pooledAtP; dsimp only [restAnd, othersAnd, carriedAt, carriedAnd, someAt, bodyAt1]
      iintro ⟨⟨Hg, ⟨Ht0, Ht1⟩, R1, R2, R3, R4, R5, R6, HS0, HS1, HS2, HS3⟩, Ho, ⟨%d0, H0⟩, ⟨%d1, H1⟩, ⟨%d2, H2⟩, ⟨%d3, H3⟩, ⟨%d4, H4⟩, ⟨%d5, H5⟩⟩
      iapply (hC c (grid1.coords t) _ _ _ _ _ _ _ _ _ _ _ _ _ _ _ _ _ _ _ _ _ _ _ _ (fun h => h0 ((isFirst_iff t).mp h)) ((isLast_iff t).mpr h41) fullShare (a.1 0) (a.1 1) hchk1 hchk2 (iblk1P a V c 0 t) (iblk1P a V c 1 t) (iblk1P a V c 2 t) (iblk1P a V c 3 t) (iblk1P a V c 4 t) _ _ _ _)
      iframe Ht0 Ht1 H0 H1 H2 H3 H4 HS0 HS1 HS2 HS3
      isplitl [H5]; · iexists _; iexact H5
      iintro ⟨Ht0, Ht1, H0, H1, H2, H3, H4, HS0, HS1, HS2, HS3, H5⟩
      iframe Hg Ht0 Ht1 R1 R2 R3 R4 R5 R6 HS0 HS1 HS2 Ho H0 H1 H2 H3 H4
      isplitl [HS3]; · iexists _; iexact HS3
      iexact H5
    · rw [Dat.leavesExact_idle _ 5 t (idleAt1_5 a t h41) (noFlush1_5 a t h41), outsAt1P_BC a V c t h0]
      unfold stepAtP step1 pooledAtP; dsimp only [restAnd, othersAnd, carriedAt, carriedAnd, someAt, bodyAt1]
      iintro ⟨⟨Hg, ⟨Ht0, Ht1⟩, R1, R2, R3, R4, R5, R6, HS0, HS1, HS2, HS3⟩, Ho, ⟨%d0, H0⟩, ⟨%d1, H1⟩, ⟨%d2, H2⟩, ⟨%d3, H3⟩, ⟨%d4, H4⟩, H5⟩
      iapply (hB c (grid1.coords t) _ _ _ _ _ _ _ _ _ _ _ _ _ _ _ _ _ _ _ _ _ _ _ _ (fun h => h0 ((isFirst_iff t).mp h)) (fun h => h41 ((isLast_iff t).mp h)) fullShare (a.1 0) (a.1 1) hchk1 hchk2 (iblk1P a V c 0 t) (iblk1P a V c 1 t) (iblk1P a V c 2 t) (iblk1P a V c 3 t) (iblk1P a V c 4 t) _ _ _ _)
      iframe Ht0 Ht1 H0 H1 H2 H3 H4 HS0 HS1 HS2 HS3
      iintro ⟨Ht0, Ht1, H0, H1, H2, H3, H4, HS0, HS1, HS2, HS3⟩
      iframe Hg Ht0 Ht1 R1 R2 R3 R4 R5 R6 HS0 HS1 HS2 Ho H0 H1 H2 H3 H4
      isplitl [HS3]; · iexists _; iexact HS3
      iexact H5

theorem body_obligation1P (hA : RunA (F := F)) (hB : RunB (F := F)) (hC : RunC (F := F)) (hchk1 : ∀ x, k1_chk1 (a.1 0 x)) (hchk2 : ∀ x, k1_chk2 (a.1 1 x)) :
    BodyObligation (dat1P (F := F) a V c) (defs₀ (F := F)) Variants.none () Set.univ := fun t => by
  rw [bigSep_W1, bigSep_W1]
  exact sound_bodyP a V c hA hB hC hchk1 hchk2 t

end Data

section Export

variable (V : (c : Dev nD) → (b : Ref sig .tc) → Buf (Elt F) ((c : Thread nD τ).loc b)) (c : Dev nD)

abbrev iblk1 (w : Fin (cfg1 (adm1 (F := F))).W) (t : Fin (cfg1 (adm1 (F := F))).N) := iblk1P (adm1 (F := F)) V c w t
abbrev pooledAt (t : Fin (cfg1 (adm1 (F := F))).N) : Vec F S48x8x512 .f32 := pooledAtP (adm1 (F := F)) V c t
abbrev stepAt (t : Fin (cfg1 (adm1 (F := F))).N) (s : Carried F) : Carried F := stepAtP (adm1 (F := F)) V c t s
abbrev outsAt1 (n : ℕ) (hn : n < (cfg1 (adm1 (F := F))).N) : Carried F := outsAt1P (adm1 (F := F)) V c n hn
-- The proof data of the call on core `c`, at the tables' contents.
abbrev dat1 : Dat τ (Elt F) Unit ℕ (UR sig nD τ) ℕ (cfg1 (adm1 (F := F))) c := dat1P (adm1 (F := F)) V c

theorem pooledAt_eq (t : Fin (cfg1 (adm1 (F := F))).N) :
    pooledAt V c t = pooledOf (grid1.coords t) (tb0 (F := F)) (tb1 (F := F)) (iblk1 V c 0 t) := rfl
theorem outsAt1_A (t : Fin (cfg1 (adm1 (F := F))).N) (h : t.val % 42 = 0) :
    outsAt1 V c t.val t.isLt = stepAt V c t init1 := outsAt1P_A _ V c t h
theorem outsAt1_BC (t : Fin (cfg1 (adm1 (F := F))).N) (h : t.val % 42 ≠ 0) :
    outsAt1 V c t.val t.isLt = stepAt V c t (outsAt1 V c (t.val - 1) (Nat.lt_of_le_of_lt (Nat.sub_le _ _) t.isLt)) := outsAt1P_BC _ V c t h
theorem A_eq1 (w : Fin (cfg1 (adm1 (F := F))).W) : (dat1 V c).A w = V c (Pipeline.arrRef spec1 w) := rfl
theorem owed1 (t) : (dat1 V c).owed t = 0 := rfl
theorem q1 (w) : (dat1 V c).q w = fullShare := rfl
theorem after1_5 (t : Fin (cfg1 (adm1 (F := F))).N) :
    (dat1 V c).after 5 t = outBlk (outsAt1 V c t.val t.isLt).acc (outsAt1 V c t.val t.isLt).l := rfl

-- What the region is entered with is the invariant before the first point.
theorem hin1 :
    iprop((∃ r, prngReg c r) ∗ Pipeline.prefHeld pre1 c (fun _ => fullShare) (adm1 (F := F)).1 ∗ Pipeline.scopedRest spec1 c) ⊢ (dat1 V c).Φ 0 := .rfl

-- After the last point the invariant gives the entry form back.
theorem hout1 :
    (dat1 V c).Φ (Fin.last _) ⊢ iprop(((∃ r, prngReg c r) ∗ Pipeline.prefHeld pre1 c (fun _ => fullShare) (adm1 (F := F)).1)
      ∗ Pipeline.ownSems0 (fun k : PEmpty => k.elim) c ∗ Pipeline.scopedRest spec1 c) := by
  rw [Pipeline.ownSems0_none, scopedRest1_owns, tables_eq]
  refine (PhiS_any (adm1 (F := F)) V c _ (le_refl _)).trans ?_
  dsimp only [restAnd]
  iintro ⟨Hg, Ht, HR⟩
  iframe; iempintro

end Export

end Cert.Kernel.R1

end
-- ==== Proof.Bits.KLaunch.lean ====
import proofs.«401211_j85263690760702_3_alg».proof.Proof.Gen.Kernel.Regions
import proofs.«401211_j85263690760702_3_alg».proof.Proof.Bits.K0Data
import proofs.«401211_j85263690760702_3_alg».proof.Proof.Bits.K1Tables
import proofs.«401211_j85263690760702_3_alg».proof.Proof.Bits.K1Data
import Idealize.ShloMosaic.Lib.Pipeline.RegionsLoop
import Idealize.ShloMosaic.Lib.Pipeline.FrameSuffix
import Idealize.ShloMosaic.Lib.Tactic

noncomputable section

namespace Cert.Kernel.Launch
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen Cert.Kernel.R0 Cert.Kernel.R1

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V1 : (c : Dev nD) → (b : Ref sig .tc) → Buf (Elt F) ((c : Thread nD τ).loc b) := fun c b => Gen.V1 m c b

-- What region 0 leaves: its arrays at their last contents, every other buffer as entered.
def W2 (c : Dev nD) : Valuation τ sig (Elt F) :=
  Pipeline.withArrays spec0 c (Gen.V1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 winFacts0.arr_inj c _ _ w
theorem W2_of_ne (c : Dev nD) (b : Ref sig .tc) (hb : ∀ w, Pipeline.arrRef spec0 w ≠ b) :
    W2 m c (Proc.devRef .tc b) = Gen.V1 m c (Proc.devRef .tc b) :=
  Pipeline.withArrays_of_ne spec0 c _ _ b hb
abbrev V2 : (c : Dev nD) → (b : Ref sig .tc) → Buf (Elt F) ((c : Thread nD τ).loc b) := fun c b => W2 m c b

-- and region 1, likewise.
def W3 (c : Dev nD) : Valuation τ sig (Elt F) :=
  Pipeline.withArrays spec1 c (W2 m c) fun w => (dat1 (V2 m) c).arrAt w (cfg1 (adm1 (F := F))).N
theorem W3_arr (c : Dev nD) (w : Fin (cfg1 (adm1 (F := F))).W) :
    W3 m c (Proc.devRef .tc (Pipeline.arrRef spec1 w)) = (dat1 (V2 m) c).arrAt w (cfg1 (adm1 (F := F))).N :=
  Pipeline.withArrays_arr spec1 winFacts1.arr_inj c _ _ w
theorem W3_of_ne (c : Dev nD) (b : Ref sig .tc) (hb : ∀ w, Pipeline.arrRef spec1 w ≠ b) :
    W3 m c (Proc.devRef .tc b) = W2 m c (Proc.devRef .tc b) :=
  Pipeline.withArrays_of_ne spec1 c _ _ b hb

-- The host operations write the two tables as constants, and region 0 writes neither.
theorem tables_V2 (c : Dev nD) : ∀ k : Fin pre1.K, V2 m c (pre1.ref k) = (adm1 (F := F)).1 k
  | ⟨0, _⟩ => (W2_of_ne m c main_c (by decide)).trans (by
    show StableHlo.after hostOps0 (V0 m c) main_c = _
    after_results
    rfl)
  | ⟨1, _⟩ => (W2_of_ne m c main_c_0 (by decide)).trans (by
    show StableHlo.after hostOps0 (V0 m c) main_c_0 = _
    after_results
    rfl)

-- What region 1 does not write: the two tables at their contents, and the rest.
theorem rest1 (c : Dev nD) : (Pipeline.unscopedRest spec1 c (V2 m c) : sProp 𝕄)
    = iprop(Pipeline.prefHeld pre1 c (fun _ => fullShare) (adm1 (F := F)).1 ∗ Pipeline.unscopedRestP pre1 spec1 c (V2 m c)) := by
  rw [Pipeline.unscopedRest_split preFacts1 c (V2 m c), show (fun k => V2 m c (pre1.ref k)) = (adm1 (F := F)).1 from funext (tables_V2 m c)]

abbrev held (c : Dev nD) (W : Valuation τ sig (Elt F)) : sProp 𝕄 := StableHlo.held (c : Thread nD τ) (Pipeline.ucRefs τ sig) W
abbrev prng (c : Dev nD) : sProp 𝕄 := iprop(∃ r, prngReg c r)
abbrev owesNone (c : Dev nD) : sProp 𝕄 := iprop(∃ W, owes (c : Thread nD τ) (0 : CellTallies nD τ sig Unit) W)

theorem owesAt_intro {cfg : Pipeline.Cfg sig Λ₀} {c : Dev nD} (dat : Pipeline.Dat τ (Elt F) Unit ℕ (UR sig nD τ) ℕ cfg c)
    (t : Fin (cfg.N + 1)) (h0 : dat.owed t = 0) (hr : dat.recorded t = Set.univ) : owesNone c ⊢ dat.owesAt () t := by
  unfold Pipeline.Dat.owesAt Pipeline.owesWithin
  rw [h0]
  iintro ⟨%W, HO⟩; iexists W; isplitr
  · ipureintro; intro x _; exact Or.inl (by rw [hr]; trivial)
  iexact HO
theorem owesAt_elim {cfg : Pipeline.Cfg sig Λ₀} {c : Dev nD} (dat : Pipeline.Dat τ (Elt F) Unit ℕ (UR sig nD τ) ℕ cfg c)
    (t : Fin (cfg.N + 1)) (h0 : dat.owed t = 0) : dat.owesAt () t ⊢ owesNone c := by
  unfold Pipeline.Dat.owesAt Pipeline.owesWithin
  rw [h0]
  iintro ⟨%W, -, HO⟩; iexists W; iexact HO

def adm : (p : Fin 2) → (pcfgs (F := F) p).Adm
  | ⟨0, _⟩ => cfg0.toPCfg_adm
  | ⟨1, _⟩ => adm1

def pdats : (p : Fin 2) → (c : Dev nD) → Pipeline.Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
abbrev R (c : Dev nD) : sProp 𝕄 := iprop(prng c ∗ owesNone c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(held c (W3 m c) ∗ prng c)

set_option backward.isDefEq.respectTransparency.types false in
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V1 m) c).loose
  hwaits := Pipeline.hwaits_of_owed_zero _ _ _ _ L lv 0 fun c t => rfl
  pre c := iprop(held c (Gen.V1 m c) ∗ R c)
  post c := iprop(held c (W2 m c) ∗ R c)
  X := prng
  Y := prng
  Z c := Pipeline.unscopedRest spec0 c (V1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun w => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    iapply (owesAt_intro (pdats m 0 c) 0 rfl rfl); iexact HO
  hin c := by
    rw [show (pdats m 0 c).Φ 0 = Pipeline.ΦA spec0 c from rfl]; unfold Pipeline.ΦA
    iintro ⟨Hp, -, Hr⟩
    iframe
  hout c := by
    rw [Pipeline.ownSems0_none, show (pdats m 0 c).Φ (Fin.last _) = Pipeline.ΦA spec0 c from rfl]; unfold Pipeline.ΦA
    iintro ⟨Hr, Hp⟩
    iframe; iempintro
  hexit c := by
    have hjoin := Pipeline.unscopedBufs_of_arrays (p := 0) (pcfgs (F := F)) adm
      (launch0 (F := F)).win (launch0 (F := F)).arr_whole c (pdats m) ((pdats m 0 c).share_full fun w => rfl)
      (V1 m c) (V2 m c) ((pdats m 0 c).arrAt · cfg0.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; iframe
    isplitl [HY]; · iexact HY
    iapply (owesAt_elim (pdats m 0 c) (Fin.last _) rfl); iexact HO

variable (hb1 : ∀ c : Dev nD, Pipeline.BodyObligation (dat1 (F := F) (V2 m) c) (defs₀ (F := F)) Variants.none () Set.univ)

-- Region 1's two tables enter at what the host operations wrote, and come back unchanged.
set_option backward.isDefEq.respectTransparency.types false in
def reg1 : Pipeline.RegionSeg (pcfgs (F := F)) adm (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (hb1 c).loose
  hwaits := Pipeline.hwaits_of_owed_zero _ _ _ _ L lv 1 fun c t => rfl
  pre c := iprop(held c (W2 m c) ∗ R c)
  post c := iprop(Tₙ m c ∗ owesNone c)
  X := prng
  Y c := iprop(prng c ∗ Pipeline.prefHeld pre1 c (fun _ => fullShare) (adm1 (F := F)).1)
  Z c := Pipeline.unscopedRestP pre1 spec1 c (V2 m c)
  hentry c := by
    rw [Pipeline.ownSems0_none]
    have hsplit := (Pipeline.arrays_of_unscopedBufs (p := 1) (pcfgs (F := F)) adm (pdats m) (launch1 (F := F)).win (launch1 (F := F)).arr_whole c
      ((pdats m 1 c).share_full fun w => rfl) (V2 m c) (A_eq1 (V2 m) c)).trans (sep_mono .rfl (Entails.of_eq (rest1 m c)))
    rw [Pipeline.unscopedBufs_held] at hsplit
    iintro ⟨⟨Hub, Hp, HO⟩, -, -⟩
    ihave H := hsplit $$ Hub
    icases H with ⟨Ha, Ht, Hrest⟩
    imodintro
    iframe Ha Hp Hrest
    isplitl [Ht]; · iexact Ht
    iapply (owesAt_intro (pdats m 1 c) 0 rfl rfl); iexact HO
  hin c := hin1 (V2 m) c
  hout c := hout1 (V2 m) c
  hexit c := by
    have hjoin := (sep_mono .rfl (Entails.of_eq (rest1 m c).symm)).trans (Pipeline.unscopedBufs_of_arrays (p := 1) (pcfgs (F := F)) adm
      (launch1 (F := F)).win (launch1 (F := F)).arr_whole c (pdats m) ((pdats m 1 c).share_full fun w => rfl)
      (V2 m c) (fun b => W3 m c b) ((pdats m 1 c).arrAt · (cfg1 (adm1 (F := F))).N) (fun w => (W3_arr m c w).symm)
      fun b hb => W3_of_ne m c b fun w e => hb (Finset.mem_image.mpr ⟨w, Finset.mem_univ _, e⟩))
    rw [Pipeline.unscopedBufs_held] at hjoin
    iintro ⟨Ha, HO, ⟨HY, Ht⟩, Hrest⟩
    imodintro
    isplitl [Ha Hrest Ht HY]
    · isplitl [Ha Hrest Ht]
      · iapply hjoin; iframe
      iexact HY
    iapply (owesAt_elim (pdats m 1 c) (Fin.last _) rfl); iexact HO

theorem V2_main_v1 (c : Dev nD) : V2 m c main_v1 = (dat0 (V1 m) c).arrAt (1 : Fin 2) cfg0.N := W2_arr m c 1

theorem V1_main_arg0 (c : Dev nD) : V1 m c main_arg0 = m ((c : Thread nD τ).loc main_arg0) := V1_of m c main_arg0 (by decide)

-- A buffer that neither the host operations nor region 0 write is as launched when region 1 is entered.
theorem V2_launch (c : Dev nD) (b : Ref sig .tc) (hh : b ∉ hostOps0_W) (h0 : ∀ w, Pipeline.arrRef spec0 w ≠ b) :
    V2 m c b = m ((c : Thread nD τ).loc b) := (W2_of_ne m c b h0).trans (V1_of m c b hh)
theorem V2_main_arg1 (c : Dev nD) : V2 m c main_arg1 = m ((c : Thread nD τ).loc main_arg1) := V2_launch m c _ (by decide) (by decide)
theorem V2_main_arg2 (c : Dev nD) : V2 m c main_arg2 = m ((c : Thread nD τ).loc main_arg2) := V2_launch m c _ (by decide) (by decide)
theorem V2_main_arg3 (c : Dev nD) : V2 m c main_arg3 = m ((c : Thread nD τ).loc main_arg3) := V2_launch m c _ (by decide) (by decide)

-- The reshaped bias is the launch's bias through the shape cast.
theorem V2_main_v0' (c : Dev nD) :
    V2 m c main_v0 = fun i => shapeCast main_v0.ty.shape (m ((c : Thread nD τ).loc main_arg4)) shapeCasts_S1_S1x1 i :=
  (W2_of_ne m c main_v0 (by decide)).trans (by
    show StableHlo.after hostOps0 (V0 m c) main_v0 = _
    after_results)

-- Region 1 only reads the array of an input window, which therefore ends as it was entered.
theorem W3_in (c : Dev nD) (w : Fin (cfg1 (adm1 (F := F))).W) (h : ((cfg1 (adm1 (F := F))).win w).isOut = false) :
    W3 m c (Proc.devRef .tc (Pipeline.arrRef spec1 w)) = V2 m c (Pipeline.arrRef spec1 w) :=
  (W3_arr m c w).trans (((dat1 (V2 m) c).arrAt_in w h _).trans (A_eq1 (V2 m) c w))

abbrev segs : List (Pipeline.Seg (pcfgs (F := F)) adm (pdats m) () defs₀ 𝒱₀ L lv) :=
  [.host (seg0 m 𝒱₀ L lv fun _ => R), .region (reg0 m), .region (reg1 m hb1)]
theorem main_run (c : Dev nD) : main (F := F) c = Pipeline.Seg.run (segs m hb1) := (main_chain c).trans (by chain_rfl)

-- What every final memory holds on every core: the result at the last contents of region 1's output array, each argument as launched.
abbrev Post (r : PUnit × MemSt nD τ sig (Elt F)) : Prop := ∀ c : Dev nD,
  r.2.mem ((c.tc : Thread nD τ).loc main_v2) = (dat1 (V2 m) c).arrAt (5 : Fin 6) (cfg1 (adm1 (F := F))).N
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

-- Every weakly fair execution of @main terminates, in a memory as `Post` says.
include hb1 in
set_option backward.isDefEq.respectTransparency.types false in
theorem run_of : θ_run defs (onTc (τ := τ) (main (F := F))) ⟨m, fun _ => 0, ρ⟩ (Post m) :=
  Pipeline.θ_run_regions_kit (pcfgs (F := F)) adm (pdats m) () (cellOf_inj adm) emb₁ defs₀ 𝒱₀ L lv m ρ main (segs m hb1)
    (fun c Q => by rw [main_run m hb1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU _ : sProp 𝕄) ⊢ BI.own (emb₁ _) from .rfl); iexact Hu
      iapply (show (BI.emp : sProp 𝕄) ⊢ bigSep Finset.univ (fun _ : Dev nD => (BI.emp : sProp 𝕄)) from by rw [BI.bigSep_emp_const])
      iempintro)
    (T₀ := fun c => iprop(held c (V0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = held c (V0 m c) from Pipeline.unscopedBufs_held c (V0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold held StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v2 (by decide))).trans (W3_arr m c 5),
       (h c _ (mem_uc main_arg0 (by decide))).trans ((W3_of_ne m c _ (by decide)).trans
         (((W2_arr m c 0).trans (((dat0 (V1 m) c).arrAt_in 0 rfl _).trans (A_eq0 (V1 m) c 0))).trans (V1_main_arg0 m c))),
       (h c _ (mem_uc main_arg1 (by decide))).trans ((W3_in m c 1 rfl).trans (V2_main_arg1 m c)),
       (h c _ (mem_uc main_arg2 (by decide))).trans ((W3_in m c 2 rfl).trans (V2_main_arg2 m c)),
       (h c _ (mem_uc main_arg3 (by decide))).trans ((W3_in m c 3 rfl).trans (V2_main_arg3 m c)),
       (h c _ (mem_uc main_arg4 (by decide))).trans ((W3_of_ne m c _ (by decide)).trans (V2_launch m c _ (by decide) (by decide)))⟩)

end Cert.Kernel.Launch

end
-- ==== Proof.Bits.K1Loop.lean ====
import proofs.«401211_j85263690760702_3_alg».proof.Proof.Gen.Kernel
import proofs.«401211_j85263690760702_3_alg».proof.Proof.Gen.Kernel.Skeleton
import proofs.«401211_j85263690760702_3_alg».proof.Proof.Gen.Kernel.Loops
import proofs.«401211_j85263690760702_3_alg».proof.Proof.Bits.K1Step
import Idealize.ShloMosaic.Lib.Exec
import Idealize.ShloMosaic.Lib.Tactic
import Idealize.ShloMosaic.Lib.Pipeline.Kit

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid1.Coords)
  (arg2 : Memref sig .tc .smem S2016 .i32) (harg2 : arg2.IsWhole) (arg3 : Memref sig .tc .smem S2016 .i32) (harg3 : arg3.IsWhole)
  (arg4 : Memref sig .tc .vmem S512x8x512 .f32) (harg4 : arg4.IsWhole) (arg5 : Memref sig .tc .vmem S512x128 .f32) (harg5 : arg5.IsWhole)
  (arg6 : Memref sig .tc .vmem S128 .f32) (harg6 : arg6.IsWhole) (arg7 : Memref sig .tc .vmem S128x1 .f32) (harg7 : arg7.IsWhole)
  (arg8 : Memref sig .tc .vmem S1x1 .f32) (harg8 : arg8.IsWhole) (arg9 : Memref sig .tc .vmem S8x512 .f32) (harg9 : arg9.IsWhole)
  (arg10 : Memref sig .tc .vmem S8x1 .f32) (harg10 : arg10.IsWhole) (arg11 : Memref sig .tc .vmem S8x1 .f32) (harg11 : arg11.IsWhole)
  (arg12 : Memref sig .tc .vmem S8x512 .f32) (harg12 : arg12.IsWhole) (arg13 : Memref sig .tc .vmem S48x8x512 .f32) (harg13 : arg13.IsWhole)
  (q : PosShare TreeShare) (X2 : BufTy.Contents (Elt F) arg2.view.ty) (X3 : BufTy.Contents (Elt F) arg3.view.ty)
  (X4 : BufTy.Contents (Elt F) arg4.view.ty)
  (h1 : ∀ j, k1_chk1 (arg2.view.read (Elt F) X2 j)) (h2 : ∀ j, k1_chk2 (arg3.view.read (Elt F) X3 j))

-- What a trip holds: both index tables and the table block at their contents, and the pooled scratch at `f13`.
abbrev Trip (f13 : BufTy.Contents (Elt F) arg13.view.ty) : sProp 𝕄G :=
  iprop((arg2.view.loc (c : Thread nD τ) ↦[arg2.view.set]{q} X2) ∗ (arg3.view.loc (c : Thread nD τ) ↦[arg3.view.set]{q} X3)
    ∗ (arg4.view.loc (c : Thread nD τ) ↦[arg4.view.set]{fullShare} X4) ∗ (arg13.view.loc (c : Thread nD τ) ↦[arg13.view.set]{fullShare} f13))

-- One trip at a symbolic `k` leaves the tables and the table block as they were and stores some rows `L13` into the pooled scratch.
@[irreducible] def trip (k : Fin k1_t1_loop.trips) :
    { L13 : List (View.Piece (Elt F) S48x8x512 .f32) // ∀ f13, Trip c arg2 arg3 arg4 arg13 q X2 X3 X4 f13
      ⊢ wp frame (wpE (defs₀ (F := F)) Variants.none (c : Thread nD τ) none) Set.univ
          (k1_t1_body (F := F) i arg2 harg2 arg3 harg3 arg4 harg4 arg5 harg5 arg6 harg6 arg7 harg7 arg8 harg8 arg9 harg9 arg10 harg10 arg11 harg11 arg12 harg12 arg13 harg13 k ())
          (fun _ => Trip c arg2 arg3 arg4 arg13 q X2 X3 X4 (arg13.view.writes (Elt F) f13 L13)) } := by
  refine ⟨?_, fun f13 => ?run⟩
  case run =>
    unfold k1_t1_body
    iintro ⟨H2, H3, H4, H13⟩
    sl_exec (disch := first | exact h1 _ | exact h2 _)
    sl_step
    sl_close

-- The rows stored by the trips before `k`, last first.
def pb : ℕ → List (View.Piece (Elt F) S48x8x512 .f32)
  | 0 => []
  | k + 1 => if h : k < k1_t1_loop.trips then (trip c i arg2 harg2 arg3 harg3 arg4 harg4 arg5 harg5 arg6 harg6 arg7 harg7 arg8 harg8 arg9 harg9 arg10 harg10 arg11 harg11 arg12 harg12 arg13 harg13 q X2 X3 X4 h1 h2 ⟨k, h⟩).1 ++ pb k else pb k

-- Before trip `k` the pooled scratch holds its contents at loop entry `G13` overwritten by the rows of the trips before `k`.
abbrev inv (G13 : BufTy.Contents (Elt F) arg13.view.ty) (k : ℕ) (_u : PUnit) : sProp 𝕄G :=
  iprop((arg2.view.loc (c : Thread nD τ) ↦[arg2.view.set]{q} X2) ∗ (arg3.view.loc (c : Thread nD τ) ↦[arg3.view.set]{q} X3)
    ∗ (arg4.view.loc (c : Thread nD τ) ↦[arg4.view.set]{fullShare} X4)
    ∗ (∃ f, (arg13.view.loc (c : Thread nD τ) ↦[arg13.view.set]{fullShare} f) ∗ ⌜f = arg13.view.writes (Elt F) G13 (pb c i arg2 harg2 arg3 harg3 arg4 harg4 arg5 harg5 arg6 harg6 arg7 harg7 arg8 harg8 arg9 harg9 arg10 harg10 arg11 harg11 arg12 harg12 arg13 harg13 q X2 X3 X4 h1 h2 k)⌝))

set_option warn.classDefReducibility false in
@[sl_loop] def loopInv_k1_t1 (G13 : BufTy.Contents (Elt F) arg13.view.ty) :
    Cert.Kernel.Gen.LoopInvTy_k1_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 where
  inv := inv c i arg2 harg2 arg3 harg3 arg4 harg4 arg5 harg5 arg6 harg6 arg7 harg7 arg8 harg8 arg9 harg9 arg10 harg10 arg11 harg11 arg12 harg12 arg13 harg13 q X2 X3 X4 h1 h2 G13
  step k acc := by
    iintro ⟨H2, H3, H4, ⟨%f13, H13, %h13⟩⟩
    iapply (wp_wand_r Idealize.ShloMosaic.frame (wpE (defs₀ (F := F)) Variants.none (c : Thread nD τ) none) Set.univ)
    isplitl [H2 H3 H4 H13]
    · iapply ((trip c i arg2 harg2 arg3 harg3 arg4 harg4 arg5 harg5 arg6 harg6 arg7 harg7 arg8 harg8 arg9 harg9 arg10 harg10 arg11 harg11 arg12 harg12 arg13 harg13 q X2 X3 X4 h1 h2 k).2 f13)
      unfold Trip; iframe
    · iintro %_ ⟨H2, H3, H4, H13⟩
      unfold inv; iframe H2 H3 H4
      rw [pb, dif_pos k.isLt]
      iexists _; iframe H13
      ipureintro; rw [h13, ← View.writes_append]

end Cert.Kernel.R1

end
-- ==== Proof.Bits.K1Pooled.lean ====
import proofs.«401211_j85263690760702_3_alg».proof.Proof.Bits.K1Loop
import Idealize.ShloMosaic.Lib.WholeRead
import Idealize.ShloMosaic.Lib.Pipeline.Value

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable {sp : Space} {S : Shape} {e : EltTy} {m : Memref sig .tc sp S e} (h : m.IsWhole) (f : m.view.ty.Contents (Elt F))
  {off : Fin S.rank → ℕ} (hoff : off = fun _ => 0) (inb : ∀ a, off a + S.size a ≤ S.size a)

-- A load through `R` of a buffer held at the contents that read `X` loads `X` through `R`.
theorem readAt_unread_ld (X : S.Idx → Elt F e) (R : Rect S) :
    View.readAt (Elt F) m.view R.toLoadRect (h.unread X) = View.ld X R :=
  congrArg (View.ld · R) (h.read_unread X)

include hoff

theorem readAt_zero_unread (X : S.Idx → Elt F e) :
    View.readAt (Elt F) m.view (Rect.unit (s := S) off S.size inb).toLoadRect (h.unread X) = X :=
  (readAt_unread_ld h X _).trans (View.ld_unit_zero hoff inb X)

variable (m)

-- After a store of the whole of a buffer, whatever was stored before, it reads the last payload.
theorem read_writes_zero_cons (w : S.Idx → Elt F e) (L : List (View.Piece (Elt F) S e)) :
    m.view.read (Elt F) (m.view.writes (Elt F) f ((⟨Rect.unit (s := S) off S.size inb, w⟩ : View.Piece (Elt F) S e) :: L)) = w :=
  (View.read_writes_eq_canon m.view f _ (fun y => ⟨_, List.mem_cons_self .., View.mem_set_unit_zero hoff inb y⟩)).trans
    (View.canon_cons_unit_zero hoff inb w L)

theorem read_writes_zero (w : S.Idx → Elt F e) :
    m.view.read (Elt F) (m.view.writes (Elt F) f [(⟨Rect.unit (s := S) off S.size inb, w⟩ : View.Piece (Elt F) S e)]) = w :=
  read_writes_zero_cons m f hoff inb w []

end

variable (c : Dev nD) (i : grid1.Coords)
  (arg2 : Memref sig .tc .smem S2016 .i32) (harg2 : arg2.IsWhole) (arg3 : Memref sig .tc .smem S2016 .i32) (harg3 : arg3.IsWhole)
  (arg4 : Memref sig .tc .vmem S512x8x512 .f32) (harg4 : arg4.IsWhole) (arg5 : Memref sig .tc .vmem S512x128 .f32) (harg5 : arg5.IsWhole)
  (arg6 : Memref sig .tc .vmem S128 .f32) (harg6 : arg6.IsWhole) (arg7 : Memref sig .tc .vmem S128x1 .f32) (harg7 : arg7.IsWhole)
  (arg8 : Memref sig .tc .vmem S1x1 .f32) (harg8 : arg8.IsWhole) (arg9 : Memref sig .tc .vmem S8x512 .f32) (harg9 : arg9.IsWhole)
  (arg10 : Memref sig .tc .vmem S8x1 .f32) (harg10 : arg10.IsWhole) (arg11 : Memref sig .tc .vmem S8x1 .f32) (harg11 : arg11.IsWhole)
  (arg12 : Memref sig .tc .vmem S8x512 .f32) (harg12 : arg12.IsWhole) (arg13 : Memref sig .tc .vmem S48x8x512 .f32) (harg13 : arg13.IsWhole)
  (q : PosShare TreeShare) (tb0 tb1 : Vec F S2016 .i32) (T : Vec F S512x8x512 .f32)
  (h1 : ∀ j, k1_chk1 (arg2.view.read (Elt F) (harg2.unread tb0) j)) (h2 : ∀ j, k1_chk2 (arg3.view.read (Elt F) (harg3.unread tb1) j))

-- Held at the contents that read `tb0`, `tb1`, `T`, each gather of trip `k` loads the row of `T` its table's word names: the trip stores `rowPiece … k`.
theorem trip_eq (k : Fin k1_t1_loop.trips) : (trip c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 k).1 = [rowPiece i tb0 tb1 T k] := by
  unfold trip
  refine congrArg (fun w => [(⟨_, w⟩ : View.Piece (Elt F) S48x8x512 .f32)]) ?_
  exact congrArg₂ k1_pay10
    (((readAt_unread_ld harg4 T _).trans (rowA_of T _ (h1 _)).symm).trans (congrArg (rowA T) (harg2.readAt_unread tb0 _ _)))
    (((readAt_unread_ld harg4 T _).trans (rowB_of T _ (h2 _)).symm).trans (congrArg (rowB T) (harg3.readAt_unread tb1 _ _)))

theorem pb_eq_rows : ∀ k, pb c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 k = rows i tb0 tb1 T k
  | 0 => rfl
  | k + 1 => by
    rw [pb, rows, pb_eq_rows k]
    exact dite_congr rfl (fun h => congrArg (· ++ _) (trip_eq ..)) fun _ => rfl

theorem trips_eq : k1_t1_loop.trips = 48 := by decide +kernel

theorem rowPiece_mem (n : Fin k1_t1_loop.trips) : ∀ k, n.val < k → rowPiece i tb0 tb1 T n ∈ rows i tb0 tb1 T k
  | k + 1, h => by
    rw [rows]
    split
    · rcases Nat.lt_succ_iff_lt_or_eq.mp h with h' | rfl
      · exact List.mem_cons_of_mem _ (rowPiece_mem n k h')
      · exact List.mem_cons_self ..
    · exact rowPiece_mem n k (n.isLt.trans_le (Nat.le_of_not_lt ‹_›))

-- Row `y 0` of the pooled block is stored by trip `y 0`.
theorem rows_cover (y : S48x8x512.Idx) : ∃ p ∈ rows i tb0 tb1 T k1_t1_loop.trips, y ∈ p.1.set := by
  have hn : ((y 0 : Fin 48) : ℕ) < k1_t1_loop.trips := (y 0 : Fin 48).isLt.trans_eq trips_eq.symm
  refine ⟨rowPiece i tb0 tb1 T ⟨(y 0 : Fin 48), hn⟩, rowPiece_mem i tb0 tb1 T _ _ hn, ?_⟩
  show y ∈ (Rect.unit (s := S48x8x512) (k1_off4 ⟨(y 0 : Fin 48), hn⟩) S1x8x512.size (k1_off4_inb _)).set
  rw [Rect.mem_set_unit, k1_off4_eq]
  intro a
  fin_cases a
  · exact ⟨le_rfl, Nat.lt_succ_self _⟩
  · exact ⟨Nat.zero_le _, (y 1).isLt⟩
  · exact ⟨Nat.zero_le _, (y 2).isLt⟩

-- After the loop the pooled scratch reads `pooledOf`, whatever it held before.
theorem pooled_read (f13 : BufTy.Contents (Elt F) arg13.view.ty) :
    arg13.view.read (Elt F) (arg13.view.writes (Elt F) f13 (pb (F := F) c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 (Scf.trips k1_t1_loop.lb k1_t1_loop.ub k1_t1_loop.st)))
      = pooledOf i tb0 tb1 T := by
  rw [pb_eq_rows]
  exact View.read_writes_eq_canon arg13.view f13 _ (rows_cover i tb0 tb1 T)

theorem pooled_load (f13 : BufTy.Contents (Elt F) arg13.view.ty) :
    View.readAt (Elt F) arg13.view (Rect.unit (s := S48x8x512) ![0, 0, 0] S48x8x512.size inb_S48x8x512_S48x8x512_0_0_0).toLoadRect
        (arg13.view.writes (Elt F) f13 (pb (F := F) c i arg2 harg2 arg3 harg3 arg4 harg4 arg5 harg5 arg6 harg6 arg7 harg7 arg8 harg8 arg9 harg9 arg10 harg10 arg11 harg11 arg12 harg12 arg13 harg13 q (harg2.unread tb0) (harg3.unread tb1) (harg4.unread T) h1 h2 (Scf.trips k1_t1_loop.lb k1_t1_loop.ub k1_t1_loop.st)))
      = pooledOf i tb0 tb1 T :=
  (congrArg (View.ld · (Rect.unit (s := S48x8x512) ![0, 0, 0] S48x8x512.size inb_S48x8x512_S48x8x512_0_0_0))
    (pooled_read ..)).trans (View.ld_unit_zero (funext fun a => by fin_cases a <;> rfl) _ _)

end Cert.Kernel.R1

end
-- ==== Proof.Bits.K1Body.lean ====
import proofs.«401211_j85263690760702_3_alg».proof.Proof.Gen.Kernel.Skeleton
import proofs.«401211_j85263690760702_3_alg».proof.Proof.Bits.K1Pooled
import proofs.«401211_j85263690760702_3_alg».proof.Proof.Bits.K1Data
import Idealize.ShloMosaic.Lib.Pipeline.Value
import Idealize.ShloMosaic.Lib.Tactic

namespace Cert.Kernel.R1

open Cert.Kernel.Gen Idealize.ShloMosaic Idealize.SL.ProofMode

variable {F : FTy → Type} [FloatOps F]

/-- A tile strictly inside its batch chunk: the three running quantities are loaded, updated and stored back. -/
theorem run_B : RunB (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 m0 l0 a0 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%f11, %hf11, H11⟩, ⟨%f12, %hf12, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := readAt_zero_unread (F := F) harg10 (by decide) inb_S8x1_S8x1_0_0 m0
  have hl := readAt_zero_unread (F := F) harg11 (by decide) inb_S8x1_S8x1_0_0 l0
  have ha := readAt_zero_unread (F := F) harg12 (by decide) inb_S8x512_S8x512_0_0 a0
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  iexists _; isplitr; rotate_left; · iexact H13
  ipureintro; exact pooled_read ..

end Cert.Kernel.R1
-- ==== Proof.Bits.K1BodyA.lean ====
import proofs.«401211_j85263690760702_3_alg».proof.Proof.Bits.K1Body

namespace Cert.Kernel.R1

open Cert.Kernel.Gen Idealize.ShloMosaic Idealize.SL.ProofMode

variable {F : FTy → Type} [FloatOps F]

/-- The first tile of a batch chunk: the running quantities are reset before the update, so what they held does not matter. -/
theorem run_A : RunA (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d10, %f10, -, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := View.readCov_unit_zero (Val := Elt F) arg10.view (by decide) inb_S8x1_S8x1_0_0 (k1_pay7 (F := F))
  have hl := View.readCov_unit_zero (Val := Elt F) arg11.view (by decide) inb_S8x1_S8x1_0_0 (k1_pay8 (F := F))
  have ha := View.readCov_unit_zero (Val := Elt F) arg12.view (by decide) inb_S8x512_S8x512_0_0 (k1_pay9 (F := F))
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  iexists _; isplitr; rotate_left; · iexact H13
  ipureintro; exact pooled_read ..

end Cert.Kernel.R1
-- ==== Proof.Bits.K1BodyC.lean ====
import proofs.«401211_j85263690760702_3_alg».proof.Proof.Bits.K1Body

namespace Cert.Kernel.R1

open Cert.Kernel.Gen Idealize.ShloMosaic Idealize.SL.ProofMode

variable {F : FTy → Type} [FloatOps F]

/-- The last tile of a batch chunk: after the update the output block is the accumulator over the normaliser. -/
theorem run_C : RunC (F := F) := by
  intro c i arg2 harg2 arg3 harg3 arg4 harg4 arg5 harg5 arg6 harg6 arg7 harg7 arg8 harg8 arg9 harg9 arg10 harg10 arg11 harg11 arg12 harg12 arg13 harg13 hc0 hc1 q tb0 tb1 hchk1 hchk2 T W1 b1 W2 b2 m0 l0 a0 K
  dsimp only [insAnd, carriedAnd, steppedAnd, someAt]
  simp only [cc1__attn_kernel_eq_skeleton]; unfold cc1__attn_kernel_skel
  simp only [k1_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f10, %hf10, H10⟩, ⟨%f11, %hf11, H11⟩, ⟨%f12, %hf12, H12⟩, ⟨%d13, %f13, -, H13⟩, ⟨%d9, %f9, -, H9⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12
  have h1 := (harg2.read_unread tb0).symm ▸ hchk1
  have h2 := (harg3.read_unread tb1).symm ▸ hchk2
  have hP := pooled_load (F := F) c i
  have hW1 := readAt_zero_unread (F := F) harg5 (by decide) inb_S512x128_S512x128_0_0 W1
  have hb1 := readAt_zero_unread (F := F) harg6 (by decide) inb_S128_S128_0 b1
  have hW2 := readAt_zero_unread (F := F) harg7 (by decide) inb_S128x1_S128x1_0_0 W2
  have hb2 := readAt_zero_unread (F := F) harg8 (by decide) inb_S1x1_S1x1_0_0 b2
  have hm := readAt_zero_unread (F := F) harg10 (by decide) inb_S8x1_S8x1_0_0 m0
  have hl := readAt_zero_unread (F := F) harg11 (by decide) inb_S8x1_S8x1_0_0 l0
  have ha := readAt_zero_unread (F := F) harg12 (by decide) inb_S8x512_S8x512_0_0 a0
  have hl' := fun (w : Vec F S8x1 .f32) => View.readCov_unit_zero (Val := Elt F) arg11.view (by decide) inb_S8x1_S8x1_0_0 w
  have ha' := fun (w : Vec F S8x512 .f32) => View.readCov_unit_zero (Val := Elt F) arg12.view (by decide) inb_S8x512_S8x512_0_0 w
  sl_exec (disch := first | exact hc0 | exact hc1)
  sl_step
  iapply Hk
  isplitl [H2]
  · iexists _; isplitr; rotate_left; · iexact H2
    ipureintro; exact harg2.read_unread _
  isplitl [H3]
  · iexists _; isplitr; rotate_left; · iexact H3
    ipureintro; exact harg3.read_unread _
  isplitl [H4]
  · iexists _; isplitr; rotate_left; · iexact H4
    ipureintro; exact harg4.read_unread _
  isplitl [H5]
  · iexists _; isplitr; rotate_left; · iexact H5
    ipureintro; exact harg5.read_unread _
  isplitl [H6]
  · iexists _; isplitr; rotate_left; · iexact H6
    ipureintro; exact harg6.read_unread _
  isplitl [H7]
  · iexists _; isplitr; rotate_left; · iexact H7
    ipureintro; exact harg7.read_unread _
  isplitl [H8]
  · iexists _; isplitr; rotate_left; · iexact H8
    ipureintro; exact harg8.read_unread _
  isplitl [H10]
  · iexists _; isplitr; rotate_left; · iexact H10
    ipureintro; exact (read_writes_zero_cons arg10 _ (by decide) _ _ _).trans rfl
  isplitl [H11]
  · iexists _; isplitr; rotate_left; · iexact H11
    ipureintro; exact (read_writes_zero_cons arg11 _ (by decide) _ _ _).trans rfl
  isplitl [H12]
  · iexists _; isplitr; rotate_left; · iexact H12
    ipureintro; exact (read_writes_zero_cons arg12 _ (by decide) _ _ _).trans rfl
  isplitl [H13]
  · iexists _; isplitr; rotate_left; · iexact H13
    ipureintro; exact pooled_read ..
  iexists _; isplitr; rotate_left; · iexact H9
  ipureintro; exact (read_writes_zero_cons arg9 _ (by decide) _ _ _).trans rfl

end Cert.Kernel.R1
-- ==== Proof.Bits.K1Oblig.lean ====
import proofs.«401211_j85263690760702_3_alg».proof.Proof.Bits.K1Body
import proofs.«401211_j85263690760702_3_alg».proof.Proof.Bits.K1BodyA
import proofs.«401211_j85263690760702_3_alg».proof.Proof.Bits.K1BodyC
import proofs.«401211_j85263690760702_3_alg».proof.Proof.Bits.K1Data

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

-- The three runs of the body discharge the obligation of the proof data at the tables' contents, at every point of the grid.
theorem body_obligation1 (c : Dev nD) : BodyObligation (dat1 (F := F) V c) (defs₀ (F := F)) Variants.none () Set.univ :=
  body_obligation1P (adm1 (F := F)) V c run_A run_B run_C (fun x => tb0_chk (F := F) x) (fun x => tb1_chk (F := F) x)

end Cert.Kernel.R1

end
-- ==== Proof.Bits.KRun.lean ====
import proofs.«401211_j85263690760702_3_alg».proof.Proof.Bits.KLaunch
import proofs.«401211_j85263690760702_3_alg».proof.Proof.Bits.K1Oblig

noncomputable section

namespace Cert.Kernel.Launch

open Idealize.ShloMosaic Idealize.ShloMosaic.TcCoe
open Cert.Kernel Cert.Kernel.Gen Cert.Kernel.R1

variable {F : FTy → Type} [FloatOps F]

-- Every weakly fair execution of @main terminates, in a memory as `Post` says.
theorem run (m : (ℓ : Loc nD τ sig) → Buf (Elt F) ℓ) (ρ : Dev nD → PrngReg) :
    θ_run defs (onTc (τ := τ) (main (F := F))) ⟨m, fun _ => 0, ρ⟩ (Post m) :=
  run_of m ρ fun c => body_obligation1 (V2 m) c

end Cert.Kernel.Launch

end
-- ==== Proof.RefRun.lean ====
import proofs.«401211_j85263690760702_3_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- The program's operations in order, the one call written out as the three operations of its body.
abbrev ops : List (HloOp τ sig (Elt F)) :=
  [ StableHlo.nullary main_c (fun i => lit0 (S2016.rowMajor i)),
    StableHlo.nullary main_c_0 (constantI S2016 1 0#1),
    StableHlo.nullary main_c_1 (fun i => lit1 (S2016.rowMajor i)),
    StableHlo.nullary main_c_2 (constantI S2016 1 0#1),
    StableHlo.nullary main_c_3 (constantI S2016 1 0#1),
    StableHlo.nullary main_c_4 (fun i => lit2 (S2016.rowMajor i)),
    StableHlo.nullary main_c_5 (constantI S2016 1 0#1),
    StableHlo.unary main_arg0 main_v0 ((extractStridedSlice S32x63x512 ![0, 1, 0] · slices_S32x64x512_S32x63x512_0_1_0) : (⟨S32x64x512, .f32⟩ : BufTy).Contents (Elt F) → (⟨S32x63x512, .f32⟩ : BufTy).Contents (Elt F)),
    StableHlo.nullary main_cst (constant S_ .f32 0xFF800000#32),
    StableHlo.unary main_cst main_v1 (broadcastInDim (α := Elt F .f32) S32x1x512 ![] bcast_S_S32x1x512),
    StableHlo.binary main_v0 main_v1 main_v2 ((fun a b => concatenate S32x64x512 1 [⟨S32x63x512, a⟩, ⟨S32x1x512, b⟩] concatenates_S32x63x512_S32x1x512_S32x64x512_d1) : (⟨S32x63x512, .f32⟩ : BufTy).Contents (Elt F) → (⟨S32x1x512, .f32⟩ : BufTy).Contents (Elt F) → (⟨S32x64x512, .f32⟩ : BufTy).Contents (Elt F)),
    StableHlo.binary main_arg0 main_v2 main_v3 (maximumf (F := F) (s := S32x64x512) (φ := .f32)),
    StableHlo.unary main_v3 main_v4 ((extractStridedSlice S32x62x512 ![0, 2, 0] · slices_S32x64x512_S32x62x512_0_2_0) : (⟨S32x64x512, .f32⟩ : BufTy).Contents (Elt F) → (⟨S32x62x512, .f32⟩ : BufTy).Contents (Elt F)),
    StableHlo.nullary main_cst_6 (constant S_ .f32 0xFF800000#32),
    StableHlo.unary main_cst_6 main_v5 (broadcastInDim (α := Elt F .f32) S32x2x512 ![] bcast_S_S32x2x512),
    StableHlo.binary main_v4 main_v5 main_v6 ((fun a b => concatenate S32x64x512 1 [⟨S32x62x512, a⟩, ⟨S32x2x512, b⟩] concatenates_S32x62x512_S32x2x512_S32x64x512_d1) : (⟨S32x62x512, .f32⟩ : BufTy).Contents (Elt F) → (⟨S32x2x512, .f32⟩ : BufTy).Contents (Elt F) → (⟨S32x64x512, .f32⟩ : BufTy).Contents (Elt F)),
    StableHlo.binary main_v3 main_v6 main_v7 (maximumf (F := F) (s := S32x64x512) (φ := .f32)),
    StableHlo.unary main_v7 main_v8 ((extractStridedSlice S32x60x512 ![0, 4, 0] · slices_S32x64x512_S32x60x512_0_4_0) : (⟨S32x64x512, .f32⟩ : BufTy).Contents (Elt F) → (⟨S32x60x512, .f32⟩ : BufTy).Contents (Elt F)),
    StableHlo.nullary main_cst_7 (constant S_ .f32 0xFF800000#32),
    StableHlo.unary main_cst_7 main_v9 (broadcastInDim (α := Elt F .f32) S32x4x512 ![] bcast_S_S32x4x512),
    StableHlo.binary main_v8 main_v9 main_v10 ((fun a b => concatenate S32x64x512 1 [⟨S32x60x512, a⟩, ⟨S32x4x512, b⟩] concatenates_S32x60x512_S32x4x512_S32x64x512_d1) : (⟨S32x60x512, .f32⟩ : BufTy).Contents (Elt F) → (⟨S32x4x512, .f32⟩ : BufTy).Contents (Elt F) → (⟨S32x64x512, .f32⟩ : BufTy).Contents (Elt F)),
    StableHlo.binary main_v7 main_v10 main_v11 (maximumf (F := F) (s := S32x64x512) (φ := .f32)),
    StableHlo.unary main_v11 main_v12 ((extractStridedSlice S32x56x512 ![0, 8, 0] · slices_S32x64x512_S32x56x512_0_8_0) : (⟨S32x64x512, .f32⟩ : BufTy).Contents (Elt F) → (⟨S32x56x512, .f32⟩ : BufTy).Contents (Elt F)),
    StableHlo.nullary main_cst_8 (constant S_ .f32 0xFF800000#32),
    StableHlo.unary main_cst_8 main_v13 (broadcastInDim (α := Elt F .f32) S32x8x512 ![] bcast_S_S32x8x512),
    StableHlo.binary main_v12 main_v13 main_v14 ((fun a b => concatenate S32x64x512 1 [⟨S32x56x512, a⟩, ⟨S32x8x512, b⟩] concatenates_S32x56x512_S32x8x512_S32x64x512_d1) : (⟨S32x56x512, .f32⟩ : BufTy).Contents (Elt F) → (⟨S32x8x512, .f32⟩ : BufTy).Contents (Elt F) → (⟨S32x64x512, .f32⟩ : BufTy).Contents (Elt F)),
    StableHlo.binary main_v11 main_v14 main_v15 (maximumf (F := F) (s := S32x64x512) (φ := .f32)),
    StableHlo.unary main_v15 main_v16 ((extractStridedSlice S32x48x512 ![0, 16, 0] · slices_S32x64x512_S32x48x512_0_16_0) : (⟨S32x64x512, .f32⟩ : BufTy).Contents (Elt F) → (⟨S32x48x512, .f32⟩ : BufTy).Contents (Elt F)),
    StableHlo.nullary main_cst_9 (constant S_ .f32 0xFF800000#32),
    StableHlo.unary main_cst_9 main_v17 (broadcastInDim (α := Elt F .f32) S32x16x512 ![] bcast_S_S32x16x512),
    StableHlo.binary main_v16 main_v17 main_v18 ((fun a b => concatenate S32x64x512 1 [⟨S32x48x512, a⟩, ⟨S32x16x512, b⟩] concatenates_S32x48x512_S32x16x512_S32x64x512_d1) : (⟨S32x48x512, .f32⟩ : BufTy).Contents (Elt F) → (⟨S32x16x512, .f32⟩ : BufTy).Contents (Elt F) → (⟨S32x64x512, .f32⟩ : BufTy).Contents (Elt F)),
    StableHlo.binary main_v15 main_v18 main_v19 (maximumf (F := F) (s := S32x64x512) (φ := .f32)),
    StableHlo.unary main_v19 main_v20 ((extractStridedSlice S32x32x512 ![0, 32, 0] · slices_S32x64x512_S32x32x512_0_32_0) : (⟨S32x64x512, .f32⟩ : BufTy).Contents (Elt F) → (⟨S32x32x512, .f32⟩ : BufTy).Contents (Elt F)),
    StableHlo.nullary main_cst_10 (constant S_ .f32 0xFF800000#32),
    StableHlo.unary main_cst_10 main_v21 (broadcastInDim (α := Elt F .f32) S32x32x512 ![] bcast_S_S32x32x512),
    StableHlo.binary main_v20 main_v21 main_v22 ((fun a b => concatenate S32x64x512 1 [⟨S32x32x512, a⟩, ⟨S32x32x512, b⟩] concatenates_S32x32x512_S32x32x512_S32x64x512_d1) : (⟨S32x32x512, .f32⟩ : BufTy).Contents (Elt F) → (⟨S32x32x512, .f32⟩ : BufTy).Contents (Elt F) → (⟨S32x64x512, .f32⟩ : BufTy).Contents (Elt F)),
    StableHlo.binary main_v19 main_v22 main_v23 (maximumf (F := F) (s := S32x64x512) (φ := .f32)),
    StableHlo.unary main_arg0 main_v24 (broadcastInDim (α := Elt F .f32) S1x32x64x512 ![1, 2, 3] bcast_S32x64x512_S1x32x64x512_1_2_3),
    StableHlo.unary main_v3 main_v25 (broadcastInDim (α := Elt F .f32) S1x32x64x512 ![1, 2, 3] bcast_S32x64x512_S1x32x64x512_1_2_3),
    StableHlo.unary main_v7 main_v26 (broadcastInDim (α := Elt F .f32) S1x32x64x512 ![1, 2, 3] bcast_S32x64x512_S1x32x64x512_1_2_3),
    StableHlo.unary main_v11 main_v27 (broadcastInDim (α := Elt F .f32) S1x32x64x512 ![1, 2, 3] bcast_S32x64x512_S1x32x64x512_1_2_3),
    StableHlo.unary main_v15 main_v28 (broadcastInDim (α := Elt F .f32) S1x32x64x512 ![1, 2, 3] bcast_S32x64x512_S1x32x64x512_1_2_3),
    StableHlo.unary main_v19 main_v29 (broadcastInDim (α := Elt F .f32) S1x32x64x512 ![1, 2, 3] bcast_S32x64x512_S1x32x64x512_1_2_3),
    StableHlo.unary main_v23 main_v30 (broadcastInDim (α := Elt F .f32) S1x32x64x512 ![1, 2, 3] bcast_S32x64x512_S1x32x64x512_1_2_3),
    StableHlo.nary ![main_v24, main_v25, main_v26, main_v27, main_v28, main_v29, main_v30] main_v31 (fun u => concatenate S7x32x64x512 0 [⟨S1x32x64x512, u 0⟩, ⟨S1x32x64x512, u 1⟩, ⟨S1x32x64x512, u 2⟩, ⟨S1x32x64x512, u 3⟩, ⟨S1x32x64x512, u 4⟩, ⟨S1x32x64x512, u 5⟩, ⟨S1x32x64x512, u 6⟩] concatenates_S1x32x64x512_S1x32x64x512_S1x32x64x512_S1x32x64x512_S1x32x64x512_S1x32x64x512_S1x32x64x512_S7x32x64x512_d0),
    StableHlo.nullary main_c_11 (constantI S_ 32 7#32),
    StableHlo.unary main_c_11 main_v32 (broadcastInDim (α := Elt F .i32) S2016 ![] bcast_S_S2016),
    StableHlo.binary main_c main_v32 main_v33 (addi (s := S2016) (w := 32)),
    StableHlo.ternary main_c_0 main_v33 main_c main_v34 (select (s := S2016) (α := Elt F .i32)),
    StableHlo.nullary main_c_12 (constantI S_ 32 64#32),
    StableHlo.unary main_c_12 main_v35 (broadcastInDim (α := Elt F .i32) S2016 ![] bcast_S_S2016),
    StableHlo.binary main_c_1 main_v35 main_v36 (addi (s := S2016) (w := 32)),
    StableHlo.ternary main_c_2 main_v36 main_c_1 main_v37 (select (s := S2016) (α := Elt F .i32)),
    StableHlo.unary main_v34 main_v38 (broadcastInDim (α := Elt F .i32) S2016x1 ![0] bcast_S2016_S2016x1_0),
    StableHlo.unary main_v37 main_v39 (broadcastInDim (α := Elt F .i32) S2016x1 ![0] bcast_S2016_S2016x1_0),
    StableHlo.binary main_v38 main_v39 main_v40 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v31 main_v40 main_v41 ((fun x i => Host.gather gather_S7x32x64x512_S2016x2_S2016x32x512_12_02_n_n_02_1_1321512 x i) : (⟨S7x32x64x512, .f32⟩ : BufTy).Contents (Elt F) → (⟨S2016x2, .i32⟩ : BufTy).Contents (Elt F) → (⟨S2016x32x512, .f32⟩ : BufTy).Contents (Elt F)),
    StableHlo.nullary main_c_13 (constantI S_ 32 7#32),
    StableHlo.unary main_c_13 main_v42 (broadcastInDim (α := Elt F .i32) S2016 ![] bcast_S_S2016),
    StableHlo.binary main_c main_v42 main_v43 (addi (s := S2016) (w := 32)),
    StableHlo.ternary main_c_3 main_v43 main_c main_v44 (select (s := S2016) (α := Elt F .i32)),
    StableHlo.nullary main_c_14 (constantI S_ 32 64#32),
    StableHlo.unary main_c_14 main_v45 (broadcastInDim (α := Elt F .i32) S2016 ![] bcast_S_S2016),
    StableHlo.binary main_c_4 main_v45 main_v46 (addi (s := S2016) (w := 32)),
    StableHlo.ternary main_c_5 main_v46 main_c_4 main_v47 (select (s := S2016) (α := Elt F .i32)),
    StableHlo.unary main_v44 main_v48 (broadcastInDim (α := Elt F .i32) S2016x1 ![0] bcast_S2016_S2016x1_0),
    StableHlo.unary main_v47 main_v49 (broadcastInDim (α := Elt F .i32) S2016x1 ![0] bcast_S2016_S2016x1_0),
    StableHlo.binary main_v48 main_v49 main_v50 ((fun a b => concatenate S2016x2 1 [⟨S2016x1, a⟩, ⟨S2016x1, b⟩] concatenates_S2016x1_S2016x1_S2016x2_d1) : (⟨S2016x1, .i32⟩ : BufTy).Contents (Elt F) → (⟨S2016x1, .i32⟩ : BufTy).Contents (Elt F) → (⟨S2016x2, .i32⟩ : BufTy).Contents (Elt F)),
    StableHlo.binary main_v31 main_v50 main_v51 ((fun x i => Host.gather gather_S7x32x64x512_S2016x2_S2016x32x512_12_02_n_n_02_1_1321512 x i) : (⟨S7x32x64x512, .f32⟩ : BufTy).Contents (Elt F) → (⟨S2016x2, .i32⟩ : BufTy).Contents (Elt F) → (⟨S2016x32x512, .f32⟩ : BufTy).Contents (Elt F)),
    StableHlo.binary main_v41 main_v51 main_v52 (maximumf (F := F) (s := S2016x32x512) (φ := .f32)),
    StableHlo.unary main_v52 main_v53 ((transpose S32x2016x512 [1, 0, 2] · transposes_S2016x32x512_S32x2016x512_1_0_2) : (⟨S2016x32x512, .f32⟩ : BufTy).Contents (Elt F) → (⟨S32x2016x512, .f32⟩ : BufTy).Contents (Elt F)),
    StableHlo.binary main_v53 main_arg1 main_v54 ((fun l r => Host.dotGeneral dot_S32x2016x512_S512x128_S32x2016x128_2_0_01_1_n_n none l r) : (⟨S32x2016x512, .f32⟩ : BufTy).Contents (Elt F) → (⟨S512x128, .f32⟩ : BufTy).Contents (Elt F) → (⟨S32x2016x128, .f32⟩ : BufTy).Contents (Elt F)),
    StableHlo.unary main_arg2 main_v55 (broadcastInDim (α := Elt F .f32) S1x1x128 ![2] bcast_S128_S1x1x128_2),
    StableHlo.unary main_v55 main_v56 (broadcastInDim (α := Elt F .f32) S32x2016x128 ![0, 1, 2] bcast_S1x1x128_S32x2016x128_0_1_2),
    StableHlo.binary main_v54 main_v56 main_v57 (addf (F := F) (s := S32x2016x128) (φ := .f32)),
    StableHlo.TRef.nullary main_call0.cst (constant S_ .f32 0x00000000#32),
    StableHlo.TRef.unary main_call0.cst main_call0.v0 (broadcastInDim S32x2016x128 ![] bcast_S_S32x2016x128),
    StableHlo.TRef.binary (.of main_v57) main_call0.v0 main_call0.v1 maximumf,
    StableHlo.binary main_v58 main_arg3 main_v59 ((fun l r => Host.dotGeneral dot_S32x2016x128_S128x1_S32x2016x1_2_0_01_1_n_n none l r) : (⟨S32x2016x128, .f32⟩ : BufTy).Contents (Elt F) → (⟨S128x1, .f32⟩ : BufTy).Contents (Elt F) → (⟨S32x2016x1, .f32⟩ : BufTy).Contents (Elt F)),
    StableHlo.unary main_arg4 main_v60 (broadcastInDim (α := Elt F .f32) S1x1x1 ![2] bcast_S1_S1x1x1_2),
    StableHlo.unary main_v60 main_v61 (broadcastInDim (α := Elt F .f32) S32x2016x1 ![0, 1, 2] bcast_S1x1x1_S32x2016x1_0_1_2),
    StableHlo.binary main_v59 main_v61 main_v62 (addf (F := F) (s := S32x2016x1) (φ := .f32)),
    StableHlo.nullary main_cst_15 (constant S_ .f32 0xFF800000#32),
    StableHlo.binary main_v62 main_cst_15 main_v63 ((fun x v => Host.reduce FloatOps.maximumf x v reducesTo_S32x2016x1_S32x1_d1 h_S_) : (⟨S32x2016x1, .f32⟩ : BufTy).Contents (Elt F) → (⟨S_, .f32⟩ : BufTy).Contents (Elt F) → (⟨S32x1, .f32⟩ : BufTy).Contents (Elt F)),
    StableHlo.nullary main_cst_16 (constant S_ .f32 0xFF800000#32),
    StableHlo.unary main_cst_16 main_v64 (broadcastInDim (α := Elt F .f32) S32x1 ![] bcast_S_S32x1),
    StableHlo.binary main_v64 main_v63 main_v65 (maximumf (F := F) (s := S32x1) (φ := .f32)),
    StableHlo.unary main_v65 main_v66 (broadcastInDim (α := Elt F .f32) S32x1x1 ![0, 2] bcast_S32x1_S32x1x1_0_2),
    StableHlo.unary main_v66 main_v67 (broadcastInDim (α := Elt F .f32) S32x2016x1 ![0, 1, 2] bcast_S32x1x1_S32x2016x1_0_1_2),
    StableHlo.binary main_v62 main_v67 main_v68 (subf (F := F) (s := S32x2016x1) (φ := .f32)),
    StableHlo.unary main_v68 main_v69 (Host.exp (F := F) (s := S32x2016x1) (φ := .f32)),
    StableHlo.nullary main_cst_17 (constant S_ .f32 0x00000000#32),
    StableHlo.binary main_v69 main_cst_17 main_v70 ((fun x v => Host.reduceAdd x v reducesTo_S32x2016x1_S32x1_d1 h_S_) : (⟨S32x2016x1, .f32⟩ : BufTy).Contents (Elt F) → (⟨S_, .f32⟩ : BufTy).Contents (Elt F) → (⟨S32x1, .f32⟩ : BufTy).Contents (Elt F)),
    StableHlo.unary main_v70 main_v71 (broadcastInDim (α := Elt F .f32) S32x1x1 ![0, 2] bcast_S32x1_S32x1x1_0_2),
    StableHlo.unary main_v71 main_v72 (broadcastInDim (α := Elt F .f32) S32x2016x1 ![0, 1, 2] bcast_S32x1x1_S32x2016x1_0_1_2),
    StableHlo.binary main_v69 main_v72 main_v73 (Host.divf (F := F) (s := S32x2016x1) (φ := .f32)),
    StableHlo.unary main_v73 main_v74 (broadcastInDim (α := Elt F .f32) S32x2016x512 ![0, 1, 2] bcast_S32x2016x1_S32x2016x512_0_1_2),
    StableHlo.binary main_v74 main_v53 main_v75 (mulf (F := F) (s := S32x2016x512) (φ := .f32)),
    StableHlo.nullary main_cst_18 (constant S_ .f32 0x00000000#32),
    StableHlo.binary main_v75 main_cst_18 main_v76 ((fun x v => Host.reduceAdd x v reducesTo_S32x2016x512_S32x512_d1 h_S_) : (⟨S32x2016x512, .f32⟩ : BufTy).Contents (Elt F) → (⟨S_, .f32⟩ : BufTy).Contents (Elt F) → (⟨S32x512, .f32⟩ : BufTy).Contents (Elt F)) ]

-- Sequencing re-associates by computation, so the program and the chain of its operations unfold to one term.
set_option maxRecDepth 4096 in
set_option maxHeartbeats 4000000 in
theorem main_eq (c : Dev nD) : main (F := F) c = seq ops := rfl

theorem ops_sub : (ops : List (HloOp τ sig (Elt F))).Forall fun op => op.bufs ⊆ tcRefs τ sig := by
  simp only [ops, List.Forall, TRef.nullary, TRef.unary, TRef.binary, nullary_bufs_sub, unary_bufs_sub, binary_bufs_sub,
    ternary_bufs_sub, nary_bufs_sub, and_self]

-- A straight line of operations runs to the fold of their results.
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc),
        r.2.mem ((d.tc : Thread nD τ).loc b) = StableHlo.after ops (StableHlo.launchContents m d) (Proc.devRef .tc b) :=
  run_seq (by decide) (by decide) defs main (fun _ => ops) main_eq (fun _ => ops_sub) m ρ fun _ => List.forall_iff_forall_mem.1
    (⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩ : (ops : List (HloOp τ sig (Elt F))).Forall fun op => op.fresh = ∅)

end Cert.ReferenceIdeal.RefRun

end
-- ==== Proof.RefFrame.lean ====
import proofs.«401211_j85263690760702_3_alg».proof.Proof.RefRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev args : List (Ref sig .tc) := [main_arg0, main_arg1, main_arg2, main_arg3, main_arg4]

-- Device `c`'s five argument arrays are in `mem` as they are in `m`.
def ArgsKept (m mem : (ℓ : Loc nD τ sig) → Buf (Elt F) ℓ) (c : Dev nD) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)

-- Each operation writes one buffer, its result, and no result is an argument.
theorem not_written {r : Ref sig .tc} (hr : r ∈ args) :
    ∀ op ∈ (ops : List (HloOp τ sig (Elt F))), (r : DevRef τ sig) ∉ op.writes := by
  refine List.forall_iff_forall_mem.mp ?_
  simp only [ops, List.Forall, nullary_writes, unary_writes, binary_writes, ternary_writes, nary_writes, TRef.nullary,
    TRef.unary, TRef.binary, Finset.mem_singleton]
  repeat' apply And.intro
  all_goals exact devRef_ne_of_ne fun e => absurd (e ▸ hr) (by decide)

theorem kept (V : Valuation τ sig (Elt F)) (r : Ref sig .tc) (hr : r ∈ args := by decide) : after ops V r = V r :=
  after_of_forall_not_mem ops V (not_written hr)

-- A memory that agrees with the operations' composed value has the five arguments at their launch contents.
theorem args_kept {m mem : (ℓ : Loc nD τ sig) → Buf (Elt F) ℓ}
    (h : ∀ (d : Dev nD) (b : Ref sig .tc), mem ((d.tc : Thread nD τ).loc b) = after ops (launchContents m d) b)
    (c : Dev nD) : ArgsKept m mem c :=
  ⟨(h c _).trans (kept _ main_arg0), (h c _).trans (kept _ main_arg1), (h c _).trans (kept _ main_arg2),
    (h c _).trans (kept _ main_arg3), (h c _).trans (kept _ main_arg4)⟩

theorem frame (m : (ℓ : Loc nD τ sig) → Buf (Elt F) ℓ) (ρ : Dev nD → PrngReg) :
    θ_run defs (onTc (τ := τ) (main (F := F))) ⟨m, fun _ => 0, ρ⟩ (fun r => ∀ c : Dev nD, ArgsKept m r.2.mem c) :=
  (θ_run defs _ _).mono (fun _ h => args_kept h) (run m ρ)

end Cert.ReferenceIdeal.RefRun

end
-- ==== Proof.Spec.lean ====
import Idealize.ShloMosaic.PureOps.Ideal

noncomputable section

namespace Cert.Spec

open Idealize.ShloMosaic

/-- `lvl x k i` is the maximum of `x` over the `2 ^ k` positions from `i`, those past 63 left out. -/
def lvl (x : ℕ → EReal) : ℕ → ℕ → EReal
  | 0, i => x i
  | k + 1, i => max (lvl x k i) (if i + 2 ^ k < 64 then lvl x k (i + 2 ^ k) else ⊥)

/-- The maximum over a window covered by two overlapping runs of length `2 ^ k`. -/
def pool (x : ℕ → EReal) (k s e : ℕ) : EReal := max (lvl x k s) (lvl x k e)

def hidden (p w : Fin 512 → EReal) (b : EReal) : EReal := max ((∑ h, p h * w h) + b) 0

def score (p : Fin 512 → EReal) (W1 : Fin 512 → Fin 128 → EReal) (b1 : Fin 128 → EReal) (W2 : Fin 128 → EReal)
    (b2 : EReal) : EReal :=
  (∑ a, hidden p (fun h => W1 h a) (b1 a) * W2 a) + b2

/-- The softmax-weighted sum of `p` by the scores `s`, in one pass over all `T × K` entries. -/
def softmaxSum {T K : ℕ} (s p : Fin T → Fin K → EReal) : EReal :=
  let M : EReal := max ⊥ (Finset.univ.sup fun tj : Fin T × Fin K => s tj.1 tj.2)
  let L : EReal := ∑ t, ∑ j, Ideal.exp (s t j - M)
  ∑ t, ∑ j, Ideal.div (Ideal.exp (s t j - M)) L * p t j

/-- One tile's update of the running maximum, normaliser and weighted sum. -/
def tileStep {K : ℕ} (sc pv : Fin K → EReal) (st : EReal × EReal × EReal) : EReal × EReal × EReal :=
  let m' : EReal := max st.1 (Finset.univ.sup sc)
  let α : EReal := Ideal.exp (st.1 - m')
  (m', α * st.2.1 + ∑ j, Ideal.exp (sc j - m'), α * st.2.2 + ∑ j, Ideal.exp (sc j - m') * pv j)

def tileRun {T K : ℕ} (s p : Fin T → Fin K → EReal) : ℕ → EReal × EReal × EReal
  | 0 => (⊥, 0, 0)
  | n + 1 => if h : n < T then tileStep (s ⟨n, h⟩) (p ⟨n, h⟩) (tileRun s p n) else tileRun s p n

/-- The running softmax after all `T` tiles: the weighted sum over the normaliser. -/
def online {T K : ℕ} (s p : Fin T → Fin K → EReal) : EReal :=
  Ideal.div (tileRun s p T).2.2 (tileRun s p T).2.1

end Cert.Spec

end
-- ==== Proof.RefHead.lean ====
import proofs.«401211_j85263690760702_3_alg».proof.Proof.Gen.ReferenceIdeal
import proofs.«401211_j85263690760702_3_alg».proof.Proof.Spec
import Idealize.ShloMosaic.Lib.IdealHost
import Idealize.ShloMosaic.Lib.Pipeline.Value
import Idealize.ShloMosaic.PureOps.Ideal.Laws

noncomputable section

namespace Cert.ReferenceIdeal.RefHead

open Cert.ReferenceIdeal Cert.ReferenceIdeal.Facts₀
open Idealize.ShloMosaic Idealize.ShloMosaic.ValueIdx
open scoped BigOperators

variable (P : FVec Ideal S32x2016x512 .f32) (W1 : FVec Ideal S512x128 .f32) (b1 : FVec Ideal S128 .f32)
  (W2 : FVec Ideal S128x1 .f32) (b2 : FVec Ideal S1 .f32) (sc : FVec Ideal S32x2016x1 .f32)
  (b : Fin 32) (n : Fin 2016) (h : Fin 512)

def hid1 : FVec Ideal S32x2016x128 .f32 := Host.dotGeneral (F := Ideal) dot_S32x2016x512_S512x128_S32x2016x128_2_0_01_1_n_n none P W1

def bias1 : FVec Ideal S32x2016x128 .f32 :=
  broadcastInDim S32x2016x128 ![0, 1, 2] bcast_S1x1x128_S32x2016x128_0_1_2
    (broadcastInDim S1x1x128 ![2] bcast_S128_S1x1x128_2 b1)

def act : FVec Ideal S32x2016x128 .f32 :=
  maximumf (addf (hid1 P W1) (bias1 b1)) (broadcastInDim S32x2016x128 ![] bcast_S_S32x2016x128 (constant (F := Ideal) S_ .f32 0x00000000#32))

def bias2 : FVec Ideal S32x2016x1 .f32 :=
  broadcastInDim S32x2016x1 ![0, 1, 2] bcast_S1x1x1_S32x2016x1_0_1_2 (broadcastInDim S1x1x1 ![2] bcast_S1_S1x1x1_2 b2)

def scores : FVec Ideal S32x2016x1 .f32 :=
  addf (Host.dotGeneral (F := Ideal) dot_S32x2016x128_S128x1_S32x2016x1_2_0_01_1_n_n none (act P W1 b1) W2) (bias2 b2)

def rowMax : FVec Ideal S32x1 .f32 :=
  maximumf (broadcastInDim S32x1 ![] bcast_S_S32x1 (constant (F := Ideal) S_ .f32 0xFF800000#32))
    (Host.reduce (FloatOps.maximumf (F := Ideal) (φ := .f32)) sc (constant (F := Ideal) S_ .f32 0xFF800000#32) reducesTo_S32x2016x1_S32x1_d1 h_S_)

def perWindow (v : FVec Ideal S32x1 .f32) : FVec Ideal S32x2016x1 .f32 :=
  broadcastInDim S32x2016x1 ![0, 1, 2] bcast_S32x1x1_S32x2016x1_0_1_2
    (broadcastInDim S32x1x1 ![0, 2] bcast_S32x1_S32x1x1_0_2 v)

def expo : FVec Ideal S32x2016x1 .f32 := Host.exp (subf sc (perWindow (rowMax sc)))

def norm : FVec Ideal S32x1 .f32 := Host.reduceAdd (expo sc) (constant (F := Ideal) S_ .f32 0x00000000#32) reducesTo_S32x2016x1_S32x1_d1 h_S_

def wts : FVec Ideal S32x2016x1 .f32 := Host.divf (expo sc) (perWindow (norm sc))

def weightedSum : FVec Ideal S32x512 .f32 :=
  Host.reduceAdd (mulf (broadcastInDim S32x2016x512 ![0, 1, 2] bcast_S32x2016x1_S32x2016x512_0_1_2 (wts sc)) P)
    (constant (F := Ideal) S_ .f32 0x00000000#32) reducesTo_S32x2016x512_S32x512_d1 h_S_

-- Scores of the pooled rows by a two-layer perceptron, softmax over the windows, weighted sum of the rows.
def refHead : FVec Ideal S32x512 .f32 := weightedSum P (scores P W1 b1 W2 b2)

-- Window `48 t + j` is entry `j` of tile `t`.
abbrev win (t : Fin 42) (j : Fin 48) : Fin 2016 := ⟨48 * t.val + j.val, by omega⟩

def winEquiv : Fin 42 × Fin 48 ≃ Fin 2016 := finProdFinEquiv

theorem winEquiv_apply (p : Fin 42 × Fin 48) : winEquiv p = win p.1 p.2 := Fin.ext (Nat.add_comm _ _)

theorem sum_windows {M : Type} [AddCommMonoid M] (f : Fin 2016 → M) :
    ∑ n, f n = ∑ t : Fin 42, ∑ j : Fin 48, f (win t j) := by
  rw [← Equiv.sum_comp winEquiv f, Fintype.sum_prod_type]
  exact Fintype.sum_congr _ _ fun t => Fintype.sum_congr _ _ fun j => congrArg f (winEquiv_apply (t, j))

theorem sup_windows (f : Fin 2016 → EReal) :
    Finset.univ.sup f = Finset.univ.sup fun tj : Fin 42 × Fin 48 => f (win tj.1 tj.2) := by
  rw [← Finset.univ_map_equiv_to_embedding winEquiv, Finset.sup_map]
  exact Finset.sup_congr rfl fun p _ => congrArg f (winEquiv_apply p)

theorem ofBits_negInf : Ideal.ofBits .f32 0xFF800000#32 = (⊥ : EReal) := by simp [Ideal.ofBits, Ideal.ieee]

-- A product against a weight matrix contracts the rows' last axis: at an index, the sum over that axis.
theorem dot_apply {K C : ℕ} (D : DotDims ⟨3, ![32, 2016, K]⟩ ⟨2, ![K, C]⟩ ⟨3, ![32, 2016, C]⟩) (hr : D.contr.rank = 1)
    (hs : D.contr.size ⟨0, by omega⟩ = K) (X : FVec Ideal ⟨3, ![32, 2016, K]⟩ .f32) (W : FVec Ideal ⟨2, ![K, C]⟩ .f32)
    (a : Fin C) (hl : ∀ q, D.lhsIdx (ix3 b n a) q = ix3 b n ((q ⟨0, by omega⟩).cast hs))
    (hrr : ∀ q, D.rhsIdx (ix3 b n a) q = ix2 ((q ⟨0, by omega⟩).cast hs) a) :
    Host.dotGeneral (F := Ideal) D none X W (ix3 b n a) = ∑ c : Fin K, X (ix3 b n c) * W (ix2 c a) := by
  show FloatOps.dotGeneral _ none _ X W _ = _
  rw [Ideal.dotGeneral_apply, ← Equiv.sum_comp (contrEquiv1 D K hr hs)]
  exact Finset.sum_congr rfl fun q _ => by rw [hl, hrr]; rfl

theorem hid1_apply (a : Fin 128) : hid1 P W1 (ix3 b n a) = ∑ h : Fin 512, P (ix3 b n h) * W1 (ix2 h a) :=
  dot_apply b n dot_S32x2016x512_S512x128_S32x2016x128_2_0_01_1_n_n rfl rfl P W1 a
    (fun q => by funext ax; apply Fin.ext; match ax with | ⟨0, _⟩ | ⟨1, _⟩ | ⟨2, _⟩ => rfl)
    (fun q => by funext ax; apply Fin.ext; match ax with | ⟨0, _⟩ | ⟨1, _⟩ => rfl)

theorem bias1_apply (a : Fin 128) : bias1 b1 (ix3 b n a) = b1 (ix1 a) :=
  (broadcastInDim_apply _ _ _ _ (ix3 (0 : Fin 1) (0 : Fin 1) a) fun ax => by match ax with | ⟨0, _⟩ | ⟨1, _⟩ | ⟨2, _⟩ => rfl).trans
    (broadcastInDim_apply _ _ _ _ (ix1 a) fun ax => by match ax with | ⟨0, _⟩ => rfl)

theorem bias2_apply : bias2 b2 (ix3 b n (0 : Fin 1)) = b2 (ix1 0) :=
  (broadcastInDim_apply _ _ _ _ (ix3 (0 : Fin 1) (0 : Fin 1) (0 : Fin 1)) fun ax => by match ax with | ⟨0, _⟩ | ⟨1, _⟩ | ⟨2, _⟩ => rfl).trans
    (broadcastInDim_apply _ _ _ _ (ix1 (0 : Fin 1)) fun ax => by match ax with | ⟨0, _⟩ => rfl)

theorem act_apply (a : Fin 128) :
    act P W1 b1 (ix3 b n a) = Cert.Spec.hidden (fun h => P (ix3 b n h)) (fun h => W1 (ix2 h a)) (b1 (ix1 a)) := by
  show max (hid1 P W1 (ix3 b n a) + bias1 b1 (ix3 b n a)) (Ideal.ofBits .f32 0x00000000#32) = _
  rw [hid1_apply, bias1_apply, Ideal.ofBits_zero_f32]
  rfl

theorem scores_apply :
    scores P W1 b1 W2 b2 (ix3 b n (0 : Fin 1))
      = Cert.Spec.score (fun h => P (ix3 b n h)) (fun h a => W1 (ix2 h a)) (fun a => b1 (ix1 a))
          (fun a => W2 (ix2 a 0)) (b2 (ix1 0)) := by
  show Host.dotGeneral (F := Ideal) dot_S32x2016x128_S128x1_S32x2016x1_2_0_01_1_n_n none (act P W1 b1) W2 (ix3 b n (0 : Fin 1)) + bias2 b2 (ix3 b n (0 : Fin 1)) = _
  rw [bias2_apply, dot_apply b n dot_S32x2016x128_S128x1_S32x2016x1_2_0_01_1_n_n rfl rfl _ W2 0
    (fun q => by funext ax; apply Fin.ext; match ax with | ⟨0, _⟩ | ⟨1, _⟩ | ⟨2, _⟩ => rfl)
    (fun q => by funext ax; apply Fin.ext; match ax with | ⟨0, _⟩ | ⟨1, _⟩ => rfl)]
  unfold Cert.Spec.score
  exact congrArg (· + _) (Finset.sum_congr rfl fun c _ => by rw [act_apply])

theorem perWindow_apply (v : FVec Ideal S32x1 .f32) : perWindow v (ix3 b n (0 : Fin 1)) = v (ix2 b (0 : Fin 1)) :=
  (broadcastInDim_apply _ _ _ _ (ix3 b (0 : Fin 1) (0 : Fin 1)) fun ax => by match ax with | ⟨0, _⟩ | ⟨1, _⟩ | ⟨2, _⟩ => rfl).trans
    (broadcastInDim_apply _ _ _ _ (ix2 b (0 : Fin 1)) fun ax => by match ax with | ⟨0, _⟩ | ⟨1, _⟩ => rfl)

-- The indices a reduction over the middle axis runs through at `(b, c)`.
theorem lift_mid {B N C : ℕ} (hR : (⟨3, ![B, N, C]⟩ : Shape).Reduces [1] ⟨2, ![B, C]⟩) (b : Fin B) (c : Fin C) (n : Fin N) :
    hR.lift (ix2 b c) n = ix3 b n c := by
  funext ax; apply Fin.ext
  match ax with | ⟨0, _⟩ | ⟨1, _⟩ | ⟨2, _⟩ => rfl

theorem rowMax_apply :
    rowMax sc (ix2 b (0 : Fin 1)) = max ⊥ (Finset.univ.sup fun n : Fin 2016 => sc (ix3 b n (0 : Fin 1))) := by
  have hR : S32x2016x1.Reduces [1] S32x1 := by decide
  show max (Ideal.ofBits .f32 0xFF800000#32)
    (Host.reduce (FloatOps.maximumf (F := Ideal) (φ := .f32)) sc (constant (F := Ideal) S_ .f32 0xFF800000#32) reducesTo_S32x2016x1_S32x1_d1 h_S_ (ix2 b (0 : Fin 1))) = _
  rw [Host.reduce_eq_fold_single _ sc _ reducesTo_S32x2016x1_S32x1_d1 hR h_S_, constant_apply, ofBits_negInf,
    show sc ∘ hR.lift (ix2 b (0 : Fin 1)) = fun n : Fin 2016 => sc (ix3 b n (0 : Fin 1)) from
      funext fun n => congrArg sc (lift_mid hR b 0 n)]
  rfl

theorem expo_apply :
    expo sc (ix3 b n (0 : Fin 1))
      = Ideal.exp (sc (ix3 b n (0 : Fin 1)) - max ⊥ (Finset.univ.sup fun n' : Fin 2016 => sc (ix3 b n' (0 : Fin 1)))) := by
  show Ideal.exp (sc (ix3 b n (0 : Fin 1)) - perWindow (rowMax sc) (ix3 b n (0 : Fin 1))) = _
  rw [perWindow_apply, rowMax_apply]

-- A sum over the middle axis from zero, at `(b, c)`: the sum over that axis's coordinates.
theorem reduceAdd_mid {B N C : ℕ} (x : FVec Ideal ⟨3, ![B, N, C]⟩ .f32)
    (h' : (⟨3, ![B, N, C]⟩ : Shape).ReducesTo [1] ⟨2, ![B, C]⟩) (hR : (⟨3, ![B, N, C]⟩ : Shape).Reduces [1] ⟨2, ![B, C]⟩)
    (b : Fin B) (c : Fin C) :
    Host.reduceAdd x (constant (F := Ideal) S_ .f32 0x00000000#32) h' h_S_ (ix2 b c) = ∑ n : Fin N, x (ix3 b n c) := by
  rw [hostReduceAdd_apply, Ideal.hostReduceAdd_single h' hR, constant_apply, Ideal.ofBits_zero_f32, zero_add]
  exact Finset.sum_congr rfl fun n _ => congrArg x (lift_mid hR b c n)

theorem wts_apply :
    wts sc (ix3 b n (0 : Fin 1))
      = Ideal.div (expo sc (ix3 b n (0 : Fin 1))) (∑ n' : Fin 2016, expo sc (ix3 b n' (0 : Fin 1))) := by
  show Ideal.div (expo sc (ix3 b n (0 : Fin 1))) (perWindow (norm sc) (ix3 b n (0 : Fin 1))) = _
  rw [perWindow_apply]
  exact congrArg _ (reduceAdd_mid (expo sc) _ (by decide) b 0)

theorem weightedSum_apply :
    weightedSum P sc (ix2 b h) = ∑ n : Fin 2016, wts sc (ix3 b n (0 : Fin 1)) * P (ix3 b n h) :=
  (reduceAdd_mid _ _ (by decide) b h).trans (Finset.sum_congr rfl fun n _ => by
    rw [mulf_apply, broadcastInDim_apply _ _ _ _ (ix3 b n (0 : Fin 1)) fun ax => by match ax with | ⟨0, _⟩ | ⟨1, _⟩ | ⟨2, _⟩ => rfl])

-- A softmax-weighted sum over the 2016 windows, regrouped into 42 tiles of 48.
theorem softmax_windows (s p : Fin 2016 → EReal) :
    (∑ n, Ideal.div (Ideal.exp (s n - max ⊥ (Finset.univ.sup s)))
        (∑ n', Ideal.exp (s n' - max ⊥ (Finset.univ.sup s))) * p n)
      = Cert.Spec.softmaxSum (T := 42) (K := 48) (fun t j => s (win t j)) (fun t j => p (win t j)) := by
  unfold Cert.Spec.softmaxSum
  rw [sup_windows s, sum_windows fun n' => Ideal.exp (s n' - _)]
  exact sum_windows _

theorem refHead_apply :
    refHead P W1 b1 W2 b2 (ix2 b h) =
      Cert.Spec.softmaxSum (T := 42) (K := 48)
        (fun t j => Cert.Spec.score (fun h' => P (ix3 b (win t j) h')) (fun h' a => W1 (ix2 h' a))
          (fun a => b1 (ix1 a)) (fun a => W2 (ix2 a 0)) (b2 (ix1 0)))
        (fun t j => P (ix3 b (win t j) h)) := by
  unfold refHead
  rw [weightedSum_apply]
  simp only [wts_apply, expo_apply, scores_apply]
  exact softmax_windows _ _

end Cert.ReferenceIdeal.RefHead

end
-- ==== Proof.RefValue.lean ====
import proofs.«401211_j85263690760702_3_alg».proof.Proof.RefRun
import proofs.«401211_j85263690760702_3_alg».proof.Proof.RefFrame
import proofs.«401211_j85263690760702_3_alg».proof.Proof.RefHead
import Idealize.ShloMosaic.Lib.Pipeline.Frame

noncomputable section

namespace Cert.ReferenceIdeal.RefValue

open Cert.ReferenceIdeal Cert.ReferenceIdeal.Facts₀ Cert.ReferenceIdeal.RefHead
open Idealize.ShloMosaic Idealize.ShloMosaic.TcCoe Idealize.SL.Sem Idealize.ShloMosaic.StableHlo

variable (W : Valuation τ sig (Elt Ideal))

set_option maxHeartbeats 1600000 in
-- The last 29 operations compute the head from the pooled buffer and the four weight arrays.
theorem tail_value :
    after ((RefRun.ops (F := Ideal)).drop 71) W main_v76
      = refHead (W main_v53) (W main_arg1) (W main_arg2) (W main_arg3) (W main_arg4) := by
  simp only [RefRun.ops, List.drop_succ_cons, List.drop_zero]
  after_results_simp
  rfl

theorem head_kept (r : Ref sig .tc) (hr : r ∈ RefRun.args := by decide) :
    after ((RefRun.ops (F := Ideal)).take 71) W r = W r :=
  after_of_forall_not_mem _ W fun op hop => RefRun.not_written hr op (List.mem_of_mem_take hop)

end Cert.ReferenceIdeal.RefValue

end
-- ==== Proof.RefTable.lean ====
import proofs.«401211_j85263690760702_3_alg».proof.Proof.Gen.ReferenceIdeal
import proofs.«401211_j85263690760702_3_alg».proof.Proof.Spec
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefRun

open Cert.ReferenceIdeal Cert.ReferenceIdeal.Gen Idealize.ShloMosaic Idealize.ShloMosaic.ValueIdx

local notation "G" => gather_S7x32x64x512_S2016x2_S2016x32x512_12_02_n_n_02_1_1321512

-- A table joined with itself moved `o` positions down axis 1, `-∞` filling the last `o` positions.
def shiftMax (o m : ℕ) (hs : S32x64x512.Slices ![0, o, 0] ⟨3, ![32, m, 512]⟩)
    (hb : S_.BroadcastsInDim ⟨3, ![32, o, 512]⟩ (![] : Fin 0 → Fin 3))
    (hc : Shape.Concatenates [⟨3, ![32, m, 512]⟩, ⟨3, ![32, o, 512]⟩] S32x64x512 1) (y : FVec Ideal S32x64x512 .f32) : FVec Ideal S32x64x512 .f32 :=
  maximumf y (concatenate S32x64x512 1
    [⟨⟨3, ![32, m, 512]⟩, extractStridedSlice ⟨3, ![32, m, 512]⟩ ![0, o, 0] y hs⟩,
     ⟨⟨3, ![32, o, 512]⟩, broadcastInDim ⟨3, ![32, o, 512]⟩ ![] hb (constant (F := Ideal) S_ .f32 0xFF800000#32)⟩] hc)

def step1 (y : FVec Ideal S32x64x512 .f32) : FVec Ideal S32x64x512 .f32 :=
  shiftMax 1 63 slices_S32x64x512_S32x63x512_0_1_0 bcast_S_S32x1x512 concatenates_S32x63x512_S32x1x512_S32x64x512_d1 y

def step2 (y : FVec Ideal S32x64x512 .f32) : FVec Ideal S32x64x512 .f32 :=
  shiftMax 2 62 slices_S32x64x512_S32x62x512_0_2_0 bcast_S_S32x2x512 concatenates_S32x62x512_S32x2x512_S32x64x512_d1 y

def step3 (y : FVec Ideal S32x64x512 .f32) : FVec Ideal S32x64x512 .f32 :=
  shiftMax 4 60 slices_S32x64x512_S32x60x512_0_4_0 bcast_S_S32x4x512 concatenates_S32x60x512_S32x4x512_S32x64x512_d1 y

def step4 (y : FVec Ideal S32x64x512 .f32) : FVec Ideal S32x64x512 .f32 :=
  shiftMax 8 56 slices_S32x64x512_S32x56x512_0_8_0 bcast_S_S32x8x512 concatenates_S32x56x512_S32x8x512_S32x64x512_d1 y

def step5 (y : FVec Ideal S32x64x512 .f32) : FVec Ideal S32x64x512 .f32 :=
  shiftMax 16 48 slices_S32x64x512_S32x48x512_0_16_0 bcast_S_S32x16x512 concatenates_S32x48x512_S32x16x512_S32x64x512_d1 y

def step6 (y : FVec Ideal S32x64x512 .f32) : FVec Ideal S32x64x512 .f32 :=
  shiftMax 32 32 slices_S32x64x512_S32x32x512_0_32_0 bcast_S_S32x32x512 concatenates_S32x32x512_S32x32x512_S32x64x512_d1 y

def tab1 (x : FVec Ideal S32x64x512 .f32) : FVec Ideal S32x64x512 .f32 := step1 (x)
def tab2 (x : FVec Ideal S32x64x512 .f32) : FVec Ideal S32x64x512 .f32 := step2 (tab1 x)
def tab3 (x : FVec Ideal S32x64x512 .f32) : FVec Ideal S32x64x512 .f32 := step3 (tab2 x)
def tab4 (x : FVec Ideal S32x64x512 .f32) : FVec Ideal S32x64x512 .f32 := step4 (tab3 x)
def tab5 (x : FVec Ideal S32x64x512 .f32) : FVec Ideal S32x64x512 .f32 := step5 (tab4 x)
def tab6 (x : FVec Ideal S32x64x512 .f32) : FVec Ideal S32x64x512 .f32 := step6 (tab5 x)

def up (y : FVec Ideal S32x64x512 .f32) : FVec Ideal S1x32x64x512 .f32 :=
  broadcastInDim S1x32x64x512 ![1, 2, 3] bcast_S32x64x512_S1x32x64x512_1_2_3 y

-- Levels 0 to 6 of the running-maximum table, level `k` joining level `k - 1` with itself moved `2 ^ (k - 1)` on.
def stack (x : FVec Ideal S32x64x512 .f32) : FVec Ideal S7x32x64x512 .f32 :=
  concatenate S7x32x64x512 0
    [⟨S1x32x64x512, up x⟩, ⟨S1x32x64x512, up (tab1 x)⟩, ⟨S1x32x64x512, up (tab2 x)⟩, ⟨S1x32x64x512, up (tab3 x)⟩,
     ⟨S1x32x64x512, up (tab4 x)⟩, ⟨S1x32x64x512, up (tab5 x)⟩, ⟨S1x32x64x512, up (tab6 x)⟩]
    concatenates_S1x32x64x512_S1x32x64x512_S1x32x64x512_S1x32x64x512_S1x32x64x512_S1x32x64x512_S1x32x64x512_S7x32x64x512_d0

def startIdx (pos : Fin 2016 → BitVec 32) : IVec S2016x2 32 :=
  concatenate S2016x2 1
    [⟨S2016x1, broadcastInDim S2016x1 ![0] bcast_S2016_S2016x1_0
        (select (constantI S2016 1 0#1)
          (addi (fun i : S2016.Idx => lit0 (S2016.rowMajor i)) (broadcastInDim S2016 ![] bcast_S_S2016 (constantI S_ 32 7#32)))
          (fun i : S2016.Idx => lit0 (S2016.rowMajor i)))⟩,
     ⟨S2016x1, broadcastInDim S2016x1 ![0] bcast_S2016_S2016x1_0
        (select (constantI S2016 1 0#1)
          (addi (fun i : S2016.Idx => pos (S2016.rowMajor i)) (broadcastInDim S2016 ![] bcast_S_S2016 (constantI S_ 32 64#32)))
          (fun i : S2016.Idx => pos (S2016.rowMajor i)))⟩]
    concatenates_S2016x1_S2016x1_S2016x2_d1

-- The pooled tensor: per window the larger of two entries of one level of the running-maximum table.
def refPooled (x : FVec Ideal S32x64x512 .f32) : FVec Ideal S32x2016x512 .f32 :=
  transpose S32x2016x512 [1, 0, 2]
    (maximumf (Host.gather G (stack x) (startIdx lit1)) (Host.gather G (stack x) (startIdx lit2)))
    transposes_S2016x32x512_S32x2016x512_1_0_2

set_option maxRecDepth 100000 in
set_option maxHeartbeats 4000000 in
theorem lit_bounds : ∀ n : Fin 2016, (lit0 n).toNat ≤ 6 ∧ (lit1 n).toNat ≤ 63 ∧ (lit2 n).toNat ≤ 63 := by
  decide +kernel

theorem negInf_eq_bot : Ideal.ofBits .f32 0xFF800000#32 = (⊥ : EReal) := by
  simp [Ideal.ofBits, Ideal.ieee]

variable (x y : FVec Ideal S32x64x512 .f32) (b : Fin 32) (i : Fin 64) (h : Fin 512)

-- Read at an index: the entry joined with the one `o` positions on, `-∞` when that is past the end.
theorem level_step (o m : ℕ) (hs : S32x64x512.Slices ![0, o, 0] ⟨3, ![32, m, 512]⟩)
    (hb : S_.BroadcastsInDim ⟨3, ![32, o, 512]⟩ (![] : Fin 0 → Fin 3))
    (hc : Shape.Concatenates [⟨3, ![32, m, 512]⟩, ⟨3, ![32, o, 512]⟩] S32x64x512 1) (hm : m + o = 64) :
    shiftMax o m hs hb hc y (ix3 b i h)
      = max (y (ix3 b i h)) (if hi : i.val + o < 64 then y (ix3 b ⟨i.val + o, hi⟩ h) else ⊥) := by
  unfold shiftMax
  rw [maximumf_apply]
  congr 1
  by_cases hi : i.val + o < 64
  · rw [dif_pos hi, concatenate_pair_apply_left (s₁ := ⟨3, ![32, m, 512]⟩) (s₂ := ⟨3, ![32, o, 512]⟩) (1 : Fin 3) _ _ hc
      (ix3 b i h) rfl (ix3 b (⟨i.val, by omega⟩ : Fin m) h) fun a => by match a with | ⟨0, _⟩ | ⟨1, _⟩ | ⟨2, _⟩ => rfl]
    exact slice3_axis1_apply o y hs b _ h ⟨i.val + o, hi⟩ (Nat.add_comm _ _)
  · rw [dif_neg hi, concatenate_pair_apply_right (s₁ := ⟨3, ![32, m, 512]⟩) (s₂ := ⟨3, ![32, o, 512]⟩) (1 : Fin 3) _ _ hc
      (ix3 b i h) rfl rfl (ix3 b (⟨i.val - m, by omega⟩ : Fin o) h)
      (fun a ha => by match a with | ⟨0, _⟩ | ⟨2, _⟩ => rfl | ⟨1, _⟩ => exact absurd rfl ha)
      (by show i.val - m + m = i.val; omega), broadcastInDim_scalar_apply, constant_apply, negInf_eq_bot]

-- One batch row and channel of the input along the 64 positions, `-∞` past the end.
def row : ℕ → EReal := fun i => if hi : i < 64 then x (ix3 b ⟨i, hi⟩ h) else ⊥

-- If `y` is level `k` of a row and `y'` joins it with itself moved `2 ^ k` on, then `y'` is level `k + 1`.
theorem lvl_succ_of (X : ℕ → EReal) (k o : ℕ) (ho : o = 2 ^ k) (y' : FVec Ideal S32x64x512 .f32)
    (hy : ∀ i : Fin 64, y (ix3 b i h) = Cert.Spec.lvl X k i.val)
    (hy' : ∀ i : Fin 64, y' (ix3 b i h)
      = max (y (ix3 b i h)) (if hi : i.val + o < 64 then y (ix3 b ⟨i.val + o, hi⟩ h) else ⊥)) :
    y' (ix3 b i h) = Cert.Spec.lvl X (k + 1) i.val := by
  rw [hy', hy i]; subst ho
  show _ = max (Cert.Spec.lvl X k i.val) (if i.val + 2 ^ k < 64 then Cert.Spec.lvl X k (i.val + 2 ^ k) else ⊥)
  congr 1
  by_cases hi : i.val + 2 ^ k < 64
  · rw [dif_pos hi, if_pos hi, hy ⟨_, hi⟩]
  · rw [dif_neg hi, if_neg hi]

theorem up_apply (u : Fin 1) : up y (ix4 u b i h) = y (ix3 b i h) :=
  broadcastInDim_apply _ _ y (ix4 u b i h) (ix3 b i h) fun a => by match a with | ⟨0, _⟩ | ⟨1, _⟩ | ⟨2, _⟩ => rfl

-- Level by level, the stacked table at (level, batch row, position, channel) is that level of the row.
theorem stack_apply (k : Fin 7) : stack x (ix4 k b i h) = Cert.Spec.lvl (row x b h) k.val i.val := by
  have t0 : ∀ i : Fin 64, x (ix3 b i h) = Cert.Spec.lvl (row x b h) 0 i.val := fun i => by
    show _ = row x b h i.val
    unfold row
    rw [dif_pos i.isLt]
  have t1 := fun i => lvl_succ_of x b i h _ 0 1 rfl (tab1 x) t0 fun i => level_step x b i h 1 63 _ _ _ rfl
  have t2 := fun i => lvl_succ_of _ b i h _ 1 2 rfl (tab2 x) t1 fun i => level_step _ b i h 2 62 _ _ _ rfl
  have t3 := fun i => lvl_succ_of _ b i h _ 2 4 rfl (tab3 x) t2 fun i => level_step _ b i h 4 60 _ _ _ rfl
  have t4 := fun i => lvl_succ_of _ b i h _ 3 8 rfl (tab4 x) t3 fun i => level_step _ b i h 8 56 _ _ _ rfl
  have t5 := fun i => lvl_succ_of _ b i h _ 4 16 rfl (tab5 x) t4 fun i => level_step _ b i h 16 48 _ _ _ rfl
  have t6 := fun i => lvl_succ_of _ b i h _ 5 32 rfl (tab6 x) t5 fun i => level_step _ b i h 32 32 _ _ _ rfl
  refine (concatenate_ofFn_unit_apply (t := S7x32x64x512) (s₁ := S1x32x64x512) (0 : Fin 4)
    (fun k => up (![x, tab1 x, tab2 x, tab3 x, tab4 x, tab5 x, tab6 x] k)) _ rfl rfl (ix4 k b i h) k rfl (ix4 0 b i h)
    fun a ha => by match a with | ⟨0, _⟩ => exact absurd rfl ha | ⟨1, _⟩ | ⟨2, _⟩ | ⟨3, _⟩ => rfl).trans ?_
  rw [up_apply]
  match k with
  | ⟨0, _⟩ => exact t0 i
  | ⟨1, _⟩ => exact t1 i
  | ⟨2, _⟩ => exact t2 i
  | ⟨3, _⟩ => exact t3 i
  | ⟨4, _⟩ => exact t4 i
  | ⟨5, _⟩ => exact t5 i
  | ⟨6, _⟩ => exact t6 i

section Gather
variable {s si t : Shape} (d : GatherDims s si t) {w : ℕ} (j : t.Idx) (idx : IVec si w) (a : Fin s.rank)

-- On an axis a start word addresses, the coordinate read is that word, when it is in range.
theorem coord_start (hb : a ∉ d.operandBatchingDims) (ha : a ∈ d.startIndexMap) (hk : a ∉ d.sKept) (c : si.Idx) (v : ℕ)
    (hc : d.siIdx j ⟨_, List.idxOf_lt_length_iff.2 ha⟩ = c) (hv : (idx c).toInt.toNat = v)
    (hle : v ≤ s.size a - d.sliceSizes a) : d.start j idx a + d.batchCoord j a + d.offCoord j a = v := by
  rw [d.batchCoord_eq_zero _ _ hb, d.offCoord_eq_zero _ _ hk]
  unfold GatherDims.start
  rw [dif_pos ha, hc, hv]
  exact Nat.min_eq_left hle

-- On an axis copied whole, the coordinate read is the result index's own on the matching axis.
theorem coord_off (hb : a ∉ d.operandBatchingDims) (ha : a ∉ d.startIndexMap) (hk : a ∈ d.sKept) (o : Fin t.rank)
    (ho : ∀ p, d.offsetDims[d.sKept.idxOf a]'p = o) : d.start j idx a + d.batchCoord j a + d.offCoord j a = (j o).val := by
  rw [d.batchCoord_eq_zero _ _ hb]
  unfold GatherDims.start GatherDims.offCoord
  rw [dif_neg ha, dif_pos hk, ho]
  omega

end Gather

-- Window `n` of a gather reads the table at the level and position its two start words name, read signed.
theorem gather_apply {α : Type} (y : S7x32x64x512.Idx → α) (idx : IVec S2016x2 32) (n : Fin 2016) (b : Fin 32) (h : Fin 512)
    (k : Fin 7) (p : Fin 64) (hk : (idx (ix2 n (0 : Fin 2))).toInt.toNat = k.val)
    (hp : (idx (ix2 n (1 : Fin 2))).toInt.toNat = p.val) :
    Host.gather G y idx (ix3 n b h) = y (ix4 k b p h) := by
  unfold Host.gather
  congr 1
  funext a
  refine Fin.ext ?_
  have hsi : ∀ c : Fin 2, GatherDims.siIdx G (ix3 n b h) c = ix2 n c := fun c => by
    funext e; refine Fin.ext ?_
    match e with | ⟨0, _⟩ | ⟨1, _⟩ => rfl
  match a with
  | ⟨0, _⟩ => exact coord_start G _ idx 0 (by decide) (by decide) (by decide) (ix2 n 0) k.val (hsi 0) hk (by show k.val ≤ 6; omega)
  | ⟨1, _⟩ => exact coord_off G _ idx 1 (by decide) (by decide) (by decide) 1 (by decide)
  | ⟨2, _⟩ => exact coord_start G _ idx 2 (by decide) (by decide) (by decide) (ix2 n 1) p.val (hsi 1) hp (by show p.val ≤ 63; omega)
  | ⟨3, _⟩ => exact coord_off G _ idx 3 (by decide) (by decide) (by decide) 2 (by decide)

theorem lit_rowMajor (f : Fin 2016 → BitVec 32) (n : Fin 2016) : f (S2016.rowMajor (ix1 n)) = f n :=
  congrArg f (Fin.ext (Shape.rowMajor_val_one (ix1 n)))

-- The two start words of window `n`: its level word and its position word.
theorem startIdx_apply (pos : Fin 2016 → BitVec 32) (n : Fin 2016) :
    startIdx pos (ix2 n (0 : Fin 2)) = lit0 n ∧ startIdx pos (ix2 n (1 : Fin 2)) = pos n := by
  unfold startIdx
  constructor
  · rw [concatenate_pair_apply_left (s₁ := S2016x1) (s₂ := S2016x1) (1 : Fin 2) _ _ _ (ix2 n (0 : Fin 2)) rfl (ix2 n (0 : Fin 1))
      fun a => by match a with | ⟨0, _⟩ | ⟨1, _⟩ => rfl]
    rw [broadcastInDim_apply _ _ _ (ix2 n (0 : Fin 1)) (ix1 n) fun a => by match a with | ⟨0, _⟩ => rfl, select_apply,
      constantI_apply, select_zero]
    exact lit_rowMajor lit0 n
  · rw [concatenate_pair_apply_right (s₁ := S2016x1) (s₂ := S2016x1) (1 : Fin 2) _ _ _ (ix2 n (1 : Fin 2)) rfl rfl (ix2 n (0 : Fin 1))
      (fun a ha => by match a with | ⟨0, _⟩ => rfl | ⟨1, _⟩ => exact absurd rfl ha) rfl]
    rw [broadcastInDim_apply _ _ _ (ix2 n (0 : Fin 1)) (ix1 n) fun a => by match a with | ⟨0, _⟩ => rfl, select_apply,
      constantI_apply, select_zero]
    exact lit_rowMajor pos n

theorem toInt_toNat_of_le (w : BitVec 32) (c : ℕ) (hc : c < 2 ^ 31) (hw : w.toNat ≤ c) : w.toInt.toNat = w.toNat := by
  have e := BitVec.toInt_eq_toNat_cond w
  have := w.isLt
  omega

theorem gather_stack_apply (pos : Fin 2016 → BitVec 32) (n : Fin 2016) (hpos : (pos n).toNat ≤ 63) :
    Host.gather G (stack x) (startIdx pos) (ix3 n b h) = Cert.Spec.lvl (row x b h) (lit0 n).toNat (pos n).toNat := by
  have h0 := (lit_bounds n).1
  rw [gather_apply (stack x) (startIdx pos) n b h ⟨(lit0 n).toNat, by omega⟩ ⟨(pos n).toNat, by omega⟩
    (by rw [(startIdx_apply pos n).1]; exact toInt_toNat_of_le _ 6 (by decide) h0)
    (by rw [(startIdx_apply pos n).2]; exact toInt_toNat_of_le _ 63 (by decide) hpos)]
  exact stack_apply x b _ h _

-- The pooled tensor at an index: the specification's pooled value of the row at the window's level and two positions.
theorem refPooled_apply (n : Fin 2016) (h : Fin 512) :
    refPooled x (ix3 b n h)
      = Cert.Spec.pool (fun i => if hi : i < 64 then x (ix3 b ⟨i, hi⟩ h) else ⊥)
          (lit0 n).toNat (lit1 n).toNat (lit2 n).toNat := by
  unfold refPooled
  rw [transpose_apply _ _ _ (ix3 b n h) (ix3 n b h) fun a => by match a with | ⟨0, _⟩ | ⟨1, _⟩ | ⟨2, _⟩ => rfl, maximumf_apply,
    gather_stack_apply x b h lit1 n (lit_bounds n).2.1, gather_stack_apply x b h lit2 n (lit_bounds n).2.2]
  rfl

end Cert.ReferenceIdeal.RefRun

end
-- ==== Proof.RefPooledRun.lean ====
import proofs.«401211_j85263690760702_3_alg».proof.Proof.RefRun
import proofs.«401211_j85263690760702_3_alg».proof.Proof.RefTable
import Idealize.ShloMosaic.PureOps.Ideal
import Idealize.ShloMosaic.Lib.Pipeline.Frame

noncomputable section

namespace Cert.ReferenceIdeal.RefRun

open Cert.ReferenceIdeal Cert.ReferenceIdeal.Gen
open Idealize.ShloMosaic Idealize.ShloMosaic.TcCoe Idealize.SL.Sem Idealize.ShloMosaic.StableHlo

variable (V : Valuation τ sig (Elt Ideal))

-- The start indices of a gather: the level and position words, each moved by its extent where its mask says so.
def idxOf (lev : IVec S2016 32) (m1 : IVec S2016 1) (pos : IVec S2016 32) (m2 : IVec S2016 1) : IVec S2016x2 32 :=
  concatenate S2016x2 1
    [⟨S2016x1, broadcastInDim S2016x1 ![0] bcast_S2016_S2016x1_0
        (select m1 (addi lev (broadcastInDim S2016 ![] bcast_S_S2016 (constantI S_ 32 7#32))) lev)⟩,
     ⟨S2016x1, broadcastInDim S2016x1 ![0] bcast_S2016_S2016x1_0
        (select m2 (addi pos (broadcastInDim S2016 ![] bcast_S_S2016 (constantI S_ 32 64#32))) pos)⟩]
    concatenates_S2016x1_S2016x1_S2016x2_d1

-- The seven level tensors stacked, gathered from at two arrays of start indices, maximised, the window axis moved second.
def pooledFrom (l0 l1 l2 l3 l4 l5 l6 : FVec Ideal S1x32x64x512 .f32) (i1 i2 : IVec S2016x2 32) : FVec Ideal S32x2016x512 .f32 :=
  let T := concatenate S7x32x64x512 0
    [⟨S1x32x64x512, l0⟩, ⟨S1x32x64x512, l1⟩, ⟨S1x32x64x512, l2⟩, ⟨S1x32x64x512, l3⟩, ⟨S1x32x64x512, l4⟩, ⟨S1x32x64x512, l5⟩,
     ⟨S1x32x64x512, l6⟩]
    concatenates_S1x32x64x512_S1x32x64x512_S1x32x64x512_S1x32x64x512_S1x32x64x512_S1x32x64x512_S1x32x64x512_S7x32x64x512_d0
  transpose S32x2016x512 [1, 0, 2]
    (maximumf (Host.gather gather_S7x32x64x512_S2016x2_S2016x32x512_12_02_n_n_02_1_1321512 T i1)
      (Host.gather gather_S7x32x64x512_S2016x2_S2016x32x512_12_02_n_n_02_1_1321512 T i2))
    transposes_S2016x32x512_S32x2016x512_1_0_2

-- Operations 44 … 70 compute the pooled tensor from the seven levels and the index words.
theorem pooled_drop :
    after (((ops (F := Ideal)).drop 44).take 27) V main_v53
      = pooledFrom (V main_v24) (V main_v25) (V main_v26) (V main_v27) (V main_v28) (V main_v29) (V main_v30)
          (idxOf (V main_c) (V main_c_0) (V main_c_1) (V main_c_2)) (idxOf (V main_c) (V main_c_3) (V main_c_4) (V main_c_5)) := by
  simp only [ops, List.drop_succ_cons, List.drop_zero, List.take_succ_cons, List.take_zero]
  after_results_simp
  rfl

-- The concatenation of two tensors along an axis, as a function of the two.
def cat2 {α : Type} {t : Shape} {ax : Fin t.rank} {s₁ s₂ : Shape} (h : Shape.Concatenates [s₁, s₂] t ax)
    (a : s₁.Idx → α) (b : s₂.Idx → α) : t.Idx → α :=
  concatenate t ax [⟨s₁, a⟩, ⟨s₂, b⟩] h

theorem cat2_eq {α : Type} {t : Shape} {ax : Fin t.rank} {s₁ s₂ : Shape} (h : Shape.Concatenates [s₁, s₂] t ax)
    (a : s₁.Idx → α) (b : s₂.Idx → α) : concatenate t ax [⟨s₁, a⟩, ⟨s₂, b⟩] h = cat2 h a b := rfl

-- The first 44 operations compute the seven levels of the input and the index words.
theorem pooled_take : after ((ops (F := Ideal)).take 71) V main_v53 = refPooled (V main_arg0) := by
  rw [show (ops (F := Ideal)).take 71 = _ from List.take_add (i := 44) (j := 27), after_append, pooled_drop]
  simp (disch := decide) only [ops, List.take_succ_cons, List.take_zero, after_cons, after_nil, cat2_eq, nullary_result', unary_result',
    binary_result', nullary_result_ne', unary_result_ne', binary_result_ne']
  rfl

end Cert.ReferenceIdeal.RefRun

end
-- ==== Proof.RefFinal.lean ====
import proofs.«401211_j85263690760702_3_alg».proof.Proof.RefValue
import proofs.«401211_j85263690760702_3_alg».proof.Proof.RefTable
import proofs.«401211_j85263690760702_3_alg».proof.Proof.RefPooledRun

noncomputable section

namespace Cert.ReferenceIdeal.RefValue

open Cert.ReferenceIdeal Cert.ReferenceIdeal.Facts₀ Cert.ReferenceIdeal.RefHead
open Idealize.ShloMosaic Idealize.ShloMosaic.TcCoe Idealize.SL.Sem Idealize.ShloMosaic.StableHlo

-- The first 71 operations leave the pooled tensor and keep the weights; the last 29 apply the head.
theorem value (W : Valuation τ sig (Elt Ideal)) :
    after (RefRun.ops (F := Ideal)) W main_v76
      = refHead (RefRun.refPooled (W main_arg0)) (W main_arg1) (W main_arg2) (W main_arg3) (W main_arg4) := by
  rw [← List.take_append_drop 71 (RefRun.ops (F := Ideal)), after_append, tail_value, RefRun.pooled_take,
    head_kept W main_arg1, head_kept W main_arg2, head_kept W main_arg3, head_kept W main_arg4]

-- Every run of the reference ends with the head of the pooled input in its result and its arguments as they were.
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76)
        = refHead (RefRun.refPooled (m ((c.tc : Thread nD τ).loc main_arg0))) (m ((c.tc : Thread nD τ).loc main_arg1))
            (m ((c.tc : Thread nD τ).loc main_arg2)) (m ((c.tc : Thread nD τ).loc main_arg3))
            (m ((c.tc : Thread nD τ).loc main_arg4))
      ∧ RefRun.ArgsKept m r.2.mem c) :=
  (θ_run defs _ _).mono (fun _ h c => ⟨(h c _).trans (value _), RefRun.args_kept h c⟩) (RefRun.run m ρ)

end Cert.ReferenceIdeal.RefValue

end
-- ==== Proof.Finite.lean ====
import proofs.«401211_j85263690760702_3_alg».proof.Proof.Gen.Pre_finite_inputs
import Idealize.ShloMosaic.Lib.ReduceAll
import Idealize.ShloMosaic.PureOps.Ideal

noncomputable section

namespace Cert.Finite

open Idealize.ShloMosaic Cert.Pre_finite_inputs

instance : Subsingleton S_.Idx := ⟨fun a b => funext fun d => d.elim0⟩

/-- An extended real whose absolute value is below `⊤` is a real. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- The precondition says every entry of every input is a real. -/
theorem finite_of_pre [Cert.Pre_finite_inputs.Facts]
    (x0 : FVec Ideal S32x64x512 .f32) (x1 : FVec Ideal S512x128 .f32) (x2 : FVec Ideal S128 .f32)
    (x3 : FVec Ideal S128x1 .f32) (x4 : FVec Ideal S1 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) := by
  have e := congrFun h (fun d => d.elim0)
  dsimp only [fn, fn_part1, andi] at e
  rw [IntOp.andi_eq_one, IntOp.andi_eq_one, IntOp.andi_eq_one, IntOp.andi_eq_one] at e
  obtain ⟨⟨⟨⟨e0, e1⟩, e2⟩, e3⟩, e4⟩ := e
  exact ⟨fun i => real_of_abs_lt (x0 i) (Host.reduce_andi_all _ _ _ _ _ e0 i),
    fun i => real_of_abs_lt (x1 i) (Host.reduce_andi_all _ _ _ _ _ e1 i),
    fun i => real_of_abs_lt (x2 i) (Host.reduce_andi_all _ _ _ _ _ e2 i),
    fun i => real_of_abs_lt (x3 i) (Host.reduce_andi_all _ _ _ _ _ e3 i),
    fun i => real_of_abs_lt (x4 i) (Host.reduce_andi_all _ _ _ _ _ e4 i)⟩

end Cert.Finite

end
-- ==== Proof.OnlineSoftmax.lean ====
import proofs.«401211_j85263690760702_3_alg».proof.Proof.Spec
import Mathlib.Data.EReal.Inv
import Mathlib.Analysis.SpecialFunctions.Exp
import Mathlib.Algebra.BigOperators.Group.Finset.Basic
import Mathlib.Algebra.BigOperators.Ring.Finset
import Mathlib.Algebra.Order.BigOperators.Group.Finset
import Mathlib.Order.Fin.Basic
import Mathlib.Data.Finset.Lattice.Fold
import Mathlib.Data.Finset.Lattice.Prod
import Mathlib.Data.Fintype.Prod

noncomputable section

namespace Cert.Spec

open Idealize.ShloMosaic

theorem coe_finset_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

theorem coe_max (a b : ℝ) : ((max a b : ℝ) : EReal) = max (a : EReal) (b : EReal) :=
  EReal.coe_strictMono.monotone.map_max

/-- Against a real maximum every exponential term is real. -/
theorem exp_sub_coe (x m : ℝ) : Ideal.exp ((x : EReal) - (m : EReal)) = ((Real.exp (x - m) : ℝ) : EReal) := by
  rw [← EReal.coe_sub, Ideal.exp_coe]

section Step

variable {K : ℕ} (sc pv : Fin K → ℝ)

theorem tileStep_coe (m m' l a : ℝ)
    (hm' : max (m : EReal) (Finset.univ.sup fun j => ((sc j : ℝ) : EReal)) = (m' : EReal)) :
    tileStep (fun j => ((sc j : ℝ) : EReal)) (fun j => ((pv j : ℝ) : EReal)) ((m : EReal), (l : EReal), (a : EReal))
      = ((m' : EReal), ((Real.exp (m - m') * l + ∑ j, Real.exp (sc j - m') : ℝ) : EReal),
          ((Real.exp (m - m') * a + ∑ j, Real.exp (sc j - m') * pv j : ℝ) : EReal)) := by
  simp only [tileStep, hm', exp_sub_coe, ← EReal.coe_mul, ← coe_finset_sum, ← EReal.coe_add]

theorem tileStep_bot (m' : ℝ) (hm' : (Finset.univ.sup fun j => ((sc j : ℝ) : EReal)) = (m' : EReal)) :
    tileStep (fun j => ((sc j : ℝ) : EReal)) (fun j => ((pv j : ℝ) : EReal)) (⊥, 0, 0)
      = ((m' : EReal), ((∑ j, Real.exp (sc j - m') : ℝ) : EReal),
          ((∑ j, Real.exp (sc j - m') * pv j : ℝ) : EReal)) := by
  simp only [tileStep, max_bot_left, hm', mul_zero, zero_add, exp_sub_coe, ← EReal.coe_mul, ← coe_finset_sum]

end Step

section Run

variable {T K : ℕ}

def seen (T n : ℕ) : Finset (Fin T) := Finset.univ.filter fun t => t.val < n

theorem seen_zero : seen T 0 = ∅ := by
  ext t; simp [seen]

theorem seen_succ (n : ℕ) (h : n < T) : seen T (n + 1) = insert ⟨n, h⟩ (seen T n) := by
  ext t
  simp only [seen, Finset.mem_filter, Finset.mem_univ, true_and, Finset.mem_insert, Fin.ext_iff]
  omega

theorem not_mem_seen (n : ℕ) (h : n < T) : (⟨n, h⟩ : Fin T) ∉ seen T n := by
  simp [seen]

theorem seen_self : seen T T = Finset.univ := by
  ext t; simp [seen]

variable (s p : Fin T → Fin K → ℝ)

/-- The largest score among the first `n` tiles. -/
def runMax (n : ℕ) : EReal := (seen T n).sup fun t => Finset.univ.sup fun j => ((s t j : ℝ) : EReal)

theorem runMax_succ (n : ℕ) (h : n < T) :
    runMax s (n + 1) = max (runMax s n) (Finset.univ.sup fun j => ((s ⟨n, h⟩ j : ℝ) : EReal)) := by
  rw [runMax, seen_succ n h, Finset.sup_insert, max_comm]
  rfl

/-- A maximum over a nonempty finite set of reals is attained, so it is a real. -/
theorem runMax_real (hK : 0 < K) (n : ℕ) (hn0 : 0 < n) (hn : n ≤ T) : ∃ m : ℝ, runMax s n = (m : EReal) := by
  obtain ⟨t, _, e⟩ := Finset.exists_mem_eq_sup (seen T n) ⟨⟨0, by omega⟩, by simp [seen, hn0]⟩
    (fun t => Finset.univ.sup fun j => ((s t j : ℝ) : EReal))
  haveI : Nonempty (Fin K) := ⟨⟨0, hK⟩⟩
  obtain ⟨j, _, e'⟩ := Finset.exists_mem_eq_sup Finset.univ Finset.univ_nonempty (fun j => ((s t j : ℝ) : EReal))
  exact ⟨s t j, e.trans e'⟩

/-- After `n ≥ 1` tiles the state is the real maximum seen and both sums against it, as `(m - m') + (x - m) = x - m'`. -/
theorem tileRun_real (hK : 0 < K) (n : ℕ) (hn0 : 0 < n) (hn : n ≤ T) :
    ∃ m : ℝ, runMax s n = (m : EReal) ∧
      tileRun (fun t j => ((s t j : ℝ) : EReal)) (fun t j => ((p t j : ℝ) : EReal)) n
        = ((m : EReal), ((∑ t ∈ seen T n, ∑ j, Real.exp (s t j - m) : ℝ) : EReal),
            ((∑ t ∈ seen T n, ∑ j, Real.exp (s t j - m) * p t j : ℝ) : EReal)) := by
  induction n with
  | zero => exact absurd hn0 (lt_irrefl 0)
  | succ n ih =>
    have h : n < T := hn
    obtain ⟨m', hm'⟩ := runMax_real s hK (n + 1) (Nat.succ_pos n) hn
    refine ⟨m', hm', ?_⟩
    rw [tileRun, dif_pos h]
    rcases Nat.eq_zero_or_pos n with rfl | hpos
    · have h0 : (Finset.univ.sup fun j => ((s ⟨0, h⟩ j : ℝ) : EReal)) = (m' : EReal) := by
        rw [← hm', runMax_succ s 0 h, runMax, seen_zero, Finset.sup_empty, max_bot_left]
      rw [tileRun, tileStep_bot _ _ m' h0, seen_succ 0 h, seen_zero]
      simp
    · obtain ⟨m, hm, e⟩ := ih hpos (le_of_lt h)
      have hmm : max (m : EReal) (Finset.univ.sup fun j => ((s ⟨n, h⟩ j : ℝ) : EReal)) = (m' : EReal) := by
        rw [← hm, ← hm', runMax_succ s n h]
      rw [e, tileStep_coe _ _ m m' _ _ hmm, seen_succ n h, Finset.sum_insert (not_mem_seen n h),
        Finset.sum_insert (not_mem_seen n h)]
      simp only [Finset.mul_sum, ← mul_assoc, ← Real.exp_add, sub_add_sub_cancel', add_comm]

end Run

section Result

variable {T K : ℕ} (s p : Fin T → Fin K → ℝ)

theorem sum_mul_inv (m l : ℝ) :
    (∑ t, ∑ j, Real.exp (s t j - m) * p t j) * (1 / l) = ∑ t, ∑ j, Real.exp (s t j - m) * (1 / l) * p t j := by
  rw [Finset.sum_mul]
  refine Finset.sum_congr rfl fun t _ => ?_
  rw [Finset.sum_mul]
  exact Finset.sum_congr rfl fun j _ => mul_right_comm _ _ _

/-- Over the reals `(∑ e · p) / L = ∑ (e / L) · p`, the normaliser `L` being positive. -/
theorem online_eq_softmaxSum (hT : 0 < T) (hK : 0 < K) :
    online (fun t j => ((s t j : ℝ) : EReal)) (fun t j => ((p t j : ℝ) : EReal))
      = softmaxSum (fun t j => ((s t j : ℝ) : EReal)) (fun t j => ((p t j : ℝ) : EReal)) := by
  obtain ⟨m, hm, e⟩ := tileRun_real s p hK T hT le_rfl
  rw [seen_self] at e
  have hM : max ⊥ (Finset.univ.sup fun tj : Fin T × Fin K => ((s tj.1 tj.2 : ℝ) : EReal)) = (m : EReal) := by
    rw [max_bot_left, ← hm, runMax, seen_self, ← Finset.univ_product_univ, Finset.sup_product_left]
  haveI : Nonempty (Fin T) := ⟨⟨0, hT⟩⟩
  haveI : Nonempty (Fin K) := ⟨⟨0, hK⟩⟩
  have hl : (∑ t, ∑ j, Real.exp (s t j - m)) ≠ 0 :=
    (Finset.sum_pos (fun t _ => Finset.sum_pos (fun j _ => Real.exp_pos _) Finset.univ_nonempty)
      Finset.univ_nonempty).ne'
  rw [online, e]
  simp only [softmaxSum, hM, exp_sub_coe, ← coe_finset_sum, Ideal.div_coe hl, ← EReal.coe_mul, sum_mul_inv]

end Result

section Real

/-- Maxima of reals are real: `⊥` only ever stands where a real is already present. -/
theorem lvl_real (x : ℕ → EReal) (hx : ∀ i, i < 64 → ∃ r : ℝ, x i = (r : EReal)) :
    ∀ k i, i < 64 → ∃ r : ℝ, lvl x k i = (r : EReal) := by
  intro k
  induction k with
  | zero => intro i hi; exact hx i hi
  | succ k ih =>
    intro i hi
    obtain ⟨r₁, h₁⟩ := ih i hi
    rw [lvl, h₁]
    by_cases hlt : i + 2 ^ k < 64
    · obtain ⟨r₂, h₂⟩ := ih (i + 2 ^ k) hlt
      rw [if_pos hlt, h₂]
      exact ⟨max r₁ r₂, (coe_max r₁ r₂).symm⟩
    · rw [if_neg hlt, max_bot_right]
      exact ⟨r₁, rfl⟩

theorem pool_real (x : ℕ → EReal) (hx : ∀ i, i < 64 → ∃ r : ℝ, x i = (r : EReal)) (k s e : ℕ) (hs : s < 64)
    (he : e < 64) : ∃ r : ℝ, pool x k s e = (r : EReal) := by
  obtain ⟨r₁, h₁⟩ := lvl_real x hx k s hs
  obtain ⟨r₂, h₂⟩ := lvl_real x hx k e he
  rw [pool, h₁, h₂]
  exact ⟨max r₁ r₂, (coe_max r₁ r₂).symm⟩

theorem hidden_real (p w : Fin 512 → EReal) (b : EReal) (hp : ∀ h, ∃ r : ℝ, p h = (r : EReal))
    (hw : ∀ h, ∃ r : ℝ, w h = (r : EReal)) (hb : ∃ r : ℝ, b = (r : EReal)) :
    ∃ r : ℝ, hidden p w b = (r : EReal) := by
  choose pr hpr using hp
  choose wr hwr using hw
  obtain ⟨br, rfl⟩ := hb
  refine ⟨max ((∑ h, pr h * wr h) + br) 0, ?_⟩
  simp only [hidden, hpr, hwr, coe_max, EReal.coe_add, coe_finset_sum, EReal.coe_zero, EReal.coe_mul]

theorem score_real (p : Fin 512 → EReal) (W1 : Fin 512 → Fin 128 → EReal) (b1 : Fin 128 → EReal)
    (W2 : Fin 128 → EReal) (b2 : EReal) (hp : ∀ h, ∃ r : ℝ, p h = (r : EReal))
    (hW1 : ∀ h a, ∃ r : ℝ, W1 h a = (r : EReal)) (hb1 : ∀ a, ∃ r : ℝ, b1 a = (r : EReal))
    (hW2 : ∀ a, ∃ r : ℝ, W2 a = (r : EReal)) (hb2 : ∃ r : ℝ, b2 = (r : EReal)) :
    ∃ r : ℝ, score p W1 b1 W2 b2 = (r : EReal) := by
  choose hr hhr using fun a => hidden_real p (fun h => W1 h a) (b1 a) hp (fun h => hW1 h a) (hb1 a)
  choose wr hwr using hW2
  obtain ⟨br, rfl⟩ := hb2
  refine ⟨(∑ a, hr a * wr a) + br, ?_⟩
  simp only [score, hhr, hwr, EReal.coe_add, coe_finset_sum, EReal.coe_mul]

end Real

/-- The same for tables of extended reals whose entries are all real. -/
theorem online_eq_softmaxSum_of_real {T K : ℕ} (hT : 0 < T) (hK : 0 < K) (s p : Fin T → Fin K → EReal)
    (hs : ∀ t j, ∃ r : ℝ, s t j = (r : EReal)) (hp : ∀ t j, ∃ r : ℝ, p t j = (r : EReal)) :
    online s p = softmaxSum s p := by
  choose sr hsr using hs
  choose pr hpr using hp
  obtain rfl : s = fun t j => ((sr t j : ℝ) : EReal) := funext fun t => funext fun j => hsr t j
  obtain rfl : p = fun t j => ((pr t j : ℝ) : EReal) := funext fun t => funext fun j => hpr t j
  exact online_eq_softmaxSum sr pr hT hK

end Cert.Spec

end
-- ==== Proof.TableIds.lean ====
import proofs.«401211_j85263690760702_3_alg».proof.KernelIdeal
import proofs.«401211_j85263690760702_3_alg».proof.ReferenceIdeal

namespace Cert.TableIds

/-- Each flat table index of the kernel is `64 · level + position` of the reference's three tables. -/
theorem idx1_eq : ∀ n : Fin 2016, (Cert.KernelIdeal.lit0 n).toNat
    = 64 * (Cert.ReferenceIdeal.lit0 n).toNat + (Cert.ReferenceIdeal.lit1 n).toNat := by
  decide +kernel

theorem idx2_eq : ∀ n : Fin 2016, (Cert.KernelIdeal.lit1 n).toNat
    = 64 * (Cert.ReferenceIdeal.lit0 n).toNat + (Cert.ReferenceIdeal.lit2 n).toNat := by
  decide +kernel

theorem ref_bounds : ∀ n : Fin 2016, (Cert.ReferenceIdeal.lit0 n).toNat ≤ 6
    ∧ (Cert.ReferenceIdeal.lit1 n).toNat ≤ 63 ∧ (Cert.ReferenceIdeal.lit2 n).toNat ≤ 63 := by
  decide +kernel

end Cert.TableIds
-- ==== Proof.K1StepValue.lean ====
import proofs.«401211_j85263690760702_3_alg».proof.Proof.K1Step
import proofs.«401211_j85263690760702_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.R1V

open Cert.KernelIdeal Cert.KernelIdeal.Gen Cert.KernelIdeal.R1
open Idealize.ShloMosaic Idealize.ShloMosaic.ValueIdx
open scoped BigOperators

variable (P : Vec Ideal S48x8x512 .f32) (W1 : Vec Ideal S512x128 .f32) (b1 : Vec Ideal S128 .f32)
  (W2 : Vec Ideal S128x1 .f32) (b2 : Vec Ideal S1x1 .f32) (m0 l0 : Vec Ideal S8x1 .f32) (a0 : Vec Ideal S8x512 .f32)

-- The score of window j of the tile at batch row b: the two-layer perceptron of the pooled row.
def tileScore (b : Fin 8) (j : Fin 48) : EReal :=
  Cert.Spec.score (fun h' => P (ix3 j b h')) (fun h' a => W1 (ix2 h' a)) (fun a => b1 (ValueIdx.ix1 a))
    (fun a => W2 (ix2 a 0)) (b2 (ix2 0 0))

theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    rw [Shape.rowMajor_val_two, Shape.rowMajor_val_one]
    show i.val = i.val * 1 + u.val
    omega)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p 0) := by
  refine broadcastTo_apply v h (ix2 p c) (ix2 p 0) fun ax => ?_
  match ax with
  | ⟨0, _⟩ => show p.val = if a = 1 then 0 else p.val; split <;> omega
  | ⟨1, _⟩ => rfl

theorem shapeCast_ab_ab1_apply {α : Type} {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_three, Shape.rowMajor_val_two]
    show i.val * b + j.val = (i.val * b + j.val) * 1 + u.val
    omega)

theorem broadcastTo_ab1_abc_apply {α : Type} {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j 0) := by
  refine broadcastTo_apply v h (ix3 i j k) (ix3 i j 0) fun ax => ?_
  match ax with
  | ⟨0, _⟩ => show i.val = if a = 1 then 0 else i.val; split <;> omega
  | ⟨1, _⟩ => show j.val = if b = 1 then 0 else j.val; split <;> omega
  | ⟨2, _⟩ => rfl

theorem ofBits_neg_inf_f32 : Ideal.ofBits .f32 0xFF800000#32 = ⊥ := by
  simp [Ideal.ofBits, Ideal.ieee]

-- Folding the maximum from the pattern of minus infinity gives the supremum.
theorem fold_max_neg_inf {ι : Type} (s : Finset ι) (f : ι → EReal) :
    s.fold max (Ideal.ofBits .f32 0xFF800000#32) f = s.sup f := by
  rw [ofBits_neg_inf_f32]
  rfl

theorem rowMax_apply (S : FVec Ideal S8x48 .f32) (h : S8x48.Reduces [1] S8) (hφ : FKind.Formats .f32)
    (hacc : (0xFF800000#32 : BitVec 32) = FKind.maximumf.neutral .f32 hφ) (b : Fin 8) :
    multiReduction .maximumf [1] S8 S 0xFF800000#32 h hφ hacc (ValueIdx.ix1 b)
      = Finset.univ.sup fun j : Fin 48 => S (ix2 b j) :=
  (Ideal.multiReduction_maximumf_single S 0xFF800000#32 h hφ hacc (ValueIdx.ix1 b)).trans
    ((fold_max_neg_inf _ _).trans (congrArg (Finset.univ.sup) (funext fun k : Fin 48 => congrArg S
      (funext fun c => match c with | ⟨0, _⟩ => Fin.ext rfl | ⟨1, _⟩ => Fin.ext rfl))))

theorem rowSum_apply (S : FVec Ideal S8x48 .f32) (h : S8x48.Reduces [1] S8) (hφ : FKind.Formats .f32)
    (hacc : (0x00000000#32 : BitVec 32) = FKind.add.neutral .f32 hφ) (b : Fin 8) :
    multiReduction .add [1] S8 S 0x00000000#32 h hφ hacc (ValueIdx.ix1 b) = ∑ j : Fin 48, S (ix2 b j) :=
  (Ideal.multiReduction_add_single S 0x00000000#32 h hφ hacc (ValueIdx.ix1 b)).trans
    (Finset.sum_congr rfl fun k _ => congrArg S
      (funext fun c => match c with | ⟨0, _⟩ => Fin.ext rfl | ⟨1, _⟩ => Fin.ext rfl))

theorem winSum_apply (V : FVec Ideal S8x48x512 .f32) (h : S8x48x512.Reduces [1] S8x512) (hφ : FKind.Formats .f32)
    (hacc : (0x00000000#32 : BitVec 32) = FKind.add.neutral .f32 hφ) (b : Fin 8) (c : Fin 512) :
    multiReduction .add [1] S8x512 V 0x00000000#32 h hφ hacc (ix2 b c) = ∑ j : Fin 48, V (ix3 b j c) :=
  (Ideal.multiReduction_add_single V 0x00000000#32 h hφ hacc (ix2 b c)).trans
    (Finset.sum_congr rfl fun k _ => congrArg V
      (funext fun d => match d with | ⟨0, _⟩ => Fin.ext rfl | ⟨1, _⟩ => Fin.ext rfl | ⟨2, _⟩ => Fin.ext rfl))

-- A product of an [m, k] and a [k, n] matrix into zero, at (r, a): the sum over the contracted axis of the products.
theorem mm_apply {m k n : ℕ} (D : DotDims ⟨2, ![m, k]⟩ ⟨2, ![k, n]⟩ ⟨2, ![m, n]⟩)
    (hr : D.contr.rank = 1) (hs : D.contr.size ⟨0, by omega⟩ = k)
    (hl : D.lhsContracting = [1]) (hrc : D.rhsContracting = [0])
    (l0 : ∀ j c, ((D.lhsIdx j c) 0).val = (j 0).val) (r1 : ∀ j c, ((D.rhsIdx j c) 1).val = (j 1).val)
    (X : FVec Ideal ⟨2, ![m, k]⟩ .f32) (W : FVec Ideal ⟨2, ![k, n]⟩ .f32) (hlt : FTy.bits .bf16 < FTy.bits .f32)
    (r : Fin m) (a : Fin n) :
    matmul D none (truncf .bf16 X hlt) (truncf .bf16 W hlt) (constant (F := Ideal) ⟨2, ![m, n]⟩ .f32 0x00000000#32) (ix2 r a)
      = ∑ h : Fin k, X (ix2 r h) * W (ix2 h a) := by
  simp only [matmul]
  rw [Ideal.matmul_constant_zero_apply, ← Equiv.sum_comp (contrEquiv1 D k hr hs).symm]
  refine Finset.sum_congr rfl fun h _ => ?_
  have e1 : D.lhsIdx (ix2 r a) ((contrEquiv1 D k hr hs).symm h) = ix2 r h := by
    funext c
    match c with
    | ⟨0, _⟩ => exact Fin.ext (l0 _ _)
    | ⟨1, _⟩ => exact Fin.ext ((D.lhsIdx_val_of_single (cl := 1) hl _ _).trans (contrEquiv1_symm_val D k hr hs h))
  have e2 : D.rhsIdx (ix2 r a) ((contrEquiv1 D k hr hs).symm h) = ix2 h a := by
    funext c
    match c with
    | ⟨0, _⟩ => exact Fin.ext ((D.rhsIdx_val_of_single (cr := 0) hrc _ _).trans (contrEquiv1_symm_val D k hr hs h))
    | ⟨1, _⟩ => exact Fin.ext (r1 _ _)
  rw [e1, e2]
  rfl

theorem pay11_apply (b : Fin 8) (j : Fin 48) (h : Fin 512) : k1_pay11 P (ix3 b j h) = P (ix3 j b h) := by
  unfold k1_pay11
  exact transpose_apply _ P _ (ix3 b j h) (ix3 j b h) fun c => match c with | ⟨0, _⟩ => rfl | ⟨1, _⟩ => rfl | ⟨2, _⟩ => rfl

-- The pooled rows as the 384 rows of a matrix: row 48 b + j is window j of batch row b.
def rowsMat : FVec Ideal S384x512 .f32 :=
  shapeCast S384x512 (k1_pay11 P) shapeCasts_S8x48x512_S384x512

theorem rowsMat_apply (b : Fin 8) (j : Fin 48) (hr : 48 * b.val + j.val < 384) (h : Fin 512) :
    rowsMat P (ix2 (⟨48 * b.val + j.val, hr⟩ : Fin 384) h) = P (ix3 j b h) := by
  unfold rowsMat
  refine (shapeCast_apply _ _ (ix2 (⟨48 * b.val + j.val, hr⟩ : Fin 384) h) (ix3 b j h) ?_).trans (pay11_apply P b j h)
  rw [Shape.rowMajor_val_three, Shape.rowMajor_val_two]
  show (b.val * 48 + j.val) * 512 + h.val = (48 * b.val + j.val) * 512 + h.val
  omega

-- The hidden layer of all 384 rows.
def hiddenMat : FVec Ideal S384x128 .f32 :=
  maximumf
    (addf
      (matmul dot_S384x512_S512x128_S384x128_1_0_0_1_n_n none (truncf .bf16 (rowsMat P) bitsLt_bf16_f32)
        (truncf .bf16 W1 bitsLt_bf16_f32) (constant S384x128 .f32 0x00000000#32))
      (broadcastTo S384x128 (shapeCast S1x128 b1 shapeCasts_S128_S1x128) broadcasts_S1x128_S384x128))
    (broadcast S384x128 (Scalar.ofBits .f32 0x00000000#32))

theorem hiddenMat_apply (b : Fin 8) (j : Fin 48) (hr : 48 * b.val + j.val < 384) (a : Fin 128) :
    hiddenMat P W1 b1 (ix2 (⟨48 * b.val + j.val, hr⟩ : Fin 384) a)
      = Cert.Spec.hidden (fun h' => P (ix3 j b h')) (fun h' => W1 (ix2 h' a)) (b1 (ValueIdx.ix1 a)) := by
  unfold hiddenMat Cert.Spec.hidden
  rw [maximumf_apply, addf_apply,
    mm_apply dot_S384x512_S512x128_S384x128_1_0_0_1_n_n rfl rfl rfl rfl (fun _ _ => by simp [DotDims.lhsIdx, dot_S384x512_S512x128_S384x128_1_0_0_1_n_n]; rfl)
      (fun _ _ => by simp [DotDims.rhsIdx, dot_S384x512_S512x128_S384x128_1_0_0_1_n_n]; rfl),
    broadcastTo_1b_ab_apply, shapeCast_a_1a_apply, broadcast_apply]
  have h0 : (Scalar.ofBits .f32 0x00000000#32 : Ideal .f32) = 0 := Ideal.ofBits_zero_f32
  rw [h0]
  exact congrArg (fun x => max (x + _) 0) (Finset.sum_congr rfl fun h _ => by rw [rowsMat_apply])

-- The scores of all 384 rows, as a column.
def scoreCol : FVec Ideal S384x1 .f32 :=
  addf
    (matmul dot_S384x128_S128x1_S384x1_1_0_0_1_n_n none (truncf .bf16 (hiddenMat P W1 b1) bitsLt_bf16_f32)
      (truncf .bf16 W2 bitsLt_bf16_f32) (constant S384x1 .f32 0x00000000#32))
    (broadcastTo S384x1 (shapeCast S1x1 b2 shapeCasts_S1x1_S1x1) broadcasts_S1x1_S384x1)

theorem scoreCol_apply (b : Fin 8) (j : Fin 48) (hr : 48 * b.val + j.val < 384) :
    scoreCol P W1 b1 W2 b2 (ix2 (⟨48 * b.val + j.val, hr⟩ : Fin 384) 0) = tileScore P W1 b1 W2 b2 b j := by
  unfold scoreCol tileScore Cert.Spec.score
  rw [addf_apply,
    mm_apply dot_S384x128_S128x1_S384x1_1_0_0_1_n_n rfl rfl rfl rfl (fun _ _ => by simp [DotDims.lhsIdx, dot_S384x128_S128x1_S384x1_1_0_0_1_n_n]; rfl)
      (fun j _ => by have h1 := idx2_lt1 j; simp [DotDims.rhsIdx, dot_S384x128_S128x1_S384x1_1_0_0_1_n_n]; omega),
    broadcastTo_1b_ab_apply, shapeCast_self]
  exact congrArg (· + _) (Finset.sum_congr rfl fun a _ => by rw [hiddenMat_apply])

theorem scores_apply (b : Fin 8) (j : Fin 48) : k1_pay12 P W1 b1 W2 b2 (ix2 b j) = tileScore P W1 b1 W2 b2 b j := by
  have hr : 48 * b.val + j.val < 384 := by omega
  show shapeCast S8x48 (scoreCol P W1 b1 W2 b2) shapeCasts_S384x1_S8x48 _ = _
  refine (shapeCast_apply _ _ (ix2 b j) (ix2 (⟨48 * b.val + j.val, hr⟩ : Fin 384) 0) ?_).trans
    (scoreCol_apply P W1 b1 W2 b2 b j hr)
  rw [Shape.rowMajor_val_two, Shape.rowMajor_val_two]
  show (48 * b.val + j.val) * 1 + 0 = b.val * 48 + j.val
  omega

theorem newM_eq : newM P W1 b1 W2 b2 m0 = k1_pay13 P W1 b1 W2 b2 m0 := by
  show shapeCast S8x1 (k1_pay13 P W1 b1 W2 b2 m0) shapeCasts_S8x1_S8x1 = _
  exact shapeCast_self _ _

-- The new running maximum: the old one against the largest score of the tile.
theorem newM_apply (b : Fin 8) :
    newM P W1 b1 W2 b2 m0 (ix2 b 0)
      = max (m0 (ix2 b 0)) (Finset.univ.sup fun j : Fin 48 => tileScore P W1 b1 W2 b2 b j) := by
  rw [newM_eq]
  simp only [k1_pay13]
  rw [maximumf_apply, shapeCast_a_a1_apply]
  refine congrArg (max (m0 (ix2 b 0))) ((rowMax_apply _ _ _ _ b).trans ?_)
  exact congrArg (fun f : Fin 48 → EReal => Finset.univ.sup f) (funext fun j => scores_apply P W1 b1 W2 b2 b j)

theorem pay1_apply (nm : FVec Ideal S8x1 .f32) (m : Vec Ideal S8x1 .f32) (i : S8x1.Idx) :
    k1_pay1 nm m i = Ideal.exp (m i - nm i) := rfl

-- The weights of the tile's windows: the exponential of the score less the new maximum.
theorem pay2_apply (sc : FVec Ideal S8x48 .f32) (nm : FVec Ideal S8x1 .f32) (b : Fin 8) (j : Fin 48) :
    k1_pay2 sc nm (ix2 b j) = Ideal.exp (sc (ix2 b j) - nm (ix2 b 0)) := by
  show Ideal.exp (sc (ix2 b j) - broadcastTo S8x48 nm broadcasts_S8x1_S8x48 (ix2 b j)) = _
  rw [broadcastTo_a1_ab_apply]

-- The new normaliser: the old one rescaled, plus the tile's weights.
theorem pay3_apply (sc : FVec Ideal S8x48 .f32) (nm : FVec Ideal S8x1 .f32) (m l : Vec Ideal S8x1 .f32) (b : Fin 8) :
    k1_pay3 sc nm m l (ix2 b 0)
      = Ideal.exp (m (ix2 b 0) - nm (ix2 b 0)) * l (ix2 b 0)
        + ∑ j : Fin 48, Ideal.exp (sc (ix2 b j) - nm (ix2 b 0)) := by
  simp only [k1_pay3]
  rw [shapeCast_self, addf_apply, mulf_apply, pay1_apply, shapeCast_a_a1_apply]
  exact congrArg (_ + ·) ((rowSum_apply _ _ _ _ b).trans (Finset.sum_congr rfl fun j _ => pay2_apply sc nm b j))

-- The new weighted sum: the old one rescaled, plus the tile's weighted rows.
theorem pay4_apply (v6 : FVec Ideal S8x48x512 .f32) (sc : FVec Ideal S8x48 .f32) (nm : FVec Ideal S8x1 .f32)
    (m : Vec Ideal S8x1 .f32) (a : Vec Ideal S8x512 .f32) (b : Fin 8) (h : Fin 512) :
    k1_pay4 v6 sc nm m a (ix2 b h)
      = Ideal.exp (m (ix2 b 0) - nm (ix2 b 0)) * a (ix2 b h)
        + ∑ j : Fin 48, Ideal.exp (sc (ix2 b j) - nm (ix2 b 0)) * v6 (ix3 b j h) := by
  simp only [k1_pay4]
  rw [shapeCast_self, addf_apply, mulf_apply, broadcastTo_a1_ab_apply, pay1_apply]
  refine congrArg (_ + ·) ((winSum_apply _ _ _ _ b h).trans (Finset.sum_congr rfl fun j _ => ?_))
  rw [mulf_apply, broadcastTo_ab1_abc_apply, shapeCast_ab_ab1_apply, pay2_apply]

theorem newL_apply (b : Fin 8) :
    newL P W1 b1 W2 b2 m0 l0 (ix2 b 0)
      = Ideal.exp (m0 (ix2 b 0) - newM P W1 b1 W2 b2 m0 (ix2 b 0)) * l0 (ix2 b 0)
        + ∑ j : Fin 48, Ideal.exp (tileScore P W1 b1 W2 b2 b j - newM P W1 b1 W2 b2 m0 (ix2 b 0)) := by
  unfold newL
  rw [pay3_apply, newM_eq]
  exact congrArg (_ + ·) (Finset.sum_congr rfl fun j _ => by rw [scores_apply])

theorem newAcc_apply (b : Fin 8) (h : Fin 512) :
    newAcc P W1 b1 W2 b2 m0 a0 (ix2 b h)
      = Ideal.exp (m0 (ix2 b 0) - newM P W1 b1 W2 b2 m0 (ix2 b 0)) * a0 (ix2 b h)
        + ∑ j : Fin 48, Ideal.exp (tileScore P W1 b1 W2 b2 b j - newM P W1 b1 W2 b2 m0 (ix2 b 0)) * P (ix3 j b h) := by
  unfold newAcc
  rw [pay4_apply, newM_eq]
  exact congrArg (_ + ·) (Finset.sum_congr rfl fun j _ => by rw [scores_apply, pay11_apply])

-- One tile of the body is one step of the specification's running softmax, at batch row b and channel h.
theorem step_apply (b : Fin 8) (h : Fin 512) :
    (newM P W1 b1 W2 b2 m0 (ix2 b 0), newL P W1 b1 W2 b2 m0 l0 (ix2 b 0), newAcc P W1 b1 W2 b2 m0 a0 (ix2 b h))
      = Cert.Spec.tileStep (fun j : Fin 48 => tileScore P W1 b1 W2 b2 b j) (fun j : Fin 48 => P (ix3 j b h))
          (m0 (ix2 b 0), l0 (ix2 b 0), a0 (ix2 b h)) := by
  rw [newL_apply, newAcc_apply, newM_apply]
  rfl

-- Before the first tile the maximum is bottom and the normaliser and weighted sum are zero.
theorem init_apply (b : Fin 8) (h : Fin 512) :
    k1_pay7 (F := Ideal) (ix2 b 0) = ⊥ ∧ k1_pay8 (F := Ideal) (ix2 b 0) = 0
      ∧ k1_pay9 (F := Ideal) (ix2 b h) = 0 := by
  simp only [k1_pay7, k1_pay8, k1_pay9, shapeCast_self]
  exact ⟨ofBits_neg_inf_f32, Ideal.ofBits_zero_f32, Ideal.ofBits_zero_f32⟩

-- The output block: the weighted sum over the normaliser.
theorem outBlk_apply (acc : Vec Ideal S8x512 .f32) (l : Vec Ideal S8x1 .f32) (b : Fin 8) (h : Fin 512) :
    outBlk acc l (ix2 b h) = Ideal.div (acc (ix2 b h)) (l (ix2 b 0)) := by
  show Ideal.div (acc (ix2 b h)) (broadcastTo S8x512 l broadcasts_S8x1_S8x512 (ix2 b h)) = _
  rw [broadcastTo_a1_ab_apply]

end Cert.KernelIdeal.R1V

end
-- ==== Proof.K1Fold.lean ====
import proofs.«401211_j85263690760702_3_alg».proof.Proof.Spec
import proofs.«401211_j85263690760702_3_alg».proof.Proof.K1Data
import proofs.«401211_j85263690760702_3_alg».proof.Proof.K1StepValue
import Idealize.ShloMosaic.Lib.ValueIdx

noncomputable section

namespace Cert.KernelIdeal.R1V

open Cert.KernelIdeal Cert.KernelIdeal.Gen Cert.KernelIdeal.R1
open Idealize.ShloMosaic Idealize.ShloMosaic.TcCoe Idealize.ShloMosaic.ValueIdx

-- One unfolding of the recursion, below T.
theorem tileRun_succ {T K : ℕ} (S Pv : Fin T → Fin K → EReal) (n : ℕ) (h : n < T) :
    Cert.Spec.tileRun S Pv (n + 1) = Cert.Spec.tileStep (S ⟨n, h⟩) (Pv ⟨n, h⟩) (Cert.Spec.tileRun S Pv n) := by
  show (if h : n < T then _ else _) = _
  exact dif_pos h

variable (V : (c : Dev nD) → (b : Ref sig .tc) → Buf (Elt Ideal) ((c : Thread nD τ).loc b))

-- Window tile n of batch chunk bi among the 168 = 4 · 42 points.
def tpt (bi : Fin 4) (n : Fin 42) : Fin (cfg1 (adm1 (F := Ideal))).N :=
  ⟨42 * bi.val + n.val, lt_of_lt_of_eq (by omega) Gen.N_1.symm⟩

def tileS (c : Dev nD) (bi : Fin 4) (b : Fin 8) (t : Fin 42) (j : Fin 48) : EReal :=
  tileScore (pooledAt V c (tpt bi t)) (iblk1 V c 1 (tpt bi t)) (iblk1 V c 2 (tpt bi t)) (iblk1 V c 3 (tpt bi t))
    (iblk1 V c 4 (tpt bi t)) b j

def tileP (c : Dev nD) (bi : Fin 4) (b : Fin 8) (h : Fin 512) (t : Fin 42) (j : Fin 48) : EReal :=
  pooledAt V c (tpt bi t) (ix3 j b h)

-- The three carried quantities at row b and channel h.
def proj (b : Fin 8) (h : Fin 512) (s : Carried Ideal) : EReal × EReal × EReal :=
  (s.m (ix2 b 0), s.l (ix2 b 0), s.acc (ix2 b h))

theorem proj_init (b : Fin 8) (h : Fin 512) : proj b h (init1 (F := Ideal)) = (⊥, 0, 0) := by
  obtain ⟨h7, h8, h9⟩ := init_apply b h
  show (k1_pay7 (F := Ideal) (ix2 b 0), k1_pay8 (F := Ideal) (ix2 b 0), k1_pay9 (F := Ideal) (ix2 b h)) = _
  rw [h7, h8, h9]

theorem proj_stepAt (c : Dev nD) (bi : Fin 4) (b : Fin 8) (h : Fin 512) (t : Fin 42) (s : Carried Ideal) :
    proj b h (stepAt V c (tpt bi t) s)
      = Cert.Spec.tileStep (tileS V c bi b t) (tileP V c bi b h t) (proj b h s) :=
  step_apply _ _ _ _ _ s.m s.l s.acc b h

-- Induction on the tile: the first tile steps from the reset values, each later tile from the tile before.
theorem carried_eq_tileRun (c : Dev nD) (bi : Fin 4) (b : Fin 8) (h : Fin 512) : ∀ (n : ℕ) (hn : n < 42),
    proj b h (outsAt1 V c (42 * bi.val + n) (tpt bi ⟨n, hn⟩).isLt)
      = Cert.Spec.tileRun (tileS V c bi b) (tileP V c bi b h) (n + 1)
  | 0, hn => by
    refine (congrArg (proj b h) (outsAt1_A V c (tpt bi ⟨0, hn⟩) (by show (42 * bi.val + 0) % 42 = 0; omega))).trans ?_
    rw [proj_stepAt, proj_init]
    exact (tileRun_succ _ _ 0 hn).symm
  | n + 1, hn => by
    refine (congrArg (proj b h) (outsAt1_BC V c (tpt bi ⟨n + 1, hn⟩) (by show (42 * bi.val + (n + 1)) % 42 ≠ 0; omega))).trans ?_
    rw [proj_stepAt]
    refine (congrArg _ ?_).trans (tileRun_succ _ _ (n + 1) hn).symm
    exact carried_eq_tileRun c bi b h n (Nat.lt_of_succ_lt hn)

-- The result is the weighted sum over the normaliser after all 42 tiles.
theorem out_eq_online (c : Dev nD) (bi : Fin 4) (b : Fin 8) (h : Fin 512) :
    outBlk (outsAt1 V c (42 * bi.val + 41) (tpt bi ⟨41, by omega⟩).isLt).acc
        (outsAt1 V c (42 * bi.val + 41) (tpt bi ⟨41, by omega⟩).isLt).l (ix2 b h)
      = Cert.Spec.online (T := 42) (K := 48) (tileS V c bi b) (tileP V c bi b h) := by
  rw [outBlk_apply, Cert.Spec.online, ← carried_eq_tileRun V c bi b h 41 (by omega)]
  rfl

end Cert.KernelIdeal.R1V

end
-- ==== Proof.K1Array.lean ====
import proofs.«401211_j85263690760702_3_alg».proof.Proof.Gen.KernelIdeal.Launch
import proofs.«401211_j85263690760702_3_alg».proof.Proof.K1Tables
import proofs.«401211_j85263690760702_3_alg».proof.Proof.K1Step
import proofs.«401211_j85263690760702_3_alg».proof.Proof.K1Data
import Idealize.ShloMosaic.Lib.Pipeline.Value
import Idealize.ShloMosaic.Lib.ValueIdx
import Idealize.ShloMosaic.Lib.ValueIdxCoords

noncomputable section

namespace Cert.KernelIdeal.R1V

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx

variable {F : FTy → Type} [FloatOps F] [Named F]

section Structure
variable (a : (pcfg1 (F := F)).Adm)

-- The table window moves along the batch axis only: 42 consecutive points share a batch chunk.
theorem idx0_facts : ∀ t : Fin grid1.N, cc1_transform_0 (grid1.coords t) 0 = 0 ∧ cc1_transform_0 (grid1.coords t) 1 = t.val / 42 ∧ cc1_transform_0 (grid1.coords t) 2 = 0 := by
  decide +kernel

-- Likewise the output window, on its row axis.
theorem idx5_facts : ∀ t : Fin grid1.N, cc1_transform_5 (grid1.coords t) 0 = t.val / 42 ∧ cc1_transform_5 (grid1.coords t) 1 = 0 := by
  decide +kernel

-- The output block index changes exactly between point 42 q + 41 and the next.
theorem flush1_5_iff (t : Fin (cfg1 a).N) : ((cfg1 a).win 5).flush t = true ↔ t.val % 42 = 41 := R1.flush5_iff t

theorem lt_168 (t : Fin (cfg1 a).N) : t.val < 168 := lt_of_lt_of_eq t.isLt N_1

-- Last tiles of different batch chunks have different block indices, and blocks at different indices are disjoint.
theorem disjoint5 (t t' : Fin (cfg1 a).N) (hf : ((cfg1 a).win 5).flush t = true) (hf' : ((cfg1 a).win 5).flush t' = true)
    (hne : t ≠ t') : Disjoint (((cfg1 a).win 5).blk t).view.set (((cfg1 a).win 5).blk t').view.set := by
  refine ((cfg1 a).win 5).disjoint_blk fun h => hne (Fin.ext ?_)
  have h0 : cc1_transform_5 (grid1.coords t) 0 = cc1_transform_5 (grid1.coords t') 0 := congrFun h (0 : Fin 2)
  obtain ⟨e, -⟩ := idx5_facts t
  obtain ⟨e', -⟩ := idx5_facts t'
  have m := (flush1_5_iff a t).mp hf
  have m' := (flush1_5_iff a t').mp hf'
  omega

-- The last window tile of batch chunk bi.
def lastOf (bi : Fin 4) : Fin (cfg1 a).N := ⟨42 * bi.val + 41, lt_of_lt_of_eq (by omega) N_1.symm⟩

end Structure

section AtTheTables
variable (V : (c : Dev nD) → (b : Ref sig .tc) → Buf (Elt F) ((c : Thread nD τ).loc b))

-- The block at point t begins at batch row 8 (t / 42).
theorem iblk1_0_apply (c : Dev nD) (t : Fin (cfg1 (adm1 (F := F))).N) (r : Fin 512) (b : Fin 8) (h : Fin 512) :
    iblk1 V c 0 t (ix3 r b h)
      = V c main_v1 (ix3 r (⟨8 * (t.val / 42) + b.val, by have := lt_168 (adm1 (F := F)) t; omega⟩ : Fin 32) h) := by
  obtain ⟨e0, e1, e2⟩ := idx0_facts t
  show V c main_v1 ((((cfg1 (adm1 (F := F))).win 0).blk t).view.emb (ix3 r b h)) = _
  congr 1
  funext ax; apply Fin.ext
  match ax with
  | ⟨0, _⟩ => show cc1_transform_0 (grid1.coords t) 0 * 512 + 1 * r.val = r.val; omega
  | ⟨1, _⟩ => show cc1_transform_0 (grid1.coords t) 1 * 8 + 1 * b.val = 8 * (t.val / 42) + b.val; omega
  | ⟨2, _⟩ => show cc1_transform_0 (grid1.coords t) 2 * 512 + 1 * h.val = h.val; omega

-- A block at index 0 on every axis that is as large as its array is the array itself.
theorem iblk1_1_eq (c : Dev nD) (t : Fin (cfg1 (adm1 (F := F))).N) : (iblk1 V c 1 t : Vec F S512x128 .f32) = V c main_arg1 :=
  funext fun (y : S512x128.Idx) => congrArg (V c main_arg1) <| funext fun ax => Fin.ext <| by
    match ax with
    | ⟨0, _⟩ => show 0 * 512 + 1 * (y 0).val = (y 0).val; omega
    | ⟨1, _⟩ => show 0 * 128 + 1 * (y 1).val = (y 1).val; omega

theorem iblk1_2_eq (c : Dev nD) (t : Fin (cfg1 (adm1 (F := F))).N) : (iblk1 V c 2 t : Vec F S128 .f32) = V c main_arg2 :=
  funext fun (y : S128.Idx) => congrArg (V c main_arg2) <| funext fun ax => Fin.ext <| by
    match ax with
    | ⟨0, _⟩ => show 0 * 128 + 1 * (y 0).val = (y 0).val; omega

theorem iblk1_3_eq (c : Dev nD) (t : Fin (cfg1 (adm1 (F := F))).N) : (iblk1 V c 3 t : Vec F S128x1 .f32) = V c main_arg3 :=
  funext fun (y : S128x1.Idx) => congrArg (V c main_arg3) <| funext fun ax => Fin.ext <| by
    match ax with
    | ⟨0, _⟩ => show 0 * 128 + 1 * (y 0).val = (y 0).val; omega
    | ⟨1, _⟩ => show 0 * 1 + 1 * (y 1).val = (y 1).val; omega

theorem iblk1_4_eq (c : Dev nD) (t : Fin (cfg1 (adm1 (F := F))).N) : (iblk1 V c 4 t : Vec F S1x1 .f32) = V c main_v0 :=
  funext fun (y : S1x1.Idx) => congrArg (V c main_v0) <| funext fun ax => Fin.ext <| by
    match ax with
    | ⟨0, _⟩ => show 0 * 1 + 1 * (y 0).val = (y 0).val; omega
    | ⟨1, _⟩ => show 0 * 1 + 1 * (y 1).val = (y 1).val; omega

-- The last tiles' blocks being disjoint, each keeps in the final array what its own point left.
theorem out_array (c : Dev nD) (bi : Fin 4) (b : Fin 8) (h : Fin 512) :
    (dat1 V c).arrAt 5 (cfg1 (adm1 (F := F))).N (ix2 (⟨8 * bi.val + b.val, by omega⟩ : Fin 32) h)
      = outBlk (outsAt1 V c (42 * bi.val + 41) (lastOf (adm1 (F := F)) bi).isLt).acc
          (outsAt1 V c (42 * bi.val + 41) (lastOf (adm1 (F := F)) bi).isLt).l (ix2 b h) := by
  have hv : (lastOf (adm1 (F := F)) bi).val = 42 * bi.val + 41 := rfl
  have hm : (lastOf (adm1 (F := F)) bi).val % 42 = 41 := by omega
  have key := (dat1 V c).arrAt_emb_eq_flushed 5 (disjoint5 (adm1 (F := F))) (lastOf (adm1 (F := F)) bi) ((flush1_5_iff _ _).mpr hm) (ix2 b h)
  have hemb : (((cfg1 (adm1 (F := F))).win 5).blk (lastOf (adm1 (F := F)) bi)).view.emb (ix2 b h) = ix2 (⟨8 * bi.val + b.val, by omega⟩ : Fin 32) h := by
    obtain ⟨e0, e1⟩ := idx5_facts (lastOf (adm1 (F := F)) bi)
    funext ax; apply Fin.ext
    match ax with
    | ⟨0, _⟩ => show cc1_transform_5 (grid1.coords (lastOf (adm1 (F := F)) bi)) 0 * 8 + 1 * b.val = 8 * bi.val + b.val; omega
    | ⟨1, _⟩ => show cc1_transform_5 (grid1.coords (lastOf (adm1 (F := F)) bi)) 1 * 512 + 1 * h.val = h.val; omega
  rw [hemb] at key
  rw [key]
  exact congrFun (after1_5 V c (lastOf (adm1 (F := F)) bi)) (ix2 b h)

end AtTheTables

end Cert.KernelIdeal.R1V

end
-- ==== Proof.K0Value.lean ====
import proofs.«401211_j85263690760702_3_alg».proof.Proof.K0Data
import proofs.«401211_j85263690760702_3_alg».proof.Proof.Spec
import Idealize.ShloMosaic.Lib.Pipeline.Value
import Idealize.ShloMosaic.Lib.ValueIdx
import Idealize.ShloMosaic.PureOps.IdealRules

noncomputable section

namespace Cert.KernelIdeal.R0V

open Idealize.ShloMosaic Idealize.ShloMosaic.ValueIdx Idealize.SL.Sem Cert.KernelIdeal Cert.KernelIdeal.Gen Cert.KernelIdeal.R0

section Shift
variable {F : FTy → Type} [FloatOps F]

-- On the upper piece's box only the upper piece counts.
theorem canon2_fst {S : Shape} {e : EltTy} (p q : View.Piece (Elt F) S e) (y : S.Idx) (x : p.1.shape.Idx)
    (hy : p.1.emb x = y) : View.canon [p, q] y = p.2 x := by
  obtain ⟨r, w⟩ := p
  subst hy
  exact View.canon_cons_emb r w [q] x

-- Off that box the lower piece counts.
theorem canon2_snd {S : Shape} {e : EltTy} (p q : View.Piece (Elt F) S e) (y : S.Idx) (hn : y ∉ p.1.set)
    (x : q.1.shape.Idx) (hy : q.1.emb x = y) : View.canon [p, q] y = q.2 x := by
  rw [View.canon_cons_of_not_mem p [q] hn]
  obtain ⟨r, w⟩ := q
  subst hy
  exact View.canon_cons_emb r w [] x

-- A band of whole rows only shifts the row coordinate.
theorem rows_emb {N n m l : ℕ} (o : ℕ)
    (inb : ∀ a, (![o, 0, 0] : Fin 3 → ℕ) a + (⟨3, ![n, m, l]⟩ : Shape).size a ≤ (⟨3, ![N, m, l]⟩ : Shape).size a)
    (i : Fin n) (b : Fin m) (h : Fin l) (i' : Fin N) (hi : o + i.val = i'.val) :
    (Rect.unit (s := ⟨3, ![N, m, l]⟩) ![o, 0, 0] (⟨3, ![n, m, l]⟩ : Shape).size inb).emb (ix3 i b h) = ix3 i' b h := by
  funext d; apply Fin.ext
  match d with
  | ⟨0, _⟩ => show o + 1 * i.val = i'.val; omega
  | ⟨1, _⟩ => show 0 + 1 * b.val = b.val; omega
  | ⟨2, _⟩ => show 0 + 1 * h.val = h.val; omega

-- A cast to the same shape changes nothing, and a splat is constant.
theorem pad_apply {s : Shape} (hs : s.ShapeCasts s) (c : F .f32) (x : s.Idx) :
    shapeCast s (broadcast s c) hs x = c := by
  rw [shapeCast_self]; rfl

end Shift

abbrev col {H : ℕ} (x : FVec Ideal ⟨3, ![32, 64, H]⟩ .f32) (b : Fin 32) (h : Fin H) : ℕ → EReal :=
  fun i' => if hi : i' < 64 then x (ix3 b ⟨i', hi⟩ h) else ⊥

theorem neg_big_bot : Named.named (F := Ideal) κ "neg_big" (φ := .f32) 0xF149F2CA#32 = (⊥ : EReal) :=
  IdealRules.named_const.ideal_named_scalar κ "neg_big" _ ⊥ rfl

-- Exchanging the first two axes puts positions first, and level 0 of the running maximum is the input itself.
theorem prev0_apply (x0 : Vec Ideal S32x64x128 .f32) (i : Fin 64) (b : Fin 32) (h : Fin 128) :
    prev0 (F := Ideal) x0 (ix3 i b h) = Cert.Spec.lvl (col x0 b h) 0 i.val := by
  show _ = (if hi : i.val < 64 then x0 (ix3 b ⟨i.val, hi⟩ h) else ⊥)
  rw [dif_pos i.isLt]
  unfold prev0 k0_pay1
  rw [shapeCast_self]
  refine transpose_apply _ _ _ _ _ fun a => ?_
  match a with
  | ⟨0, _⟩ => rfl
  | ⟨1, _⟩ => rfl
  | ⟨2, _⟩ => rfl

section Round
variable (n hh : ℕ) (hn : n + hh = 64)
  (inbF : ∀ a, (![hh, 0, 0] : Fin 3 → ℕ) a + (⟨3, ![n, 32, 128]⟩ : Shape).size a ≤ S64x32x128.size a)
  (inbH : ∀ a, (![0, 0, 0] : Fin 3 → ℕ) a + (⟨3, ![n, 32, 128]⟩ : Shape).size a ≤ S64x32x128.size a)
  (inbT : ∀ a, (![n, 0, 0] : Fin 3 → ℕ) a + (⟨3, ![hh, 32, 128]⟩ : Shape).size a ≤ S64x32x128.size a)
  (P : Vec Ideal S64x32x128 .f32) (wT : (⟨3, ![hh, 32, 128]⟩ : Shape).Idx → Elt Ideal .f32)
  (wH : (⟨3, ![n, 32, 128]⟩ : Shape).Idx → Elt Ideal .f32)
  (hwH : wH = View.ld P (Rect.unit (s := S64x32x128) ![hh, 0, 0] (⟨3, ![n, 32, 128]⟩ : Shape).size inbF))

-- A 64-row buffer made of two pieces: wH on rows 0 … n-1, and over it wT on rows n … 63.
abbrev shifted : Vec Ideal S64x32x128 .f32 :=
  View.canon (Val := Elt Ideal) (s := S64x32x128) (e := .f32)
    [⟨Rect.unit (s := S64x32x128) ![n, 0, 0] (⟨3, ![hh, 32, 128]⟩ : Shape).size inbT, wT⟩,
     ⟨Rect.unit (s := S64x32x128) ![0, 0, 0] (⟨3, ![n, 32, 128]⟩ : Shape).size inbH, wH⟩]

include hn hwH

-- Rows below n come from P moved up by hh rows and the rest are padding; n + hh = 64 makes the two cases meet at row n.
theorem shift_apply (c : Elt Ideal .f32) (hwT : ∀ x, wT x = c) (i : Fin 64) (b : Fin 32) (h : Fin 128) :
    shifted n hh inbH inbT wT wH (ix3 i b h) = if hi : i.val + hh < 64 then P (ix3 ⟨i.val + hh, hi⟩ b h) else c := by
  have hiv := i.isLt
  subst hwH
  by_cases hi : i.val + hh < 64
  · rw [dif_pos hi]
    refine (canon2_snd _ _ _ ?_ (ix3 (⟨i.val, by omega⟩ : Fin n) b h) (rows_emb 0 inbH _ b h i (Nat.zero_add _))).trans
      (congrArg P (rows_emb hh inbF _ b h ⟨i.val + hh, hi⟩ (Nat.add_comm _ _)))
    rw [Rect.mem_set_unit]
    intro hm
    have h0 : n ≤ i.val := (hm 0).1
    omega
  · rw [dif_neg hi]
    exact (canon2_fst _ _ _ (ix3 (⟨i.val - n, by omega⟩ : Fin hh) b h) (rows_emb n inbT _ b h i (by show n + (i.val - n) = i.val; omega))).trans (hwT _)

-- The maximum of a level with its copy 2^k rows up, ⊥ past the end, is the recursion of the running maximum.
theorem level_step (x0 : Vec Ideal S32x64x128 .f32) (k : ℕ) (hk : hh = 2 ^ k)
    (hP : ∀ (i : Fin 64) (b : Fin 32) (h : Fin 128), P (ix3 i b h) = Cert.Spec.lvl (col x0 b h) k i.val)
    (hwT : ∀ x, wT x = Named.named (F := Ideal) κ "neg_big" (φ := .f32) 0xF149F2CA#32) (P1 : Vec Ideal S64x32x128 .f32)
    (hM : P1 = maximumf (F := Ideal) (s := S64x32x128) (φ := .f32) P (shifted n hh inbH inbT wT wH))
    (i : Fin 64) (b : Fin 32) (h : Fin 128) :
    P1 (ix3 i b h) = Cert.Spec.lvl (col x0 b h) (k + 1) i.val := by
  subst hk
  rw [hM, maximumf_apply, hP, shift_apply n _ hn inbF inbH inbT P wT wH hwH _ hwT]
  show _ = max _ (if i.val + 2 ^ k < 64 then Cert.Spec.lvl (col x0 b h) k (i.val + 2 ^ k) else ⊥)
  congr 1
  by_cases hi : i.val + 2 ^ k < 64
  · rw [dif_pos hi, if_pos hi, hP]
  · rw [dif_neg hi, if_neg hi, neg_big_bot]

end Round

theorem prev1_apply (x0 : Vec Ideal S32x64x128 .f32) (i : Fin 64) (b : Fin 32) (h : Fin 128) :
    prev1 (F := Ideal) x0 (ix3 i b h) = Cert.Spec.lvl (col x0 b h) 1 i.val :=
  level_step 63 1 rfl _ _ _ _ (k0_pay3 (F := Ideal)) _ (shapeCast_self _ _) x0 0 rfl (prev0_apply x0) (pad_apply _ _) _
    (shapeCast_self _ _) i b h

theorem prev2_apply (x0 : Vec Ideal S32x64x128 .f32) (i : Fin 64) (b : Fin 32) (h : Fin 128) :
    prev2 (F := Ideal) x0 (ix3 i b h) = Cert.Spec.lvl (col x0 b h) 2 i.val :=
  level_step 62 2 rfl _ _ _ _ (k0_pay6 (F := Ideal)) _ (shapeCast_self _ _) x0 1 rfl (prev1_apply x0) (pad_apply _ _) _
    (shapeCast_self _ _) i b h

theorem prev3_apply (x0 : Vec Ideal S32x64x128 .f32) (i : Fin 64) (b : Fin 32) (h : Fin 128) :
    prev3 (F := Ideal) x0 (ix3 i b h) = Cert.Spec.lvl (col x0 b h) 3 i.val :=
  level_step 60 4 rfl _ _ _ _ (k0_pay9 (F := Ideal)) _ (shapeCast_self _ _) x0 2 rfl (prev2_apply x0) (pad_apply _ _) _
    (shapeCast_self _ _) i b h

theorem prev4_apply (x0 : Vec Ideal S32x64x128 .f32) (i : Fin 64) (b : Fin 32) (h : Fin 128) :
    prev4 (F := Ideal) x0 (ix3 i b h) = Cert.Spec.lvl (col x0 b h) 4 i.val :=
  level_step 56 8 rfl _ _ _ _ (k0_pay12 (F := Ideal)) _ (shapeCast_self _ _) x0 3 rfl (prev3_apply x0) (pad_apply _ _) _
    (shapeCast_self _ _) i b h

theorem prev5_apply (x0 : Vec Ideal S32x64x128 .f32) (i : Fin 64) (b : Fin 32) (h : Fin 128) :
    prev5 (F := Ideal) x0 (ix3 i b h) = Cert.Spec.lvl (col x0 b h) 5 i.val :=
  level_step 48 16 rfl _ _ _ _ (k0_pay15 (F := Ideal)) _ (shapeCast_self _ _) x0 4 rfl (prev4_apply x0) (pad_apply _ _) _
    (shapeCast_self _ _) i b h

theorem prev6_apply (x0 : Vec Ideal S32x64x128 .f32) (i : Fin 64) (b : Fin 32) (h : Fin 128) :
    prev6 (F := Ideal) x0 (ix3 i b h) = Cert.Spec.lvl (col x0 b h) 6 i.val :=
  level_step 32 32 rfl _ _ _ _ (k0_pay18 (F := Ideal)) _ (shapeCast_self _ _) x0 5 rfl (prev5_apply x0) (pad_apply _ _) _
    (shapeCast_self _ _) i b h

def tbl {H : ℕ} (x : FVec Ideal ⟨3, ![32, 64, H]⟩ .f32) (r : Fin 512) (b : Fin 32) (h : Fin H) : EReal :=
  if r.val < 448 then Cert.Spec.lvl (col x b h) (r.val / 64) (r.val % 64) else 0

abbrev tblAt (x0 : Vec Ideal S32x64x128 .f32) : S512x32x128.Idx → EReal := fun y => tbl x0 (y 0) (y 1) (y 2)

-- Row 64 J + a has quotient J and remainder a by 64, which is how the table finds level J at position a.
theorem tbl_rows (x0 : Vec Ideal S32x64x128 .f32) (o J : ℕ) (ho : o = 64 * J) (hJ : J < 7)
    (inb : ∀ a, (![o, 0, 0] : Fin 3 → ℕ) a + S64x32x128.size a ≤ S512x32x128.size a) (P : FVec Ideal S64x32x128 .f32)
    (hP : ∀ (i : Fin 64) (b : Fin 32) (h : Fin 128), P (ix3 i b h) = Cert.Spec.lvl (col x0 b h) J i.val) (x : S64x32x128.Idx) :
    P x = tblAt x0 ((Rect.unit (s := S512x32x128) ![o, 0, 0] S64x32x128.size inb).emb x) := by
  obtain ⟨a, b, c, rfl⟩ : ∃ a b c, x = ix3 a b c := ⟨x 0, x 1, x 2, eq_ix3 x⟩
  have ha := a.isLt
  rw [hP, rows_emb o inb a b c ⟨o + a.val, by omega⟩ rfl]
  show _ = tbl x0 (⟨o + a.val, _⟩ : Fin 512) b c
  unfold tbl
  rw [if_pos (show o + a.val < 448 by omega), show (o + a.val) / 64 = J by omega, show (o + a.val) % 64 = a.val by omega]

theorem zero_word : Ideal.ofBits .f32 0x00000000#32 = (0 : EReal) := by simp [Ideal.ofBits, Ideal.ieee]

-- Rows from 448 on lie past the seven levels, where the table is 0.
theorem tbl_rows_zero (x0 : Vec Ideal S32x64x128 .f32)
    (inb : ∀ a, (![448, 0, 0] : Fin 3 → ℕ) a + S64x32x128.size a ≤ S512x32x128.size a) (x : S64x32x128.Idx) :
    k0_pay20 (F := Ideal) x = tblAt x0 ((Rect.unit (s := S512x32x128) ![448, 0, 0] S64x32x128.size inb).emb x) := by
  obtain ⟨a, b, c, rfl⟩ : ∃ a b c, x = ix3 a b c := ⟨x 0, x 1, x 2, eq_ix3 x⟩
  have ha := a.isLt
  rw [rows_emb 448 inb a b c ⟨448 + a.val, by omega⟩ rfl]
  show Ideal.ofBits .f32 0x00000000#32 = tbl x0 (⟨448 + a.val, _⟩ : Fin 512) b c
  unfold tbl
  rw [if_neg (show ¬ (448 + a.val < 448) by omega), zero_word]

-- Every piece agrees with the table on its band, and the eight bands cover the block.
theorem out0_1_apply (x0 : Vec Ideal S32x64x128 .f32) (r : Fin 512) (b : Fin 32) (h : Fin 128) :
    out0_1 (F := Ideal) x0 (ix3 r b h) = tbl x0 r b h := by
  unfold out0_1
  refine View.canon_apply_of_pieces (Val := Elt Ideal) (S := S512x32x128) (e := .f32) (tblAt x0) _ (fun p hp x => ?_)
    (ix3 r b h) (cover0_1 _ _ _ _ _ _ _ _ _)
  simp only [List.mem_cons, List.not_mem_nil, or_false] at hp
  rcases hp with rfl | rfl | rfl | rfl | rfl | rfl | rfl | rfl
  · exact tbl_rows_zero x0 inb_S512x32x128_S64x32x128_448_0_0 x
  · exact tbl_rows x0 384 6 rfl (by decide) inb_S512x32x128_S64x32x128_384_0_0 _ (prev6_apply x0) x
  · exact tbl_rows x0 320 5 rfl (by decide) inb_S512x32x128_S64x32x128_320_0_0 _ (prev5_apply x0) x
  · exact tbl_rows x0 256 4 rfl (by decide) inb_S512x32x128_S64x32x128_256_0_0 _ (prev4_apply x0) x
  · exact tbl_rows x0 192 3 rfl (by decide) inb_S512x32x128_S64x32x128_192_0_0 _ (prev3_apply x0) x
  · exact tbl_rows x0 128 2 rfl (by decide) inb_S512x32x128_S64x32x128_128_0_0 _ (prev2_apply x0) x
  · exact tbl_rows x0 64 1 rfl (by decide) inb_S512x32x128_S64x32x128_64_0_0 _ (prev1_apply x0) x
  · exact tbl_rows x0 0 0 rfl (by decide) inb_S512x32x128_S64x32x128_0_0_0 _ (prev0_apply x0) x

section Array

open Idealize.ShloMosaic.TcCoe
open Idealize.ShloMosaic.Pipeline (Dat)

variable (V : (c : Dev nD) → (b : Ref sig .tc) → Buf (Elt Ideal) ((c : Thread nD τ).loc b))

-- The table at (b, h) depends on the input only through the column (b, h).
theorem tbl_congr {H H' : ℕ} (x : FVec Ideal ⟨3, ![32, 64, H]⟩ .f32) (x' : FVec Ideal ⟨3, ![32, 64, H']⟩ .f32)
    (b : Fin 32) (h : Fin H) (h' : Fin H') (hx : ∀ i : Fin 64, x (ix3 b i h) = x' (ix3 b i h')) (r : Fin 512) :
    tbl x r b h = tbl x' r b h' := by
  unfold tbl
  rw [show col x b h = col x' b h' from funext fun i' => dite_congr rfl (fun hi => hx ⟨i', hi⟩) fun _ => rfl]

abbrev tblArr (X : FVec Ideal S32x64x512 .f32) : S512x32x512.Idx → EReal := fun j => tbl X (j 0) (j 1) (j 2)

-- Both block indices are (0, 0, t), checked point by point.
theorem idx_facts : ∀ t : Fin cfg0.N, win0_0.index t (0 : Fin 3) = 0 ∧ win0_0.index t (1 : Fin 3) = 0
    ∧ win0_0.index t (2 : Fin 3) = t.val ∧ win0_1.index t (0 : Fin 3) = 0 ∧ win0_1.index t (1 : Fin 3) = 0
    ∧ win0_1.index t (2 : Fin 3) = t.val :=
  (by decide +kernel : ∀ t : Fin grid0.N, _)

-- The block of point t is channels 128 t … 128 t + 127, of the input and of the table alike, and the table is computed column by column.
theorem flushed_eq (c : Dev nD) (t : Fin cfg0.N) :
    (dat0 V c).flushed 1 t = ((cfg0.win 1).blk t).view.read (Elt Ideal) (tblArr (V c main_arg0)) := by
  show (cfg0.win 1).cut (grid0.coords t) ((dat0 V c).after 1 t) = _
  rw [after0_1]
  funext j
  obtain ⟨r, b, h, rfl⟩ : ∃ r b h, j = ix3 r b h := ⟨j 0, j 1, j 2, eq_ix3 j⟩
  obtain ⟨i0, i1, i2, o0, o1, o2⟩ := idx_facts t
  have ht : t.val < 4 := lt_of_lt_of_eq t.isLt N_0
  have hh := h.isLt
  have eo : ((cfg0.win 1).blk t).view.emb (ix3 r b h) = (ix3 r b ⟨128 * t.val + h.val, by omega⟩ : S512x32x512.Idx) := by
    funext a; apply Fin.ext
    match a with
    | ⟨0, _⟩ => show win0_1.index t (0 : Fin 3) * 512 + 1 * r.val = r.val; rw [o0]; omega
    | ⟨1, _⟩ => show win0_1.index t (1 : Fin 3) * 32 + 1 * b.val = b.val; rw [o1]; omega
    | ⟨2, _⟩ => show win0_1.index t (2 : Fin 3) * 128 + 1 * h.val = 128 * t.val + h.val; rw [o2]; omega
  show out0_1 (F := Ideal) (iblk0 V c 0 t) (ix3 r b h) = tblArr (V c main_arg0) (((cfg0.win 1).blk t).view.emb (ix3 r b h))
  rw [out0_1_apply, eo]
  refine tbl_congr _ _ b h _ (fun i => ?_) r
  unfold iblk0
  rw [View.read_apply]
  show V c main_arg0 _ = V c main_arg0 _
  congr 1
  funext a; apply Fin.ext
  match a with
  | ⟨0, _⟩ => show win0_0.index t (0 : Fin 3) * 32 + 1 * b.val = b.val; rw [i0]; omega
  | ⟨1, _⟩ => show win0_0.index t (1 : Fin 3) * 64 + 1 * i.val = i.val; rw [i1]; omega
  | ⟨2, _⟩ => show win0_0.index t (2 : Fin 3) * 128 + 1 * h.val = 128 * t.val + h.val; rw [i2]; omega

-- Channel j lies in the slab of point j / 128.
theorem cover (i : S512x32x512.Idx) : ∃ t : Fin cfg0.N, (cfg0.win 1).flush t = true ∧ i ∈ ((cfg0.win 1).blk t).view.set := by
  have h0 : (i 0).val < 512 := (i 0).isLt
  have h1 : (i 1).val < 32 := (i 1).isLt
  have h2 : (i 2).val < 512 := (i 2).isLt
  let t : Fin cfg0.N := ⟨(i 2).val / 128, lt_of_lt_of_eq (by omega) N_0.symm⟩
  obtain ⟨-, -, -, e0, e1, e2⟩ := idx_facts t
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 3) * 512 ≤ (i 0).val ∧ (i 0).val < win0_1.index t (0 : Fin 3) * 512 + 512; rw [e0]; omega
  | ⟨1, _⟩ => show win0_1.index t (1 : Fin 3) * 32 ≤ (i 1).val ∧ (i 1).val < win0_1.index t (1 : Fin 3) * 32 + 32; rw [e1]; omega
  | ⟨2, _⟩ =>
    show win0_1.index t (2 : Fin 3) * 128 ≤ (i 2).val ∧ (i 2).val < win0_1.index t (2 : Fin 3) * 128 + 128
    rw [e2]
    show (i 2).val / 128 * 128 ≤ (i 2).val ∧ (i 2).val < (i 2).val / 128 * 128 + 128
    omega

-- The four slabs cover the table array, and each holds the table of its input slab.
theorem table_apply (c : Dev nD) (r : Fin 512) (b : Fin 32) (h : Fin 512) :
    (dat0 V c).arrAt 1 cfg0.N (ix3 r b h : S512x32x512.Idx) = tbl (V c main_arg0 : S32x64x512.Idx → EReal) r b h := by
  rw [(dat0 V c).arrAt_eq_of_cover 1 (tblArr (V c main_arg0)) (fun t _ => flushed_eq V c t) cover]

end Array

end Cert.KernelIdeal.R0V

end
-- ==== Proof.K1PooledValue.lean ====
import proofs.«401211_j85263690760702_3_alg».proof.Proof.K1Step
import proofs.«401211_j85263690760702_3_alg».proof.Proof.K1Pooled
import proofs.«401211_j85263690760702_3_alg».proof.Proof.K1Tables
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.R1V

open Cert.KernelIdeal Cert.KernelIdeal.Gen Cert.KernelIdeal.R1
open Idealize.ShloMosaic Idealize.ShloMosaic.ValueIdx

variable (i : grid1.Coords) (u0 u1 : Vec Ideal S2016 .i32) (T : Vec Ideal S512x8x512 .f32) (b : Fin 8) (h : Fin 512)

-- A one-row rectangle of the table block at offset (r, 0, 0), read at (0, b, h), is the block at (r, b, h).
theorem ld_row_apply (off : Fin 3 → ℕ) (inb : ∀ a, off a + S1x8x512.size a ≤ S512x8x512.size a) (r : Fin 512)
    (h0 : off 0 = r.val) (h1 : off 1 = 0) (h2 : off 2 = 0) :
    View.ld T (Rect.unit (s := S512x8x512) off S1x8x512.size inb) (ix3 (0 : Fin 1) b h) = T (ix3 r b h) := by
  show T ((Rect.unit (s := S512x8x512) off S1x8x512.size inb).emb (ix3 (0 : Fin 1) b h)) = _
  refine congrArg T (funext fun a => Fin.ext ?_)
  match a with
  | ⟨0, _⟩ => show off 0 + 1 * 0 = r.val; omega
  | ⟨1, _⟩ => show off 1 + 1 * b.val = b.val; omega
  | ⟨2, _⟩ => show off 2 + 1 * h.val = h.val; omega

theorem rowA_apply (v : BitVec 32) (hv : k1_chk1 v) (r : Fin 512) (e : v.toNat = r.val) :
    rowA T v (ix3 (0 : Fin 1) b h) = T (ix3 r b h) := by
  rw [rowA_of T v hv]; exact ld_row_apply T b h _ _ r e rfl rfl

theorem rowB_apply (v : BitVec 32) (hv : k1_chk2 v) (r : Fin 512) (e : v.toNat = r.val) :
    rowB T v (ix3 (0 : Fin 1) b h) = T (ix3 r b h) := by
  rw [rowB_of T v hv]; exact ld_row_apply T b h _ _ r e rfl rfl

-- A trip's pooled row is the elementwise maximum of its two gathered rows.
theorem pay10_apply (A B : Vec Ideal S1x8x512 .f32) :
    k1_pay10 A B (ix3 (0 : Fin 1) b h) = max (A (ix3 (0 : Fin 1) b h)) (B (ix3 (0 : Fin 1) b h)) := by
  show shapeCast S1x8x512 (maximumf (F := Ideal) (φ := .f32) (shapeCast S8x512 A shapeCasts_S1x8x512_S8x512)
    (shapeCast S8x512 B shapeCasts_S1x8x512_S8x512)) shapeCasts_S8x512_S1x8x512 _ = _
  rw [shapeCast_ab_1ab_apply, maximumf_apply, shapeCast_1ab_ab_apply, shapeCast_1ab_ab_apply]

theorem mem_rows : ∀ n, ∀ p ∈ rows i u0 u1 T n, ∃ k, p = rowPiece i u0 u1 T k
  | 0, p, hp => absurd hp List.not_mem_nil
  | n + 1, p, hp => by
    rw [rows] at hp
    split at hp
    · rename_i hn
      rcases List.mem_cons.mp hp with rfl | hp'
      · exact ⟨⟨n, hn⟩, rfl⟩
      · exact mem_rows n p hp'
    · exact mem_rows n p hp

def tripOf (y : S48x8x512.Idx) : Fin k1_t1_loop.trips := ⟨(y 0 : Fin 48).val, by rw [trips_eq]; exact (y 0 : Fin 48).isLt⟩

-- The pooled block as one function of the index: at (j, b, h), trip j's pooled row at (0, b, h).
def pooledFn (y : S48x8x512.Idx) : Ideal .f32 :=
  k1_pay10 (rowA T (u0 (slot i (tripOf y)))) (rowB T (u1 (slot i (tripOf y)))) (ix3 (0 : Fin 1) (y 1 : Fin 8) (y 2 : Fin 512))

theorem pooledOf_eq_fn (y : S48x8x512.Idx) : pooledOf i u0 u1 T y = pooledFn i u0 u1 T y := by
  unfold pooledOf
  refine View.canon_apply_of_pieces (pooledFn i u0 u1 T) _ (fun p hp x => ?_) y (rows_cover i u0 u1 T y)
  obtain ⟨k, rfl⟩ := mem_rows i u0 u1 T _ p hp
  have o0 : k1_off4 k 0 = k.val := by rw [k1_off4_eq]; rfl
  have o1 : k1_off4 k 1 = 0 := by rw [k1_off4_eq]; rfl
  have o2 : k1_off4 k 2 = 0 := by rw [k1_off4_eq]; rfl
  have x0 : (x 0).val < 1 := (x 0).isLt
  have hk : tripOf ((Rect.unit (s := S48x8x512) (k1_off4 k) S1x8x512.size (k1_off4_inb k)).emb x) = k :=
    Fin.ext (by show k1_off4 k 0 + 1 * (x 0).val = k.val; omega)
  show k1_pay10 (rowA T (u0 (slot i k))) (rowB T (u1 (slot i k))) x
    = pooledFn i u0 u1 T ((Rect.unit (s := S48x8x512) (k1_off4 k) S1x8x512.size (k1_off4_inb k)).emb x)
  unfold pooledFn
  rw [hk]
  refine congrArg (k1_pay10 (rowA T (u0 (slot i k))) (rowB T (u1 (slot i k)))) (funext fun a => Fin.ext ?_)
  match a with
  | ⟨0, _⟩ => show (x 0).val = 0; omega
  | ⟨1, _⟩ => show (x 1).val = k1_off4 k 1 + 1 * (x 1).val; omega
  | ⟨2, _⟩ => show (x 2).val = k1_off4 k 2 + 1 * (x 2).val; omega

-- Trip k of tile (i 1) reads entry 48 (i 1) + k of the index tables.
theorem slot_val (k : Fin k1_t1_loop.trips) : (S2016.rowMajor (slot i k)).val = 48 * (i 1).val + k.val := by
  rw [Shape.rowMajor_val_one]
  show k1_off1 i k 0 + 1 * 0 = _
  rw [k1_off1_eq]
  rfl

-- At (j, b, h) the pooled block is the larger of the table block's entries at (b, h) in the two rows the tables name for window j.
theorem pooledOf_apply (h1 : ∀ x, k1_chk1 (u0 x)) (h2 : ∀ x, k1_chk2 (u1 x)) (j : Fin 48) (r0 r1 : Fin 512)
    (e0 : (u0 (slot i (tripOf (ix3 j b h)))).toNat = r0.val) (e1 : (u1 (slot i (tripOf (ix3 j b h)))).toNat = r1.val) :
    pooledOf i u0 u1 T (ix3 j b h) = max (T (ix3 r0 b h)) (T (ix3 r1 b h)) := by
  rw [pooledOf_eq_fn]
  unfold pooledFn
  rw [pay10_apply, rowA_apply T _ _ _ (h1 _) r0 e0, rowB_apply T _ _ _ (h2 _) r1 e1]

theorem entry_lt {w : ℕ} (hw : w < 42) (j : Fin 48) : 48 * w + j.val < 2016 := by omega

theorem coords1_val (t : Fin grid1.N) : ((grid1.coords t) 1).val = t.val % 42 := by
  show t.val / grid1.stride 1 % grid1.bound 1 = _
  have hs : grid1.stride 1 = 1 := by decide
  have hb : grid1.bound 1 = 42 := rfl
  rw [hs, hb, Nat.div_one]

-- At a grid point of tile n the program's two tables name rows lit0 (48 n + j) and lit1 (48 n + j) for window j.
theorem pooledOf_tile_apply (t : Fin grid1.N) (n : Fin 42) (ht : t.val % 42 = n.val) (j : Fin 48) :
    pooledOf (grid1.coords t) (tb0 (F := Ideal)) (tb1 (F := Ideal)) T (ix3 j b h)
      = max (T (ix3 (⟨(lit0 ⟨48 * n.val + j.val, entry_lt n.isLt j⟩).toNat, lit0_lt _⟩ : Fin 512) b h))
          (T (ix3 (⟨(lit1 ⟨48 * n.val + j.val, entry_lt n.isLt j⟩).toNat, lit1_lt _⟩ : Fin 512) b h)) := by
  have hs : S2016.rowMajor (slot (grid1.coords t) (tripOf (ix3 j b h))) = (⟨48 * n.val + j.val, entry_lt n.isLt j⟩ : Fin 2016) :=
    Fin.ext (by rw [slot_val, coords1_val, ht]; rfl)
  exact pooledOf_apply _ _ _ T b h (tb0_chk (F := Ideal)) (tb1_chk (F := Ideal)) j _ _
    (congrArg (fun y => (lit0 y).toNat) hs) (congrArg (fun y => (lit1 y).toNat) hs)

end Cert.KernelIdeal.R1V

end
-- ==== Proof.Bridge.lean ====
import proofs.«401211_j85263690760702_3_alg».proof.Proof.RefHead
import proofs.«401211_j85263690760702_3_alg».proof.Proof.OnlineSoftmax
import proofs.«401211_j85263690760702_3_alg».proof.Proof.TableIds
import proofs.«401211_j85263690760702_3_alg».proof.Proof.K1Fold
import proofs.«401211_j85263690760702_3_alg».proof.Proof.K1Array
import proofs.«401211_j85263690760702_3_alg».proof.Proof.K0Value
import proofs.«401211_j85263690760702_3_alg».proof.Proof.KLaunch
import proofs.«401211_j85263690760702_3_alg».proof.Proof.K1PooledValue
import proofs.«401211_j85263690760702_3_alg».proof.Proof.RefTable
import Idealize.ShloMosaic.Lib.ValueLayout

noncomputable section

namespace Cert.Bridge

open Idealize.ShloMosaic Idealize.ShloMosaic.ValueIdx Idealize.ShloMosaic.TcCoe
open Cert.ReferenceIdeal (S32x64x512 S512x128 S128 S128x1 S1 S32x2016x512 S32x512)
open Cert.ReferenceIdeal.RefHead (refHead win refHead_apply)
open Cert.ReferenceIdeal.RefRun (refPooled refPooled_apply)
open Cert.KernelIdeal (nD τ sig main_arg0 main_arg1 main_arg2 main_arg3 main_arg4 main_v0 main_v1 cfg1 grid1)
open Cert.KernelIdeal.R0V (col)
open Cert.KernelIdeal.R1 (dat1 adm1 iblk1 pooledAt pooledOf tb0 tb1 lit0_lt lit1_lt)
open Cert.KernelIdeal.R1V (tileS tileP tileScore tpt)
open Cert.KernelIdeal.Launch (V1 V2)

-- The kernel's two rows of window n are 64 k + s and 64 k + e for the reference's level k and positions s, e of that window.
theorem pool_of_table (u : ℕ → EReal) (tab : Fin 512 → EReal)
    (htab : ∀ idx : Fin 512, tab idx = if idx.val < 448 then Cert.Spec.lvl u (idx.val / 64) (idx.val % 64) else 0)
    (n : Fin 2016) :
    max (tab ⟨(Cert.KernelIdeal.lit0 n).toNat, lit0_lt n⟩) (tab ⟨(Cert.KernelIdeal.lit1 n).toNat, lit1_lt n⟩)
      = Cert.Spec.pool u (Cert.ReferenceIdeal.lit0 n).toNat (Cert.ReferenceIdeal.lit1 n).toNat
          (Cert.ReferenceIdeal.lit2 n).toNat := by
  obtain ⟨hk, hs, he⟩ := Cert.TableIds.ref_bounds n
  have e1 := Cert.TableIds.idx1_eq n
  have e2 := Cert.TableIds.idx2_eq n
  rw [htab, htab]
  show max (if (Cert.KernelIdeal.lit0 n).toNat < 448 then
        Cert.Spec.lvl u ((Cert.KernelIdeal.lit0 n).toNat / 64) ((Cert.KernelIdeal.lit0 n).toNat % 64) else 0)
      (if (Cert.KernelIdeal.lit1 n).toNat < 448 then
        Cert.Spec.lvl u ((Cert.KernelIdeal.lit1 n).toNat / 64) ((Cert.KernelIdeal.lit1 n).toNat % 64) else 0) = _
  rw [e1, e2]
  generalize (Cert.ReferenceIdeal.lit0 n).toNat = k at hk ⊢
  generalize (Cert.ReferenceIdeal.lit1 n).toNat = s at hs ⊢
  generalize (Cert.ReferenceIdeal.lit2 n).toNat = e at he ⊢
  rw [if_pos (by omega), if_pos (by omega), show (64 * k + s) / 64 = k by omega, show (64 * k + s) % 64 = s by omega,
    show (64 * k + e) / 64 = k by omega, show (64 * k + e) % 64 = e by omega]
  rfl

section

variable (x : FVec Ideal S32x64x512 .f32) (W1 : FVec Ideal S512x128 .f32) (b1 : FVec Ideal S128 .f32)
  (W2 : FVec Ideal S128x1 .f32) (b2 : FVec Ideal S1 .f32)
  (h0 : ∀ i, ∃ q : ℝ, x i = (q : EReal)) (h1 : ∀ i, ∃ q : ℝ, W1 i = (q : EReal))
  (h2 : ∀ i, ∃ q : ℝ, b1 i = (q : EReal)) (h3 : ∀ i, ∃ q : ℝ, W2 i = (q : EReal))
  (h4 : ∀ i, ∃ q : ℝ, b2 i = (q : EReal))
  (V : (c : Dev nD) → (b : Ref sig .tc) → Buf (Elt Ideal) ((c : Thread nD τ).loc b)) (c : Dev nD)

include h0 in
-- A pooled entry is a maximum of finitely many entries of a finite input, so it is real.
theorem pooled_real (r : Fin 32) (n : Fin 2016) (h : Fin 512) : ∃ q : ℝ, refPooled x (ix3 r n h) = (q : EReal) := by
  rw [refPooled_apply]
  obtain ⟨_, hs, he⟩ := Cert.TableIds.ref_bounds n
  refine Cert.Spec.pool_real (col x r h) (fun i hi => ?_) _ _ _ (by omega) (by omega)
  unfold col
  rw [dif_pos hi]
  exact h0 _

include h0 h1 h2 h3 h4 in
-- For real scores and pooled rows the running softmax over 42 tiles of 48 is the one-pass softmax, which the head computes.
theorem online_eq_refHead (r : Fin 32) (h : Fin 512) (S P : Fin 42 → Fin 48 → EReal)
    (hP : ∀ t j, P t j = refPooled x (ix3 r (win t j) h))
    (hS : ∀ t j, S t j = Cert.Spec.score (fun h' => refPooled x (ix3 r (win t j) h')) (fun h' a => W1 (ix2 h' a))
      (fun a => b1 (ix1 a)) (fun a => W2 (ix2 a 0)) (b2 (ix1 0))) :
    Cert.Spec.online S P = refHead (refPooled x) W1 b1 W2 b2 (ix2 r h) := by
  obtain rfl : S = _ := funext fun t => funext fun j => hS t j
  obtain rfl : P = _ := funext fun t => funext fun j => hP t j
  rw [refHead_apply]
  exact Cert.Spec.online_eq_softmaxSum_of_real (by decide) (by decide) _ _
    (fun t j => Cert.Spec.score_real _ _ _ _ _ (fun h' => pooled_real x h0 r (win t j) h') (fun h' a => h1 _)
      (fun a => h2 _) (fun a => h3 _) (h4 _))
    (fun t j => pooled_real x h0 r (win t j) h)

-- The result array's entry at batch entry 8 bi + b is the running softmax of that entry's tables.
theorem out_online (bi : Fin 4) (b : Fin 8) (h : Fin 512) :
    ((dat1 V c).arrAt 5 (cfg1 (adm1 (F := Ideal))).N : FVec Ideal S32x512 .f32) (ix2 (⟨8 * bi.val + b.val, by omega⟩ : Fin 32) h)
      = Cert.Spec.online (T := 42) (K := 48) (tileS V c bi b) (tileP V c bi b h) :=
  (Cert.KernelIdeal.R1V.out_array V c bi b h).trans (Cert.KernelIdeal.R1V.out_eq_online V c bi b h)

-- The table array by row, batch entry and channel.
def tabOf : Fin 512 → Fin 32 → Fin 512 → EReal := fun idx r h => (V c main_v1 (ix3 idx r h) : EReal)

theorem iblk1_0_tab (t : Fin (cfg1 (adm1 (F := Ideal))).N) (r : Fin 512) (b : Fin 8) (h : Fin 512) :
    (iblk1 V c 0 t (ix3 r b h) : EReal)
      = tabOf V c r (⟨8 * (t.val / 42) + b.val, by have := Cert.KernelIdeal.R1V.lt_168 (adm1 (F := Ideal)) t; omega⟩ : Fin 32) h :=
  Cert.KernelIdeal.R1V.iblk1_0_apply V c t r b h

-- A pooled entry of a tile is the larger of the two rows of the table array its window names, at the tile's batch entry.
theorem tileP_eq (bi : Fin 4) (b : Fin 8) (h : Fin 512) (t : Fin 42) (j : Fin 48) :
    tileP V c bi b h t j
      = max (tabOf V c (⟨(Cert.KernelIdeal.lit0 (win t j)).toNat, lit0_lt _⟩ : Fin 512) (⟨8 * bi.val + b.val, by omega⟩ : Fin 32) h)
          (tabOf V c (⟨(Cert.KernelIdeal.lit1 (win t j)).toNat, lit1_lt _⟩ : Fin 512) (⟨8 * bi.val + b.val, by omega⟩ : Fin 32) h) := by
  have e : (⟨8 * ((tpt bi t).val / 42) + b.val, by
      have : (tpt bi t).val = 42 * bi.val + t.val := rfl
      omega⟩ : Fin 32) = ⟨8 * bi.val + b.val, by omega⟩ :=
    Fin.ext (by show 8 * ((42 * bi.val + t.val) / 42) + b.val = 8 * bi.val + b.val; omega)
  show (pooledAt V c (tpt bi t) (ix3 j b h) : EReal) = _
  rw [Cert.KernelIdeal.R1.pooledAt_eq,
    Cert.KernelIdeal.R1V.pooledOf_tile_apply _ b h (tpt bi t) t (by show (42 * bi.val + t.val) % 42 = t.val; omega) j,
    iblk1_0_tab, iblk1_0_tab, e]

-- A score of a tile is the specification's score of the tile's pooled row under the given weights.
theorem tileS_eq (ha1 : V c main_arg1 = W1) (ha2 : V c main_arg2 = b1) (ha3 : V c main_arg3 = W2)
    (hv0 : (V c main_v0 (ix2 (0 : Fin 1) (0 : Fin 1)) : EReal) = b2 (ix1 (0 : Fin 1)))
    (bi : Fin 4) (b : Fin 8) (t : Fin 42) (j : Fin 48) :
    tileS V c bi b t j
      = Cert.Spec.score (fun h' => tileP V c bi b h' t j) (fun h' a => W1 (ix2 h' a)) (fun a => b1 (ix1 a))
          (fun a => W2 (ix2 a 0)) (b2 (ix1 0)) := by
  have e1 := Cert.KernelIdeal.R1V.iblk1_1_eq V c (tpt bi t)
  have e2 := Cert.KernelIdeal.R1V.iblk1_2_eq V c (tpt bi t)
  have e3 := Cert.KernelIdeal.R1V.iblk1_3_eq V c (tpt bi t)
  have e4 := Cert.KernelIdeal.R1V.iblk1_4_eq V c (tpt bi t)
  show tileScore (pooledAt V c (tpt bi t)) (iblk1 V c 1 (tpt bi t)) (iblk1 V c 2 (tpt bi t)) (iblk1 V c 3 (tpt bi t))
    (iblk1 V c 4 (tpt bi t)) b j = _
  rw [e1, e2, e3, e4, ha1, ha2, ha3]
  unfold Cert.KernelIdeal.R1V.tileScore
  rw [hv0]
  rfl

include h0 h1 h2 h3 h4 in
-- Over a table of the input's running maxima and the given weights, the second kernel's result is the reference's head.
theorem kernel_value_of
    (hv1 : ∀ (idx : Fin 512) (r : Fin 32) (h : Fin 512), tabOf V c idx r h = Cert.KernelIdeal.R0V.tbl x idx r h)
    (ha1 : V c main_arg1 = W1) (ha2 : V c main_arg2 = b1) (ha3 : V c main_arg3 = W2)
    (hv0 : (V c main_v0 (ix2 (0 : Fin 1) (0 : Fin 1)) : EReal) = b2 (ix1 (0 : Fin 1))) :
    ((dat1 V c).arrAt 5 (cfg1 (adm1 (F := Ideal))).N : FVec Ideal S32x512 .f32) = refHead (refPooled x) W1 b1 W2 b2 := by
  funext idx
  obtain ⟨r, h, rfl⟩ : ∃ (r : Fin 32) (h : Fin 512), idx = ix2 r h := ⟨idx 0, idx 1, eq_ix2 idx⟩
  obtain ⟨bi, b, rfl⟩ : ∃ (bi : Fin 4) (b : Fin 8), r = ⟨8 * bi.val + b.val, by omega⟩ :=
    ⟨⟨r.val / 8, by omega⟩, ⟨r.val % 8, by omega⟩, Fin.ext (by show r.val = 8 * (r.val / 8) + r.val % 8; omega)⟩
  have hP : ∀ (h' : Fin 512) (t : Fin 42) (j : Fin 48),
      tileP V c bi b h' t j = refPooled x (ix3 (⟨8 * bi.val + b.val, by omega⟩ : Fin 32) (win t j) h') := fun h' t j => by
    rw [tileP_eq, refPooled_apply]
    exact pool_of_table (col x ⟨8 * bi.val + b.val, by omega⟩ h')
      (fun idx => tabOf V c idx ⟨8 * bi.val + b.val, by omega⟩ h') (fun idx => (hv1 idx _ h').trans rfl) (win t j)
  rw [out_online]
  refine online_eq_refHead x W1 b1 W2 b2 h0 h1 h2 h3 h4 _ h _ _ (hP h) fun t j => ?_
  rw [tileS_eq W1 b1 W2 b2 V c ha1 ha2 ha3 hv0]
  exact congrArg (fun p => Cert.Spec.score p _ _ _ _) (funext fun h' => hP h' t j)

end

theorem kernel_value (m : (ℓ : Loc nD τ sig) → Buf (Elt Ideal) ℓ) (c : Dev nD)
    (h0 : ∀ i : S32x64x512.Idx, ∃ q : ℝ, m ((c : Thread nD τ).loc main_arg0) i = (q : EReal))
    (h1 : ∀ i : S512x128.Idx, ∃ q : ℝ, m ((c : Thread nD τ).loc main_arg1) i = (q : EReal))
    (h2 : ∀ i : S128.Idx, ∃ q : ℝ, m ((c : Thread nD τ).loc main_arg2) i = (q : EReal))
    (h3 : ∀ i : S128x1.Idx, ∃ q : ℝ, m ((c : Thread nD τ).loc main_arg3) i = (q : EReal))
    (h4 : ∀ i : S1.Idx, ∃ q : ℝ, m ((c : Thread nD τ).loc main_arg4) i = (q : EReal)) :
    ((dat1 (V2 m) c).arrAt 5 (cfg1 (adm1 (F := Ideal))).N : FVec Ideal S32x512 .f32)
      = refHead (Cert.ReferenceIdeal.RefRun.refPooled (m ((c : Thread nD τ).loc main_arg0)))
          (m ((c : Thread nD τ).loc main_arg1)) (m ((c : Thread nD τ).loc main_arg2))
          (m ((c : Thread nD τ).loc main_arg3)) (m ((c : Thread nD τ).loc main_arg4)) :=
  kernel_value_of _ _ _ _ _ h0 h1 h2 h3 h4 (V2 m) c
    (fun idx r h => by
      show (V2 m c main_v1 (ix3 idx r h) : EReal) = _
      rw [Cert.KernelIdeal.Launch.V2_main_v1, Cert.KernelIdeal.R0V.table_apply, Cert.KernelIdeal.Launch.V1_main_arg0])
    (Cert.KernelIdeal.Launch.V2_main_arg1 m c) (Cert.KernelIdeal.Launch.V2_main_arg2 m c)
    (Cert.KernelIdeal.Launch.V2_main_arg3 m c)
    (by
      rw [Cert.KernelIdeal.Launch.V2_main_v0']
      exact shapeCast_a_1a_apply _ _ (0 : Fin 1) (0 : Fin 1))

end Cert.Bridge

end
-- ==== Proof.lean ====
import proofs.«401211_j85263690760702_3_alg».proof.Defs
import proofs.«401211_j85263690760702_3_alg».proof.Proof.Gen.Kernel
import proofs.«401211_j85263690760702_3_alg».proof.Proof.Gen.KernelIdeal
import proofs.«401211_j85263690760702_3_alg».proof.Proof.Gen.ReferenceIdeal
import proofs.«401211_j85263690760702_3_alg».proof.Proof.Gen.Pre_finite_inputs
import proofs.«401211_j85263690760702_3_alg».proof.Proof.KRun
import proofs.«401211_j85263690760702_3_alg».proof.Proof.Bits.KRun
import proofs.«401211_j85263690760702_3_alg».proof.Proof.RefFrame
import proofs.«401211_j85263690760702_3_alg».proof.Proof.RefFinal
import proofs.«401211_j85263690760702_3_alg».proof.Proof.RefTable
import proofs.«401211_j85263690760702_3_alg».proof.Proof.Finite
import proofs.«401211_j85263690760702_3_alg».proof.Proof.Bridge

noncomputable section

namespace Cert.Proof

open Idealize.ShloMosaic Idealize.SL.Sem

theorem frame_k : Cert.frame_Kernel := fun m ρ _ =>
  (θ_run Cert.Kernel.defs _ _).mono (fun _ h c => (h c).2) (Cert.Kernel.Launch.run (F := Bits) m ρ)

theorem frame_ki : Cert.frame_KernelIdeal := fun m ρ _ =>
  (θ_run Cert.KernelIdeal.defs _ _).mono (fun _ h c => (h c).2) (Cert.KernelIdeal.Launch.run (F := Ideal) m ρ)

/-- The reference writes no argument. -/
theorem frame_ri : Cert.frame_ReferenceIdeal := fun m ρ _ => Cert.ReferenceIdeal.RefRun.frame (F := Ideal) m ρ

/-- The kernel's finite padding value is named, and its value over the extended reals is `⊥`, the identity of `max`. -/
theorem neg_big : IdealRules.named_const.Statement Cert.KernelIdeal.κ "neg_big" .f32 0xF149F2CA#32 ⊥ :=
  IdealRules.named_const.statement Cert.KernelIdeal.κ "neg_big" .f32 0xF149F2CA#32 ⊥ rfl

theorem preserves : Cert.preserves_Kernel_KernelIdeal := ⟨neg_big, neg_big, neg_big, neg_big, neg_big, neg_big⟩

/-- Both programs end at one function of the finite arguments: the running softmax over tiles is the one-pass softmax. -/
theorem algebraic : Cert.algebraic_KernelIdeal_ReferenceIdeal := by
  intro m ρ m' ρ' hpre hagree
  refine ⟨fun c => (Cert.KernelIdeal.R1.dat1 (Cert.KernelIdeal.Launch.V2 m) c).arrAt (5 : Fin 6) (Cert.KernelIdeal.cfg1 Cert.KernelIdeal.R1.adm1).N,
    Cert.KernelIdeal.Launch.run (F := Ideal) m ρ, ?_⟩
  refine (θ_run Cert.ReferenceIdeal.defs _ _).mono (fun _ h c => ⟨(h c).1.trans ?_, (h c).2⟩)
    (Cert.ReferenceIdeal.RefValue.run_value m' ρ')
  obtain ⟨h0, h1, h2, h3, h4⟩ := Cert.Finite.finite_of_pre _ _ _ _ _ (hpre c)
  rw [(hagree c).1, (hagree c).2.1, (hagree c).2.2.1, (hagree c).2.2.2.1, (hagree c).2.2.2.2]
  exact (Cert.Bridge.kernel_value m c h0 h1 h2 h3 h4).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
